-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![3072, 1536]⟩ ⟨2, ![3072, 12288]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1536, 3072]⟩ ⟨2, ![12288, 3072]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![384, 3072]⟩ ⟨2, ![3072, 3072]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S3072x1536 : Shape := ⟨2, ![3072, 1536]⟩
abbrev S1536x3072 : Shape := ⟨2, ![1536, 3072]⟩
abbrev S_ : Shape := ⟨0, ![]⟩

class Facts : Prop where
  bcast_S_S3072x1536 : S_.BroadcastsInDim S3072x1536 (![] : Fin 0 → Fin S3072x1536.rank)
  reducesTo_S3072x1536_S_d0_1 : S3072x1536.ReducesTo [0, 1] S_
  h_S_ : 0 < S_.numel
  bcast_S_S1536x3072 : S_.BroadcastsInDim S1536x3072 (![] : Fin 0 → Fin S1536x3072.rank)
  reducesTo_S1536x3072_S_d0_1 : S1536x3072.ReducesTo [0, 1] S_

variable [Facts]

def fn {F : FTy → Type} [FloatOps F] (main_arg0 : FVec F S3072x1536 .f32) (main_arg1 : FVec F S1536x3072 .f32) : IVec S_ 1 :=
  let main_v0 : FVec F S3072x1536 .f32 := Host.absf main_arg0
  let main_cst : FVec F S_ .f32 := constant S_ .f32 0x7F800000#32
  let main_v1 : FVec F S3072x1536 .f32 := broadcastInDim S3072x1536 ![] bcast_S_S3072x1536 main_cst
  let main_v2 : IVec S3072x1536 1 := cmpf .olt main_v0 main_v1
  let main_c : IVec S_ 1 := constantI S_ 1 1#1
  let main_v3 : IVec S_ 1 := (fun x v => Host.reduce IntOp.andi x v reducesTo_S3072x1536_S_d0_1 h_S_) main_v2 main_c
  let main_v4 : FVec F S1536x3072 .f32 := Host.absf main_arg1
  let main_cst_0 : FVec F S_ .f32 := constant S_ .f32 0x7F800000#32
  let main_v5 : FVec F S1536x3072 .f32 := broadcastInDim S1536x3072 ![] bcast_S_S1536x3072 main_cst_0
  let main_v6 : IVec S1536x3072 1 := cmpf .olt main_v4 main_v5
  let main_c_1 : IVec S_ 1 := constantI S_ 1 1#1
  let main_v7 : IVec S_ 1 := (fun x v => Host.reduce IntOp.andi x v reducesTo_S1536x3072_S_d0_1 h_S_) main_v6 main_c_1
  let main_v8 : IVec S_ 1 := andi main_v3 main_v7
  main_v8
-- ==== Pre_finite_inputs_ReferenceIdeal.lean ====
abbrev S3072x12288 : Shape := ⟨2, ![3072, 12288]⟩
abbrev S12288x3072 : Shape := ⟨2, ![12288, 3072]⟩
abbrev S_ : Shape := ⟨0, ![]⟩

class Facts : Prop where
  bcast_S_S3072x12288 : S_.BroadcastsInDim S3072x12288 (![] : Fin 0 → Fin S3072x12288.rank)
  reducesTo_S3072x12288_S_d0_1 : S3072x12288.ReducesTo [0, 1] S_
  h_S_ : 0 < S_.numel
  bcast_S_S12288x3072 : S_.BroadcastsInDim S12288x3072 (![] : Fin 0 → Fin S12288x3072.rank)
  reducesTo_S12288x3072_S_d0_1 : S12288x3072.ReducesTo [0, 1] S_

variable [Facts]

def fn {F : FTy → Type} [FloatOps F] (main_arg0 : FVec F S3072x12288 .f32) (main_arg1 : FVec F S12288x3072 .f32) : IVec S_ 1 :=
  let main_v0 : FVec F S3072x12288 .f32 := Host.absf main_arg0
  let main_cst : FVec F S_ .f32 := constant S_ .f32 0x7F800000#32
  let main_v1 : FVec F S3072x12288 .f32 := broadcastInDim S3072x12288 ![] bcast_S_S3072x12288 main_cst
  let main_v2 : IVec S3072x12288 1 := cmpf .olt main_v0 main_v1
  let main_c : IVec S_ 1 := constantI S_ 1 1#1
  let main_v3 : IVec S_ 1 := (fun x v => Host.reduce IntOp.andi x v reducesTo_S3072x12288_S_d0_1 h_S_) main_v2 main_c
  let main_v4 : FVec F S12288x3072 .f32 := Host.absf main_arg1
  let main_cst_0 : FVec F S_ .f32 := constant S_ .f32 0x7F800000#32
  let main_v5 : FVec F S12288x3072 .f32 := broadcastInDim S12288x3072 ![] bcast_S_S12288x3072 main_cst_0
  let main_v6 : IVec S12288x3072 1 := cmpf .olt main_v4 main_v5
  let main_c_1 : IVec S_ 1 := constantI S_ 1 1#1
  let main_v7 : IVec S_ 1 := (fun x v => Host.reduce IntOp.andi x v reducesTo_S12288x3072_S_d0_1 h_S_) main_v6 main_c_1
  let main_v8 : IVec S_ 1 := andi main_v3 main_v7
  main_v8
-- ==== Kernel.lean ====
abbrev S3072x1536 : Shape := ⟨2, ![3072, 1536]⟩
abbrev S1536x3072 : Shape := ⟨2, ![1536, 3072]⟩
abbrev S384x3072 : Shape := ⟨2, ![384, 3072]⟩
abbrev S2x384x1536 : Shape := ⟨3, ![2, 384, 1536]⟩
abbrev S1536x1024 : Shape := ⟨2, ![1536, 1024]⟩
abbrev S3x4x384x1024 : Shape := ⟨4, ![3, 4, 384, 1024]⟩
abbrev S3x2x384x1024 : Shape := ⟨4, ![3, 2, 384, 1024]⟩
abbrev S3x1x384x1024 : Shape := ⟨4, ![3, 1, 384, 1024]⟩
abbrev S2 : Shape := ⟨1, ![2]⟩
abbrev S_ : Shape := ⟨0, ![]⟩
abbrev S3x4 : Shape := ⟨2, ![3, 4]⟩
abbrev S3x2 : Shape := ⟨2, ![3, 2]⟩
abbrev S3x1 : Shape := ⟨2, ![3, 1]⟩
abbrev S1 : Shape := ⟨1, ![1]⟩
abbrev S1x384x1536 : Shape := ⟨3, ![1, 384, 1536]⟩
abbrev S384x1536 : Shape := ⟨2, ![384, 1536]⟩
abbrev S384x1024 : Shape := ⟨2, ![384, 1024]⟩
abbrev S1x1x384x1024 : Shape := ⟨4, ![1, 1, 384, 1024]⟩
abbrev S1x1 : Shape := ⟨2, ![1, 1]⟩

abbrev nBuf : Space → Nat
  | .hbm => 3
  | .vmem => 9
  | .smem => 0
  | _ => 0

abbrev bufTy : (tb : Table) → Fin (tcTables nBuf tb) → BufTy
  | .hbm, ⟨0, _⟩ => ⟨S3072x1536, .f32⟩
  | .hbm, ⟨1, _⟩ => ⟨S1536x3072, .f32⟩
  | .hbm, ⟨2, _⟩ => ⟨S384x3072, .bf16⟩
  | .local _ .vmem, ⟨0, _⟩ => ⟨S384x3072, .bf16⟩
  | .local _ .vmem, ⟨1, _⟩ => ⟨S3072x1536, .bf16⟩
  | .local _ .vmem, ⟨2, _⟩ => ⟨S1536x3072, .bf16⟩
  | .local _ .vmem, ⟨3, _⟩ => ⟨S2x384x1536, .f32⟩
  | .local _ .vmem, ⟨4, _⟩ => ⟨S1536x1024, .f32⟩
  | .local _ .vmem, ⟨5, _⟩ => ⟨S3x4x384x1024, .bf16⟩
  | .local _ .vmem, ⟨6, _⟩ => ⟨S3x4x384x1024, .bf16⟩
  | .local _ .vmem, ⟨7, _⟩ => ⟨S3x2x384x1024, .bf16⟩
  | .local _ .vmem, ⟨8, _⟩ => ⟨S3x1x384x1024, .bf16⟩
  | _, _ => ⟨S3072x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  (ofTc nBuf bufTy 1 46 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v7 : BitVec 32 := Scalar.xori v2 c3_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v10 : BitVec 32 := Scalar.xori v2 c4_i32
  let c1_i32_7 : BitVec 32 := 1#32
  let v11 : BitVec 32 := Scalar.muli v10 c1_i32_7
  let v12 : BitVec 32 := Scalar.addi c0_i32_8 v11
  v12.toNat
def k0_off1 (d0 : Dev nD) (c6_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v14 : BitVec 32 := Scalar.xori v2 c6_i32
  let c384_i32 : BitVec 32 := 384#32
  let v15 : BitVec 32 := Scalar.muli v14 c384_i32
  let c0_i32_16 : BitVec 32 := 0#32
  ![v15.toNat, 0]
def k0_off2 (d0 : Dev nD) (c6_i32_31 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v36 : BitVec 32 := Scalar.xori v2 c6_i32_31
  let c384_i32_32 : BitVec 32 := 384#32
  let v37 : BitVec 32 := Scalar.muli v36 c384_i32_32
  let v38 : Index := Scalar.indexCast v37
  let c0_33 : Index := 0#32
  ![v38.toNat, 0]
def k0_dev4 (d0 : Dev nD) : Nat :=
  let c0_i32_59 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_49 : BitVec 32 := 4#32
  let v59 : BitVec 32 := Scalar.xori v2 c4_i32_49
  let c1_i32_58 : BitVec 32 := 1#32
  let v60 : BitVec 32 := Scalar.muli v59 c1_i32_58
  let v61 : BitVec 32 := Scalar.addi c0_i32_59 v60
  v61.toNat
def k0_dev5 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_79 : BitVec 32 := 3#32
  let v87 : BitVec 32 := Scalar.xori v2 c3_i32_79
  let c1_i32_88 : BitVec 32 := 1#32
  let v88 : BitVec 32 := Scalar.muli v87 c1_i32_88
  let v89 : BitVec 32 := Scalar.addi c0_i32_89 v88
  v89.toNat
def k0_dev6 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_108 : BitVec 32 := 1#32
  let v114 : BitVec 32 := Scalar.xori v2 c1_i32_108
  let c1_i32_116 : BitVec 32 := 1#32
  let v115 : BitVec 32 := Scalar.muli v114 c1_i32_116
  let v116 : BitVec 32 := Scalar.addi c0_i32_117 v115
  v116.toNat
def k0_dev7 (d0 : Dev nD) : Nat :=
  let c0_i32_160 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_150 : BitVec 32 := 4#32
  let v156 : BitVec 32 := Scalar.xori v2 c4_i32_150
  let c1_i32_159 : BitVec 32 := 1#32
  let v157 : BitVec 32 := Scalar.muli v156 c1_i32_159
  let v158 : BitVec 32 := Scalar.addi c0_i32_160 v157
  v158.toNat
def k0_dev8 (d0 : Dev nD) : Nat :=
  let c0_i32_202 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_192 : BitVec 32 := 3#32
  let v198 : BitVec 32 := Scalar.xori v2 c3_i32_192
  let c1_i32_201 : BitVec 32 := 1#32
  let v199 : BitVec 32 := Scalar.muli v198 c1_i32_201
  let v200 : BitVec 32 := Scalar.addi c0_i32_202 v199
  v200.toNat
def k0_dev9 (d0 : Dev nD) : Nat :=
  let c0_i32_245 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_235 : BitVec 32 := 1#32
  let v240 : BitVec 32 := Scalar.xori v2 c1_i32_235
  let c1_i32_244 : BitVec 32 := 1#32
  let v241 : BitVec 32 := Scalar.muli v240 c1_i32_244
  let v242 : BitVec 32 := Scalar.addi c0_i32_245 v241
  v242.toNat
def k0_dev10 (d0 : Dev nD) : Nat :=
  let c0_i32_270 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_260 : BitVec 32 := 4#32
  let v261 : BitVec 32 := Scalar.xori v2 c4_i32_260
  let c1_i32_269 : BitVec 32 := 1#32
  let v262 : BitVec 32 := Scalar.muli v261 c1_i32_269
  let v263 : BitVec 32 := Scalar.addi c0_i32_270 v262
  v263.toNat
def k0_dev11 (d0 : Dev nD) : Nat :=
  let c0_i32_313 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_303 : BitVec 32 := 3#32
  let v303 : BitVec 32 := Scalar.xori v2 c3_i32_303
  let c1_i32_312 : BitVec 32 := 1#32
  let v304 : BitVec 32 := Scalar.muli v303 c1_i32_312
  let v305 : BitVec 32 := Scalar.addi c0_i32_313 v304
  v305.toNat
def k0_dev12 (d0 : Dev nD) : Nat :=
  let c0_i32_356 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_346 : BitVec 32 := 1#32
  let v345 : BitVec 32 := Scalar.xori v2 c1_i32_346
  let c1_i32_355 : BitVec 32 := 1#32
  let v346 : BitVec 32 := Scalar.muli v345 c1_i32_355
  let v347 : BitVec 32 := Scalar.addi c0_i32_356 v346
  v347.toNat
def k0_dev13 (d0 : Dev nD) : Nat :=
  let c0_i32_398 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_388 : BitVec 32 := 4#32
  let v387 : BitVec 32 := Scalar.xori v2 c4_i32_388
  let c1_i32_397 : BitVec 32 := 1#32
  let v388 : BitVec 32 := Scalar.muli v387 c1_i32_397
  let v389 : BitVec 32 := Scalar.addi c0_i32_398 v388
  v389.toNat
def k0_dev14 (d0 : Dev nD) : Nat :=
  let c0_i32_423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_413 : BitVec 32 := 3#32
  let v408 : BitVec 32 := Scalar.xori v2 c3_i32_413
  let c1_i32_422 : BitVec 32 := 1#32
  let v409 : BitVec 32 := Scalar.muli v408 c1_i32_422
  let v410 : BitVec 32 := Scalar.addi c0_i32_423 v409
  v410.toNat
def k0_dev15 (d0 : Dev nD) : Nat :=
  let c0_i32_448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_438 : BitVec 32 := 1#32
  let v429 : BitVec 32 := Scalar.xori v2 c1_i32_438
  let c1_i32_447 : BitVec 32 := 1#32
  let v430 : BitVec 32 := Scalar.muli v429 c1_i32_447
  let v431 : BitVec 32 := Scalar.addi c0_i32_448 v430
  v431.toNat
def k0_dev16 (d0 : Dev nD) : Nat :=
  let c0_i32_504 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_494 : BitVec 32 := 3#32
  let v467 : BitVec 32 := Scalar.xori v2 c3_i32_494
  let c1_i32_503 : BitVec 32 := 1#32
  let v468 : BitVec 32 := Scalar.muli v467 c1_i32_503
  let v469 : BitVec 32 := Scalar.addi c0_i32_504 v468
  v469.toNat
def k0_dev17 (d0 : Dev nD) : Nat :=
  let c0_i32_560 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_550 : BitVec 32 := 1#32
  let v505 : BitVec 32 := Scalar.xori v2 c1_i32_550
  let c1_i32_559 : BitVec 32 := 1#32
  let v506 : BitVec 32 := Scalar.muli v505 c1_i32_559
  let v507 : BitVec 32 := Scalar.addi c0_i32_560 v506
  v507.toNat
def k0_dev18 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_606 : BitVec 32 := 4#32
  let v543 : BitVec 32 := Scalar.xori v2 c4_i32_606
  let c1_i32_615 : BitVec 32 := 1#32
  let v544 : BitVec 32 := Scalar.muli v543 c1_i32_615
  let v545 : BitVec 32 := Scalar.addi c0_i32_616 v544
  v545.toNat
def k0_dev19 (d0 : Dev nD) : Nat :=
  let c0_i32_672 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_662 : BitVec 32 := 3#32
  let v581 : BitVec 32 := Scalar.xori v2 c3_i32_662
  let c1_i32_671 : BitVec 32 := 1#32
  let v582 : BitVec 32 := Scalar.muli v581 c1_i32_671
  let v583 : BitVec 32 := Scalar.addi c0_i32_672 v582
  v583.toNat
def k0_dev20 (d0 : Dev nD) : Nat :=
  let c0_i32_728 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_718 : BitVec 32 := 1#32
  let v619 : BitVec 32 := Scalar.xori v2 c1_i32_718
  let c1_i32_727 : BitVec 32 := 1#32
  let v620 : BitVec 32 := Scalar.muli v619 c1_i32_727
  let v621 : BitVec 32 := Scalar.addi c0_i32_728 v620
  v621.toNat
def k0_dev21 (d0 : Dev nD) : Nat :=
  let c0_i32_784 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_774 : BitVec 32 := 4#32
  let v657 : BitVec 32 := Scalar.xori v2 c4_i32_774
  let c1_i32_783 : BitVec 32 := 1#32
  let v658 : BitVec 32 := Scalar.muli v657 c1_i32_783
  let v659 : BitVec 32 := Scalar.addi c0_i32_784 v658
  v659.toNat
def k0_dev22 (d0 : Dev nD) : Nat :=
  let c0_i32_871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_861 : BitVec 32 := 1#32
  let v712 : BitVec 32 := Scalar.xori v2 c1_i32_861
  let c1_i32_870 : BitVec 32 := 1#32
  let v713 : BitVec 32 := Scalar.muli v712 c1_i32_870
  let v714 : BitVec 32 := Scalar.addi c0_i32_871 v713
  v714.toNat
def k0_dev23 (d0 : Dev nD) : Nat :=
  let c0_i32_958 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_948 : BitVec 32 := 4#32
  let v767 : BitVec 32 := Scalar.xori v2 c4_i32_948
  let c1_i32_957 : BitVec 32 := 1#32
  let v768 : BitVec 32 := Scalar.muli v767 c1_i32_957
  let v769 : BitVec 32 := Scalar.addi c0_i32_958 v768
  v769.toNat
def k0_dev24 (d0 : Dev nD) : Nat :=
  let c0_i32_1045 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_1035 : BitVec 32 := 3#32
  let v822 : BitVec 32 := Scalar.xori v2 c3_i32_1035
  let c1_i32_1044 : BitVec 32 := 1#32
  let v823 : BitVec 32 := Scalar.muli v822 c1_i32_1044
  let v824 : BitVec 32 := Scalar.addi c0_i32_1045 v823
  v824.toNat
abbrev stage0_0 : Fin 1 → Memref sig .tc .vmem S384x3072 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  hamt_3 : (3#32 : BitVec 32).msb = false
  inb_S1536x3072_S1536x1024_0_0 : ∀ a, (![0, 0] : Fin 2 → Nat) a + S1536x1024.size a ≤ S1536x3072.size a
  inb_S2_S1_0 : ∀ a, (![0] : Fin 1 → Nat) a + S1.size a ≤ S2.size a
  squeezes_S1_S_ : S1.Squeezes S_
  inb_S2x384x1536_S1x384x1536_0_0_0 : ∀ a, (![0, 0, 0] : Fin 3 → Nat) a + S1x384x1536.size a ≤ S2x384x1536.size a
  squeezes_S1x384x1536_S384x1536 : S1x384x1536.Squeezes S384x1536
  inb_S1536x1024_S1536x1024_0_0 : ∀ a, (![0, 0] : Fin 2 → Nat) a + S1536x1024.size a ≤ S1536x1024.size a
  h_S1536x1024 : 0 < S1536x1024.numel
  bitsLt_bf16_f32 : FTy.bits .bf16 < FTy.bits .f32
  shapeCasts_S1536x1024_S1536x1024 : S1536x1024.ShapeCasts S1536x1024
  packedbf16_S1536x3072_S1536x1024_0_0 : (Rect.unit (s := S1536x3072) ![0, 0] S1536x1024.size inb_S1536x3072_S1536x1024_0_0).PackedRows (EltTy.packing .bf16)
  inb_S1536x3072_S1536x1024_0_1024 : ∀ a, (![0, 1024] : Fin 2 → Nat) a + S1536x1024.size a ≤ S1536x3072.size a
  h_S1x384x1536 : 0 < S1x384x1536.numel
  shapeCasts_S1x384x1536_S384x1536 : S1x384x1536.ShapeCasts S384x1536
  h_S384x1536 : 0 < S384x1536.numel
  shapeCasts_S384x1536_S384x1536 : S384x1536.ShapeCasts S384x1536
  inb_S2_S1_1 : ∀ a, (![1] : Fin 1 → Nat) a + S1.size a ≤ S2.size a
  inb_S2x384x1536_S1x384x1536_1_0_0 : ∀ a, (![1, 0, 0] : Fin 3 → Nat) a + S1x384x1536.size a ≤ S2x384x1536.size a
  inb_S3x4x384x1024_S1x1x384x1024_0_0_0_0 : ∀ a, (![0, 0, 0, 0] : Fin 4 → Nat) a + S1x1x384x1024.size a ≤ S3x4x384x1024.size a
  h_S1x1x384x1024 : 0 < S1x1x384x1024.numel
  shapeCasts_S1x1x384x1024_S384x1024 : S1x1x384x1024.ShapeCasts S384x1024
  shapeCasts_S384x1024_S1x1x384x1024 : S384x1024.ShapeCasts S1x1x384x1024
  packedbf16_S3x4x384x1024_S1x1x384x1024_0_0_0_0 : (Rect.unit (s := S3x4x384x1024) ![0, 0, 0, 0] S1x1x384x1024.size inb_S3x4x384x1024_S1x1x384x1024_0_0_0_0).PackedRows (EltTy.packing .bf16)
  inb_S3x4_S1x1_0_0 : ∀ a, (![0, 0] : Fin 2 → Nat) a + S1x1.size a ≤ S3x4.size a
  squeezes_S1x1_S_ : S1x1.Squeezes S_
  squeezes_S1x1x384x1024_S384x1024 : S1x1x384x1024.Squeezes S384x1024
  wordsbf16_S3x4x384x1024_S1x1x384x1024_0_0_0_0 : (Rect.unit (s := S3x4x384x1024) ![0, 0, 0, 0] S1x1x384x1024.size inb_S3x4x384x1024_S1x1x384x1024_0_0_0_0).WholeWords (EltTy.packing .bf16)
  packedbf16_S1536x3072_S1536x1024_0_1024 : (Rect.unit (s := S1536x3072) ![0, 1024] S1536x1024.size inb_S1536x3072_S1536x1024_0_1024).PackedRows (EltTy.packing .bf16)
  inb_S1536x3072_S1536x1024_0_2048 : ∀ a, (![0, 2048] : Fin 2 → Nat) a + S1536x1024.size a ≤ S1536x3072.size a
  inb_S3x4x384x1024_S1x1x384x1024_1_0_0_0 : ∀ a, (![1, 0, 0, 0] : Fin 4 → Nat) a + S1x1x384x1024.size a ≤ S3x4x384x1024.size a
  packedbf16_S3x4x384x1024_S1x1x384x1024_1_0_0_0 : (Rect.unit (s := S3x4x384x1024) ![1, 0, 0, 0] S1x1x384x1024.size inb_S3x4x384x1024_S1x1x384x1024_1_0_0_0).PackedRows (EltTy.packing .bf16)
  inb_S3x4_S1x1_1_0 : ∀ a, (![1, 0] : Fin 2 → Nat) a + S1x1.size a ≤ S3x4.size a
  wordsbf16_S3x4x384x1024_S1x1x384x1024_1_0_0_0 : (Rect.unit (s := S3x4x384x1024) ![1, 0, 0, 0] S1x1x384x1024.size inb_S3x4x384x1024_S1x1x384x1024_1_0_0_0).WholeWords (EltTy.packing .bf16)
  packedbf16_S1536x3072_S1536x1024_0_2048 : (Rect.unit (s := S1536x3072) ![0, 2048] S1536x1024.size inb_S1536x3072_S1536x1024_0_2048).PackedRows (EltTy.packing .bf16)
  inb_S3x4x384x1024_S1x1x384x1024_2_0_0_0 : ∀ a, (![2, 0, 0, 0] : Fin 4 → Nat) a + S1x1x384x1024.size a ≤ S3x4x384x1024.size a
  packedbf16_S3x4x384x1024_S1x1x384x1024_2_0_0_0 : (Rect.unit (s := S3x4x384x1024) ![2, 0, 0, 0] S1x1x384x1024.size inb_S3x4x384x1024_S1x1x384x1024_2_0_0_0).PackedRows (EltTy.packing .bf16)
  inb_S3x4_S1x1_2_0 : ∀ a, (![2, 0] : Fin 2 → Nat) a + S1x1.size a ≤ S3x4.size a
  wordsbf16_S3x4x384x1024_S1x1x384x1024_2_0_0_0 : (Rect.unit (s := S3x4x384x1024) ![2, 0, 0, 0] S1x1x384x1024.size inb_S3x4x384x1024_S1x1x384x1024_2_0_0_0).WholeWords (EltTy.packing .bf16)
  inb_S3x4x384x1024_S1x1x384x1024_0_1_0_0 : ∀ a, (![0, 1, 0, 0] : Fin 4 → Nat) a + S1x1x384x1024.size a ≤ S3x4x384x1024.size a
  packedbf16_S3x4x384x1024_S1x1x384x1024_0_1_0_0 : (Rect.unit (s := S3x4x384x1024) ![0, 1, 0, 0] S1x1x384x1024.size inb_S3x4x384x1024_S1x1x384x1024_0_1_0_0).PackedRows (EltTy.packing .bf16)
  inb_S3x4_S1x1_0_1 : ∀ a, (![0, 1] : Fin 2 → Nat) a + S1x1.size a ≤ S3x4.size a
  wordsbf16_S3x4x384x1024_S1x1x384x1024_0_1_0_0 : (Rect.unit (s := S3x4x384x1024) ![0, 1, 0, 0] S1x1x384x1024.size inb_S3x4x384x1024_S1x1x384x1024_0_1_0_0).WholeWords (EltTy.packing .bf16)
  inb_S3x4x384x1024_S1x1x384x1024_1_1_0_0 : ∀ a, (![1, 1, 0, 0] : Fin 4 → Nat) a + S1x1x384x1024.size a ≤ S3x4x384x1024.size a
  packedbf16_S3x4x384x1024_S1x1x384x1024_1_1_0_0 : (Rect.unit (s := S3x4x384x1024) ![1, 1, 0, 0] S1x1x384x1024.size inb_S3x4x384x1024_S1x1x384x1024_1_1_0_0).PackedRows (EltTy.packing .bf16)
  inb_S3x4_S1x1_1_1 : ∀ a, (![1, 1] : Fin 2 → Nat) a + S1x1.size a ≤ S3x4.size a
  wordsbf16_S3x4x384x1024_S1x1x384x1024_1_1_0_0 : (Rect.unit (s := S3x4x384x1024) ![1, 1, 0, 0] S1x1x384x1024.size inb_S3x4x384x1024_S1x1x384x1024_1_1_0_0).WholeWords (EltTy.packing .bf16)
  inb_S3x4x384x1024_S1x1x384x1024_2_1_0_0 : ∀ a, (![2, 1, 0, 0] : Fin 4 → Nat) a + S1x1x384x1024.size a ≤ S3x4x384x1024.size a
  packedbf16_S3x4x384x1024_S1x1x384x1024_2_1_0_0 : (Rect.unit (s := S3x4x384x1024) ![2, 1, 0, 0] S1x1x384x1024.size inb_S3x4x384x1024_S1x1x384x1024_2_1_0_0).PackedRows (EltTy.packing .bf16)
  inb_S3x4_S1x1_2_1 : ∀ a, (![2, 1] : Fin 2 → Nat) a + S1x1.size a ≤ S3x4.size a
  wordsbf16_S3x4x384x1024_S1x1x384x1024_2_1_0_0 : (Rect.unit (s := S3x4x384x1024) ![2, 1, 0, 0] S1x1x384x1024.size inb_S3x4x384x1024_S1x1x384x1024_2_1_0_0).WholeWords (EltTy.packing .bf16)
  inb_S3x4x384x1024_S1x1x384x1024_0_2_0_0 : ∀ a, (![0, 2, 0, 0] : Fin 4 → Nat) a + S1x1x384x1024.size a ≤ S3x4x384x1024.size a
  packedbf16_S3x4x384x1024_S1x1x384x1024_0_2_0_0 : (Rect.unit (s := S3x4x384x1024) ![0, 2, 0, 0] S1x1x384x1024.size inb_S3x4x384x1024_S1x1x384x1024_0_2_0_0).PackedRows (EltTy.packing .bf16)
  inb_S3x4_S1x1_0_2 : ∀ a, (![0, 2] : Fin 2 → Nat) a + S1x1.size a ≤ S3x4.size a
  wordsbf16_S3x4x384x1024_S1x1x384x1024_0_2_0_0 : (Rect.unit (s := S3x4x384x1024) ![0, 2, 0, 0] S1x1x384x1024.size inb_S3x4x384x1024_S1x1x384x1024_0_2_0_0).WholeWords (EltTy.packing .bf16)
  inb_S3x4x384x1024_S1x1x384x1024_1_2_0_0 : ∀ a, (![1, 2, 0, 0] : Fin 4 → Nat) a + S1x1x384x1024.size a ≤ S3x4x384x1024.size a
  packedbf16_S3x4x384x1024_S1x1x384x1024_1_2_0_0 : (Rect.unit (s := S3x4x384x1024) ![1, 2, 0, 0] S1x1x384x1024.size inb_S3x4x384x1024_S1x1x384x1024_1_2_0_0).PackedRows (EltTy.packing .bf16)
  inb_S3x4_S1x1_1_2 : ∀ a, (![1, 2] : Fin 2 → Nat) a + S1x1.size a ≤ S3x4.size a
  wordsbf16_S3x4x384x1024_S1x1x384x1024_1_2_0_0 : (Rect.unit (s := S3x4x384x1024) ![1, 2, 0, 0] S1x1x384x1024.size inb_S3x4x384x1024_S1x1x384x1024_1_2_0_0).WholeWords (EltTy.packing .bf16)
  inb_S3x4x384x1024_S1x1x384x1024_2_2_0_0 : ∀ a, (![2, 2, 0, 0] : Fin 4 → Nat) a + S1x1x384x1024.size a ≤ S3x4x384x1024.size a
  packedbf16_S3x4x384x1024_S1x1x384x1024_2_2_0_0 : (Rect.unit (s := S3x4x384x1024) ![2, 2, 0, 0] S1x1x384x1024.size inb_S3x4x384x1024_S1x1x384x1024_2_2_0_0).PackedRows (EltTy.packing .bf16)
  inb_S3x4_S1x1_2_2 : ∀ a, (![2, 2] : Fin 2 → Nat) a + S1x1.size a ≤ S3x4.size a
  wordsbf16_S3x4x384x1024_S1x1x384x1024_2_2_0_0 : (Rect.unit (s := S3x4x384x1024) ![2, 2, 0, 0] S1x1x384x1024.size inb_S3x4x384x1024_S1x1x384x1024_2_2_0_0).WholeWords (EltTy.packing .bf16)
  inb_S3x4x384x1024_S1x1x384x1024_0_3_0_0 : ∀ a, (![0, 3, 0, 0] : Fin 4 → Nat) a + S1x1x384x1024.size a ≤ S3x4x384x1024.size a
  packedbf16_S3x4x384x1024_S1x1x384x1024_0_3_0_0 : (Rect.unit (s := S3x4x384x1024) ![0, 3, 0, 0] S1x1x384x1024.size inb_S3x4x384x1024_S1x1x384x1024_0_3_0_0).PackedRows (EltTy.packing .bf16)
  inb_S3x4_S1x1_0_3 : ∀ a, (![0, 3] : Fin 2 → Nat) a + S1x1.size a ≤ S3x4.size a
  wordsbf16_S3x4x384x1024_S1x1x384x1024_0_3_0_0 : (Rect.unit (s := S3x4x384x1024) ![0, 3, 0, 0] S1x1x384x1024.size inb_S3x4x384x1024_S1x1x384x1024_0_3_0_0).WholeWords (EltTy.packing .bf16)
  inb_S3x4x384x1024_S1x1x384x1024_1_3_0_0 : ∀ a, (![1, 3, 0, 0] : Fin 4 → Nat) a + S1x1x384x1024.size a ≤ S3x4x384x1024.size a
  packedbf16_S3x4x384x1024_S1x1x384x1024_1_3_0_0 : (Rect.unit (s := S3x4x384x1024) ![1, 3, 0, 0] S1x1x384x1024.size inb_S3x4x384x1024_S1x1x384x1024_1_3_0_0).PackedRows (EltTy.packing .bf16)
  inb_S3x4_S1x1_1_3 : ∀ a, (![1, 3] : Fin 2 → Nat) a + S1x1.size a ≤ S3x4.size a
  wordsbf16_S3x4x384x1024_S1x1x384x1024_1_3_0_0 : (Rect.unit (s := S3x4x384x1024) ![1, 3, 0, 0] S1x1x384x1024.size inb_S3x4x384x1024_S1x1x384x1024_1_3_0_0).WholeWords (EltTy.packing .bf16)
  inb_S3x4x384x1024_S1x1x384x1024_2_3_0_0 : ∀ a, (![2, 3, 0, 0] : Fin 4 → Nat) a + S1x1x384x1024.size a ≤ S3x4x384x1024.size a
  packedbf16_S3x4x384x1024_S1x1x384x1024_2_3_0_0 : (Rect.unit (s := S3x4x384x1024) ![2, 3, 0, 0] S1x1x384x1024.size inb_S3x4x384x1024_S1x1x384x1024_2_3_0_0).PackedRows (EltTy.packing .bf16)
  inb_S3x4_S1x1_2_3 : ∀ a, (![2, 3] : Fin 2 → Nat) a + S1x1.size a ≤ S3x4.size a
  wordsbf16_S3x4x384x1024_S1x1x384x1024_2_3_0_0 : (Rect.unit (s := S3x4x384x1024) ![2, 3, 0, 0] S1x1x384x1024.size inb_S3x4x384x1024_S1x1x384x1024_2_3_0_0).WholeWords (EltTy.packing .bf16)
  inb_S3x2_S1x1_0_0 : ∀ a, (![0, 0] : Fin 2 → Nat) a + S1x1.size a ≤ S3x2.size a
  inb_S3x2x384x1024_S1x1x384x1024_0_0_0_0 : ∀ a, (![0, 0, 0, 0] : Fin 4 → Nat) a + S1x1x384x1024.size a ≤ S3x2x384x1024.size a
  wordsbf16_S3x2x384x1024_S1x1x384x1024_0_0_0_0 : (Rect.unit (s := S3x2x384x1024) ![0, 0, 0, 0] S1x1x384x1024.size inb_S3x2x384x1024_S1x1x384x1024_0_0_0_0).WholeWords (EltTy.packing .bf16)
  inb_S3x2_S1x1_1_0 : ∀ a, (![1, 0] : Fin 2 → Nat) a + S1x1.size a ≤ S3x2.size a
  inb_S3x2x384x1024_S1x1x384x1024_1_0_0_0 : ∀ a, (![1, 0, 0, 0] : Fin 4 → Nat) a + S1x1x384x1024.size a ≤ S3x2x384x1024.size a
  wordsbf16_S3x2x384x1024_S1x1x384x1024_1_0_0_0 : (Rect.unit (s := S3x2x384x1024) ![1, 0, 0, 0] S1x1x384x1024.size inb_S3x2x384x1024_S1x1x384x1024_1_0_0_0).WholeWords (EltTy.packing .bf16)
  inb_S3x2_S1x1_2_0 : ∀ a, (![2, 0] : Fin 2 → Nat) a + S1x1.size a ≤ S3x2.size a
  inb_S3x2x384x1024_S1x1x384x1024_2_0_0_0 : ∀ a, (![2, 0, 0, 0] : Fin 4 → Nat) a + S1x1x384x1024.size a ≤ S3x2x384x1024.size a
  wordsbf16_S3x2x384x1024_S1x1x384x1024_2_0_0_0 : (Rect.unit (s := S3x2x384x1024) ![2, 0, 0, 0] S1x1x384x1024.size inb_S3x2x384x1024_S1x1x384x1024_2_0_0_0).WholeWords (EltTy.packing .bf16)
  inb_S3x2_S1x1_0_1 : ∀ a, (![0, 1] : Fin 2 → Nat) a + S1x1.size a ≤ S3x2.size a
  inb_S3x2x384x1024_S1x1x384x1024_0_1_0_0 : ∀ a, (![0, 1, 0, 0] : Fin 4 → Nat) a + S1x1x384x1024.size a ≤ S3x2x384x1024.size a
  wordsbf16_S3x2x384x1024_S1x1x384x1024_0_1_0_0 : (Rect.unit (s := S3x2x384x1024) ![0, 1, 0, 0] S1x1x384x1024.size inb_S3x2x384x1024_S1x1x384x1024_0_1_0_0).WholeWords (EltTy.packing .bf16)
  inb_S3x2_S1x1_1_1 : ∀ a, (![1, 1] : Fin 2 → Nat) a + S1x1.size a ≤ S3x2.size a
  inb_S3x2x384x1024_S1x1x384x1024_1_1_0_0 : ∀ a, (![1, 1, 0, 0] : Fin 4 → Nat) a + S1x1x384x1024.size a ≤ S3x2x384x1024.size a
  wordsbf16_S3x2x384x1024_S1x1x384x1024_1_1_0_0 : (Rect.unit (s := S3x2x384x1024) ![1, 1, 0, 0] S1x1x384x1024.size inb_S3x2x384x1024_S1x1x384x1024_1_1_0_0).WholeWords (EltTy.packing .bf16)
  inb_S3x2_S1x1_2_1 : ∀ a, (![2, 1] : Fin 2 → Nat) a + S1x1.size a ≤ S3x2.size a
  inb_S3x2x384x1024_S1x1x384x1024_2_1_0_0 : ∀ a, (![2, 1, 0, 0] : Fin 4 → Nat) a + S1x1x384x1024.size a ≤ S3x2x384x1024.size a
  wordsbf16_S3x2x384x1024_S1x1x384x1024_2_1_0_0 : (Rect.unit (s := S3x2x384x1024) ![2, 1, 0, 0] S1x1x384x1024.size inb_S3x2x384x1024_S1x1x384x1024_2_1_0_0).WholeWords (EltTy.packing .bf16)
  inb_S3x1_S1x1_0_0 : ∀ a, (![0, 0] : Fin 2 → Nat) a + S1x1.size a ≤ S3x1.size a
  inb_S3x1x384x1024_S1x1x384x1024_0_0_0_0 : ∀ a, (![0, 0, 0, 0] : Fin 4 → Nat) a + S1x1x384x1024.size a ≤ S3x1x384x1024.size a
  wordsbf16_S3x1x384x1024_S1x1x384x1024_0_0_0_0 : (Rect.unit (s := S3x1x384x1024) ![0, 0, 0, 0] S1x1x384x1024.size inb_S3x1x384x1024_S1x1x384x1024_0_0_0_0).WholeWords (EltTy.packing .bf16)
  inb_S3x1_S1x1_1_0 : ∀ a, (![1, 0] : Fin 2 → Nat) a + S1x1.size a ≤ S3x1.size a
  inb_S3x1x384x1024_S1x1x384x1024_1_0_0_0 : ∀ a, (![1, 0, 0, 0] : Fin 4 → Nat) a + S1x1x384x1024.size a ≤ S3x1x384x1024.size a
  wordsbf16_S3x1x384x1024_S1x1x384x1024_1_0_0_0 : (Rect.unit (s := S3x1x384x1024) ![1, 0, 0, 0] S1x1x384x1024.size inb_S3x1x384x1024_S1x1x384x1024_1_0_0_0).WholeWords (EltTy.packing .bf16)
  inb_S3x1_S1x1_2_0 : ∀ a, (![2, 0] : Fin 2 → Nat) a + S1x1.size a ≤ S3x1.size a
  inb_S3x1x384x1024_S1x1x384x1024_2_0_0_0 : ∀ a, (![2, 0, 0, 0] : Fin 4 → Nat) a + S1x1x384x1024.size a ≤ S3x1x384x1024.size a
  wordsbf16_S3x1x384x1024_S1x1x384x1024_2_0_0_0 : (Rect.unit (s := S3x1x384x1024) ![2, 0, 0, 0] S1x1x384x1024.size inb_S3x1x384x1024_S1x1x384x1024_2_0_0_0).WholeWords (EltTy.packing .bf16)
  inb_S384x3072_S384x1024_0_0 : ∀ a, (![0, 0] : Fin 2 → Nat) a + S384x1024.size a ≤ S384x3072.size a
  h_S384x1024 : 0 < S384x1024.numel
  packedbf16_S384x3072_S384x1024_0_0 : (Rect.unit (s := S384x3072) ![0, 0] S384x1024.size inb_S384x3072_S384x1024_0_0).PackedRows (EltTy.packing .bf16)
  inb_S384x3072_S384x1024_0_1024 : ∀ a, (![0, 1024] : Fin 2 → Nat) a + S384x1024.size a ≤ S384x3072.size a
  packedbf16_S384x3072_S384x1024_0_1024 : (Rect.unit (s := S384x3072) ![0, 1024] S384x1024.size inb_S384x3072_S384x1024_0_1024).PackedRows (EltTy.packing .bf16)
  inb_S384x3072_S384x1024_0_2048 : ∀ a, (![0, 2048] : Fin 2 → Nat) a + S384x1024.size a ≤ S384x3072.size a
  packedbf16_S384x3072_S384x1024_0_2048 : (Rect.unit (s := S384x3072) ![0, 2048] S384x1024.size inb_S384x3072_S384x1024_0_2048).PackedRows (EltTy.packing .bf16)
  dot_S384x1536_S1536x1024_S384x1024_1_0_0_1_n_n_wf : DotDims.WF S384x1536 S1536x1024 S384x1024 [1] [0] [0] [1] [] []
  hcc0_scratch8 : 1 + S2.numel ≤ 46
  hcc0_scratch9 : 3 + S_.numel ≤ 46
  hcc0_scratch10 : 4 + S3x4.numel ≤ 46
  hcc0_scratch11 : 16 + S3x4.numel ≤ 46
  hcc0_scratch12 : 28 + S3x2.numel ≤ 46
  hcc0_scratch13 : 34 + S3x2.numel ≤ 46
  hcc0_scratch14 : 40 + S3x1.numel ≤ 46
  hcc0_scratch15 : 43 + S3x1.numel ≤ 46
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_off1_inb : ∀ d0 : Dev nD, ∀ (r : Fin 8), ∀ a, (k0_off1 d0 (BitVec.ofNat 32 r.val)) a + S384x1536.size a ≤ S3072x1536.size a
  k0_off2_inb : ∀ d0 : Dev nD, ∀ (r : Fin 8), ∀ a, (k0_off2 d0 (BitVec.ofNat 32 r.val)) a + S384x1536.size a ≤ S3072x1536.size a
  k0_off2_packedbf16 : ∀ d0 : Dev nD, ∀ (r : Fin 8), (Rect.unit (s := S3072x1536) (k0_off2 d0 (BitVec.ofNat 32 r.val)) S384x1536.size (k0_off2_inb d0 r)).PackedRows (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  hstage0_0 : ∀ j, (stage0_0 j).IsWhole

variable [Facts₀]

abbrev cc0_scratch8 : DmaSems sig S2 := SemArray.consecutive 1 S2 hcc0_scratch8
abbrev cc0_scratch9 : DmaSems sig S_ := SemArray.consecutive 3 S_ hcc0_scratch9
abbrev cc0_scratch10 : DmaSems sig S3x4 := SemArray.consecutive 4 S3x4 hcc0_scratch10
abbrev cc0_scratch11 : DmaSems sig S3x4 := SemArray.consecutive 16 S3x4 hcc0_scratch11
abbrev cc0_scratch12 : DmaSems sig S3x2 := SemArray.consecutive 28 S3x2 hcc0_scratch12
abbrev cc0_scratch13 : DmaSems sig S3x2 := SemArray.consecutive 34 S3x2 hcc0_scratch13
abbrev cc0_scratch14 : DmaSems sig S3x1 := SemArray.consecutive 40 S3x1 hcc0_scratch14
abbrev cc0_scratch15 : DmaSems sig S3x1 := SemArray.consecutive 43 S3x1 hcc0_scratch15
def dot_S384x1536_S1536x1024_S384x1024_1_0_0_1_n_n : DotDims S384x1536 S1536x1024 S384x1024 where
  lhsContracting := [1]
  rhsContracting := [0]
  lhsNonContracting := [0]
  rhsNonContracting := [1]
  lhsBatch := []
  rhsBatch := []
  wf := dot_S384x1536_S1536x1024_S384x1024_1_0_0_1_n_n_wf

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S3072x12288 : Shape := ⟨2, ![3072, 12288]⟩
abbrev S12288x3072 : Shape := ⟨2, ![12288, 3072]⟩
abbrev S3072x3072 : Shape := ⟨2, ![3072, 3072]⟩

abbrev nBuf : Space → Nat
  | .hbm => 4
  | .vmem => 0
  | .smem => 0
  | _ => 0

abbrev bufTy : (tb : Table) → Fin (tcTables nBuf tb) → BufTy
  | .hbm, ⟨0, _⟩ => ⟨S3072x12288, .f32⟩
  | .hbm, ⟨1, _⟩ => ⟨S12288x3072, .f32⟩
  | .hbm, ⟨2, _⟩ => ⟨S3072x3072, .f32⟩
  | .hbm, ⟨3, _⟩ => ⟨S3072x3072, .bf16⟩
  | _, _ => ⟨S3072x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  bitsLt_bf16_f32 : FTy.bits .bf16 < FTy.bits .f32
  dot_S3072x12288_S12288x3072_S3072x3072_1_0_0_1_n_n_wf : DotDims.WF S3072x12288 S12288x3072 S3072x3072 [1] [0] [0] [1] [] []

variable [Facts₀]

def dot_S3072x12288_S12288x3072_S3072x3072_1_0_0_1_n_n : DotDims S3072x12288 S12288x3072 S3072x3072 where
  lhsContracting := [1]
  rhsContracting := [0]
  lhsNonContracting := [0]
  rhsNonContracting := [1]
  lhsBatch := []
  rhsBatch := []
  wf := dot_S3072x12288_S12288x3072_S3072x3072_1_0_0_1_n_n_wf

class Facts : Prop extends Facts₀ where

variable [Facts]
-- ==== Proof.Mesh.lean ====
import proofs.«900896_g7700000000000897_dist_matmul_mk_i_outk_m3072_n3072_k1536_v7x_i8_bf16_1_alg».proof.Proof.Gen.KernelIdeal

namespace Cert.KernelIdeal.Hand

open Cert.KernelIdeal Cert.KernelIdeal.Gen
open Idealize.ShloMosaic Idealize.SL.Sem

def px (k : Nat) (c : Dev nD) : Dev nD := ⟨(c.val ^^^ k) % 8, Nat.mod_lt _ (by decide)⟩

theorem px_px (k : Fin 8) (c : Dev nD) : px k.val (px k.val c) = c := by revert k c; decide
theorem dev1_eq (c : Dev nD) : (⟨k0_dev1 c, k0_dev1_lt c⟩ : Dev nD) = px 1 c := by revert c; decide +kernel
theorem dev2_eq (c : Dev nD) : (⟨k0_dev2 c, k0_dev2_lt c⟩ : Dev nD) = px 3 c := by revert c; decide +kernel
theorem dev3_eq (c : Dev nD) : (⟨k0_dev3 c, k0_dev3_lt c⟩ : Dev nD) = px 4 c := by revert c; decide +kernel
theorem dev4_eq (c : Dev nD) : (⟨k0_dev4 c, k0_dev4_lt c⟩ : Dev nD) = px 4 c := by revert c; decide +kernel
theorem dev5_eq (c : Dev nD) : (⟨k0_dev5 c, k0_dev5_lt c⟩ : Dev nD) = px 3 c := by revert c; decide +kernel
theorem dev6_eq (c : Dev nD) : (⟨k0_dev6 c, k0_dev6_lt c⟩ : Dev nD) = px 1 c := by revert c; decide +kernel
theorem dev7_eq (c : Dev nD) : (⟨k0_dev7 c, k0_dev7_lt c⟩ : Dev nD) = px 4 c := by revert c; decide +kernel
theorem dev8_eq (c : Dev nD) : (⟨k0_dev8 c, k0_dev8_lt c⟩ : Dev nD) = px 3 c := by revert c; decide +kernel
theorem dev9_eq (c : Dev nD) : (⟨k0_dev9 c, k0_dev9_lt c⟩ : Dev nD) = px 1 c := by revert c; decide +kernel
theorem dev10_eq (c : Dev nD) : (⟨k0_dev10 c, k0_dev10_lt c⟩ : Dev nD) = px 4 c := by revert c; decide +kernel
theorem dev11_eq (c : Dev nD) : (⟨k0_dev11 c, k0_dev11_lt c⟩ : Dev nD) = px 3 c := by revert c; decide +kernel
theorem dev12_eq (c : Dev nD) : (⟨k0_dev12 c, k0_dev12_lt c⟩ : Dev nD) = px 1 c := by revert c; decide +kernel
theorem dev13_eq (c : Dev nD) : (⟨k0_dev13 c, k0_dev13_lt c⟩ : Dev nD) = px 4 c := by revert c; decide +kernel
theorem dev14_eq (c : Dev nD) : (⟨k0_dev14 c, k0_dev14_lt c⟩ : Dev nD) = px 3 c := by revert c; decide +kernel
theorem dev15_eq (c : Dev nD) : (⟨k0_dev15 c, k0_dev15_lt c⟩ : Dev nD) = px 1 c := by revert c; decide +kernel
theorem dev16_eq (c : Dev nD) : (⟨k0_dev16 c, k0_dev16_lt c⟩ : Dev nD) = px 3 c := by revert c; decide +kernel
theorem dev17_eq (c : Dev nD) : (⟨k0_dev17 c, k0_dev17_lt c⟩ : Dev nD) = px 1 c := by revert c; decide +kernel
theorem dev18_eq (c : Dev nD) : (⟨k0_dev18 c, k0_dev18_lt c⟩ : Dev nD) = px 4 c := by revert c; decide +kernel
theorem dev19_eq (c : Dev nD) : (⟨k0_dev19 c, k0_dev19_lt c⟩ : Dev nD) = px 3 c := by revert c; decide +kernel
theorem dev20_eq (c : Dev nD) : (⟨k0_dev20 c, k0_dev20_lt c⟩ : Dev nD) = px 1 c := by revert c; decide +kernel
theorem dev21_eq (c : Dev nD) : (⟨k0_dev21 c, k0_dev21_lt c⟩ : Dev nD) = px 4 c := by revert c; decide +kernel
theorem dev22_eq (c : Dev nD) : (⟨k0_dev22 c, k0_dev22_lt c⟩ : Dev nD) = px 1 c := by revert c; decide +kernel
theorem dev23_eq (c : Dev nD) : (⟨k0_dev23 c, k0_dev23_lt c⟩ : Dev nD) = px 4 c := by revert c; decide +kernel
theorem dev24_eq (c : Dev nD) : (⟨k0_dev24 c, k0_dev24_lt c⟩ : Dev nD) = px 3 c := by revert c; decide +kernel

theorem off1_eq (c : Dev nD) (r : Fin 8) : k0_off1 c (BitVec.ofNat 32 r.val) = ![384 * (px r.val c).val, 0] := by
  revert c r; decide +kernel
theorem off2_eq (c : Dev nD) (r : Fin 8) : k0_off2 c (BitVec.ofNat 32 r.val) = ![384 * (px r.val c).val, 0] := by
  revert c r; decide +kernel

end Cert.KernelIdeal.Hand
-- ==== Proof.LaunchBase.lean ====
import proofs.«900896_g7700000000000897_dist_matmul_mk_i_outk_m3072_n3072_k1536_v7x_i8_bf16_1_alg».proof.Proof.Mesh
import proofs.«900896_g7700000000000897_dist_matmul_mk_i_outk_m3072_n3072_k1536_v7x_i8_bf16_1_alg».proof.Proof.Gen.KernelIdeal.Launch
import Idealize.ShloMosaic.Lib.Pipeline.Launch
import Idealize.ShloMosaic.Lib.Pipeline.Kit
import Idealize.ShloMosaic.Lib.Tactic
import Idealize.ShloMosaic.Lib.Transfers

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev DT : Type := Fin 8

abbrev UB : Type := URounds (GSem nD τ sig) DT

abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := (Emb.inl : Emb UB (UB × Counters)).trans embR

abbrev EK : Emb Counters (MT nD τ sig Unit (Elt F) ℕ UU ℕ) := (Emb.inr : Emb Counters (UB × Counters)).trans embR

omit [FloatOps F] in
instance ER_landsIn : (ER (F := F)).LandsIn (upEmb : UEmb _ 𝕄) := by unfold ER; infer_instance
omit [FloatOps F] in
instance EK_landsIn : (EK (F := F)).LandsIn (upEmb : UEmb _ 𝕄) := by unfold EK; infer_instance

omit [FloatOps F] in
theorem ownU_split (a : UR sig nD τ) (b : UB) (k : Counters) :
    (ownU ((a, (b, k)) : UU) : sProp 𝕄) ⊢ iprop(BI.own (EP a) ∗ BI.own (ER b) ∗ BI.own (EK k)) :=
  (ownU_pair a (b, k)).trans (sep_mono_right (own_pair_emb embR b k))

omit [FloatOps F] in
theorem ownU_split₂ (a : UR sig nD τ) (b : UB) (k : Counters) :
    (ownU ((a, (b, k)) : UU) : sProp 𝕄) ⊢ iprop(BI.own (EP a) ∗ BI.own (ER b)) := by
  iintro H
  ihave H' := (ownU_split (F := F) a b k) $$ H
  icases H' with ⟨HP, HR, -⟩
  isplitl [HP] <;> iassumption

abbrev osem : Fin 45 → SemLoc sig := fun i => .dma ⟨i.val + 1, by show i.val + 1 < 46; omega⟩

theorem ownSemFacts : Pipeline.OwnSemFacts cfg0.spec osem := by decide

omit [FloatOps F] in
theorem ownSems0_eq (c : Dev nD) :
    (Pipeline.ownSems0 (Ix := Unit) (Name := ℕ) (U := UU) (Lvl := ℕ) (Val := Elt F) (τ := τ) osem c : sProp 𝕄)
      = bigSep Finset.univ fun i : Fin 45 => semVal ((c : Thread nD τ), osem i) 0 := rfl

abbrev barS : Sem sig := (SemArray.scalar (sig.barrier 0 rfl) : Sems sig S_).sem

omit [FloatOps F] in
theorem unscopedSems0_eq (c : Dev nD) : (unscopedSems0 c : sProp 𝕄) = semVal ((c : Thread nD τ), .reg barS) 0 := by
  unfold unscopedSems0; rw [bigSep_eq_bigSepL_of_eq [SemLoc.reg barS] (by decide) (by decide)]; rfl

/-- info: 'Cert.KernelIdeal.Hand.ownU_split' depends on axioms: [propext, Classical.choice, Quot.sound] -/
#guard_msgs in #print axioms ownU_split
/-- info: 'Cert.KernelIdeal.Hand.ownSemFacts' depends on axioms: [propext, Classical.choice, Quot.sound] -/
#guard_msgs in #print axioms ownSemFacts
/-- info: 'Cert.KernelIdeal.Hand.unscopedSems0_eq' depends on axioms: [propext, Classical.choice, Quot.sound] -/
#guard_msgs in #print axioms unscopedSems0_eq

end Cert.KernelIdeal.Hand

end
-- ==== Proof.LaunchCells.lean ====
import proofs.«900896_g7700000000000897_dist_matmul_mk_i_outk_m3072_n3072_k1536_v7x_i8_bf16_1_alg».proof.Proof.LaunchBase

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev lsem : Fin 3 → SemLoc sig := fun i => .dma ⟨i.val + 1, by show i.val + 1 < 46; omega⟩

abbrev psem : Fin 42 → SemLoc sig := fun j => .dma ⟨j.val + 4, by show j.val + 4 < 46; omega⟩

abbrev csem : Fin 43 → SemLoc sig := Fin.cases (.reg barS) psem
abbrev kcell (ck : Dev nD × Fin 43) : GSem nD τ sig := ((ck.1 : Thread nD τ), csem ck.2)

theorem csem_injective : Function.Injective csem := by decide

theorem kcell_injective : Function.Injective (kcell : Dev nD × Fin 43 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

def protoCells : Finset (GSem nD τ sig) := Finset.univ.map ⟨kcell, kcell_injective⟩

omit [FloatOps F] in
theorem bigSep_fin3 (Φ : Fin 3 → sProp 𝕄) : bigSep Finset.univ Φ = iprop(Φ 0 ∗ Φ 1 ∗ Φ 2) :=
  bigSep_univ_eq_bigSepL [0, 1, 2] (by decide) (by decide) Φ

def localSems0 (c : Dev nD) : sProp 𝕄 :=
  iprop(semVal ((c : Thread nD τ), lsem 0) 0 ∗ semVal ((c : Thread nD τ), lsem 1) 0 ∗ semVal ((c : Thread nD τ), lsem 2) 0)

omit [FloatOps F] in
theorem ownSems0_split (c : Dev nD) :
    (Pipeline.ownSems0 (Ix := Unit) (Name := ℕ) (U := UU) (Lvl := ℕ) (Val := Elt F) (τ := τ) osem c : sProp 𝕄)
      = iprop(localSems0 c ∗ bigSep Finset.univ fun j : Fin 42 => semVal ((c : Thread nD τ), psem j) 0) := by
  rw [ownSems0_eq, bigSep_univ_equiv (finSumFinEquiv : Fin 3 ⊕ Fin 42 ≃ Fin 45), bigSep_univ_sum]
  unfold localSems0
  rw [← bigSep_fin3 fun i : Fin 3 => (semVal ((c : Thread nD τ), lsem i) 0 : sProp 𝕄)]
  congr 1

omit [FloatOps F] in
theorem protoSems0_eq (c : Dev nD) :
    (bigSep Finset.univ fun k : Fin 43 => (semVal (kcell (c, k)) 0 : sProp 𝕄))
      = iprop(semVal ((c : Thread nD τ), .reg barS) 0 ∗ bigSep Finset.univ fun j : Fin 42 => semVal ((c : Thread nD τ), psem j) 0) := by
  rw [Fin.univ_succ, Finset.cons_eq_insert, bigSep_insert (by simp), bigSep_map]
  rfl

omit [FloatOps F] in
theorem sems0_sort (c : Dev nD) :
    iprop(Pipeline.ownSems0 (Ix := Unit) (Name := ℕ) (U := UU) (Lvl := ℕ) (Val := Elt F) (τ := τ) osem c ∗ unscopedSems0 c)
      ⊢ iprop(localSems0 c ∗ bigSep Finset.univ fun k : Fin 43 => (semVal (kcell (c, k)) 0 : sProp 𝕄)) := by
  rw [ownSems0_split, unscopedSems0_eq, protoSems0_eq]
  iintro ⟨⟨HL, HP⟩, HB⟩
  isplitl [HL]; · iexact HL
  isplitl [HB] <;> iassumption

section Sched

omit [FloatOps F] in
theorem bigSep_protoCells (Φ : GSem nD τ sig → sProp 𝕄) :
    bigSep protoCells Φ = bigSep Finset.univ fun c : Dev nD => bigSep Finset.univ fun k : Fin 43 => Φ (kcell (c, k)) := by
  unfold protoCells; rw [bigSep_map, bigSep_univ_prod]; rfl

omit [FloatOps F] in
theorem fund_cells (Rd : Schedule (GSem nD τ sig) DT (MT nD τ sig Unit (Elt F) ℕ UU ℕ)) (toks : Finset (GSem nD τ sig × ℕ × DT)) :
    BI.own (ER (initOf protoCells toks))
      ⊢ (|==> iprop((bigSep Finset.univ fun c : Dev nD => bigSep Finset.univ fun k : Fin 43 => roundState ER Rd (kcell (c, k)) 0)
          ∗ (bigSep Finset.univ fun c : Dev nD => bigSep Finset.univ fun k : Fin 43 => reached ER (kcell (c, k)) 0)
          ∗ (bigSep Finset.univ fun c : Dev nD => bigSep Finset.univ fun k : Fin 43 => atPos ER (kcell (c, k)) 0 ∅ 0)
          ∗ bigSep toks fun x => dutyTok ER x.1 x.2.1 x.2.2) : sProp 𝕄) := by
  iintro HX
  imod (Rounds.fund ER Rd protoCells toks) $$ HX with ⟨Hst, Hr, Hat, Htok⟩
  imodintro
  ihave Hst' := (Entails.of_eq (bigSep_protoCells fun g => roundState ER Rd g 0)) $$ Hst
  ihave Hr' := (Entails.of_eq (bigSep_protoCells (F := F) fun g => reached ER g 0)) $$ Hr
  ihave Hat' := (Entails.of_eq (bigSep_protoCells (F := F) fun g => atPos ER g 0 ∅ 0)) $$ Hat
  isplitl [Hst']; · iexact Hst'
  isplitl [Hr']; · iexact Hr'
  isplitl [Hat']; · iexact Hat'
  iexact Htok

omit [FloatOps F] in
theorem cells_alloc (Rd : Schedule (GSem nD τ sig) DT (MT nD τ sig Unit (Elt F) ℕ UU ℕ))
    [∀ g r d, BI.Storable (upEmb : UEmb _ 𝕄) (Rd.payload g r d)] (c : Dev nD) :
    iprop((bigSep Finset.univ fun k : Fin 43 => semVal (kcell (c, k)) 0) ∗ bigSep Finset.univ fun k : Fin 43 => roundState ER Rd (kcell (c, k)) 0)
      ⊢ (|={Set.univ}=> bigSep Finset.univ fun k : Fin 43 => iprop(∃ κ : ℕ, cellInv ER Rd κ (kcell (c, k))) : sProp 𝕄) := by
  rw [← bigSep_sep']
  exact (bigSep_mono fun k _ => (Rounds.body_intro ER Rd (kcell (c, k))).trans inv_alloc).trans (bigSep_fupd _ _)

omit [FloatOps F] in
theorem cells_names (Rd : Schedule (GSem nD τ sig) DT (MT nD τ sig Unit (Elt F) ℕ UU ℕ)) :
    (bigSep Finset.univ fun c : Dev nD => bigSep Finset.univ fun k : Fin 43 => iprop(∃ κ : ℕ, cellInv ER Rd κ (kcell (c, k))) : sProp 𝕄)
      ⊢ iprop(∃ K : Dev nD × Fin 43 → ℕ, bigSep Finset.univ fun ck : Dev nD × Fin 43 => cellInv ER Rd (K ck) (kcell ck)) := by
  rw [← bigSep_univ_prod (fun ck : Dev nD × Fin 43 => iprop(∃ κ : ℕ, cellInv ER Rd κ (kcell ck)))]
  exact BI.bigSep_exists_pi Finset.univ (fun (ck : Dev nD × Fin 43) (κ : ℕ) => (cellInv ER Rd κ (kcell ck) : sProp 𝕄))

end Sched

/-- info: 'Cert.KernelIdeal.Hand.ownSems0_split' depends on axioms: [propext, Classical.choice, Quot.sound] -/
#guard_msgs in #print axioms ownSems0_split
/-- info: 'Cert.KernelIdeal.Hand.fund_cells' depends on axioms: [propext, Classical.choice, Quot.sound] -/
#guard_msgs in #print axioms fund_cells
/-- info: 'Cert.KernelIdeal.Hand.cells_alloc' depends on axioms: [propext, Classical.choice, Quot.sound] -/
#guard_msgs in #print axioms cells_alloc

end Cert.KernelIdeal.Hand

end
-- ==== Proof.Levels.lean ====
import proofs.«900896_g7700000000000897_dist_matmul_mk_i_outk_m3072_n3072_k1536_v7x_i8_bf16_1_alg».proof.Proof.LaunchCells

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

def lvS : SemLoc sig → ℕ
  | .reg _ => 1
  | .dma s => if 16 ≤ s.val ∧ s.val < 28 then 2 else if 34 ≤ s.val ∧ s.val < 40 then 3 else if 43 ≤ s.val then 4 else 0

def L (g : GSem nD τ sig) : Finset Unit := if g.1.2 = .tc then {()} else ∅
def lv (g : GSem nD τ sig) (_ : Unit) : ℕ := lvS g.2

theorem L_of_ne (g : GSem nD τ sig) (h : g.1.2 ≠ .tc) : L g = ∅ := if_neg h
theorem L_tc (c : Dev nD) (sm : SemLoc sig) : L ((c : Thread nD τ), sm) = {()} := if_pos rfl

def Above (n : ℕ) (O : CellTallies nD τ sig Unit) : Prop := ∀ (g : GSem nD τ sig) (u : Unit), 0 < O g u → g.1.2 = .tc ∧ n < lvS g.2

theorem above_zero (n : ℕ) : Above n (0 : CellTallies nD τ sig Unit) := fun g u h => absurd h (Nat.lt_irrefl 0)

theorem above_tally (n : ℕ) (d : Dev nD) (sm : SemLoc sig) (k : ℕ) (h : n < lvS sm) :
    Above n (tallyAt ((d : Thread nD τ), sm) () k) := fun g u hg => by
  rw [tallyAt_apply] at hg
  by_cases hh : g = ((d : Thread nD τ), sm) ∧ u = ()
  · rw [hh.1]; exact ⟨rfl, h⟩
  · rw [if_neg hh] at hg; exact absurd hg (Nat.lt_irrefl 0)

theorem above_add {n : ℕ} {O O' : CellTallies nD τ sig Unit} (h : Above n O) (h' : Above n O') : Above n (O + O') := fun g u hg => by
  rw [Pi.add_apply, Finsupp.add_apply] at hg
  rcases Nat.add_pos_iff_pos_or_pos.mp hg with h1 | h1
  · exact h g u h1
  · exact h' g u h1

theorem mayWait_of_above (c : Dev nD) (sm : SemLoc sig) (n : ℕ) (hsm : lvS sm ≤ n) (O : CellTallies nD τ sig Unit) (hO : Above n O) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by
      have := (hO g u hg).1
      unfold L; rw [if_pos this]; exact Finset.mem_singleton_self _)
    (fun p hp => by rw [Finset.mem_singleton.mp hp]; exact hsm)
    (fun g u hg => (hO g u hg).2)

end Cert.KernelIdeal.Hand

end
-- ==== Proof.Spec.lean ====
import proofs.«900896_g7700000000000897_dist_matmul_mk_i_outk_m3072_n3072_k1536_v7x_i8_bf16_1_alg».proof.Proof.Mesh
import proofs.«900896_g7700000000000897_dist_matmul_mk_i_outk_m3072_n3072_k1536_v7x_i8_bf16_1_alg».proof.Proof.Gen.KernelIdeal.Skeleton

noncomputable section

namespace Cert.KernelIdeal.Hand

open Cert.KernelIdeal Cert.KernelIdeal.Gen
open Idealize.ShloMosaic Idealize.SL.Sem

variable {F : FTy → Type} [FloatOps F]

def X1 : Fin 3 → Nat := ![4, 3, 1]
def X2 : Fin 3 → Nat := ![3, 1, 4]
def X3 : Fin 3 → Nat := ![1, 4, 3]

def m1 (q : Fin 3) : Fin 4 → Nat := ![X1 q ^^^ X2 q ^^^ X3 q, X1 q ^^^ X2 q, X1 q ^^^ X3 q, X1 q]

def m2 (q : Fin 3) : Fin 2 → Nat := ![X2 q ^^^ X3 q, X2 q]

section

variable (rowsA : Dev nD → Nat → Vec F S1x384x1536 .f32) (colsB : Dev nD → Fin 3 → Vec F S1536x1024 .f32)

def aN (s : Dev nD) (mask : Nat) : FVec F S384x1536 .bf16 := k0_pay2 (rowsA s mask)
def bN (s : Dev nD) (q : Fin 3) : FVec F S1536x1024 .bf16 := k0_pay1 (colsB s q)

def sent1 (s : Dev nD) (q : Fin 3) (j : Fin 4) : FVec F S1x1x384x1024 .bf16 := k0_pay3 (aN rowsA s (m1 q j)) (bN colsB s q)
def recv1 (d : Dev nD) (q : Fin 3) (j : Fin 4) : FVec F S1x1x384x1024 .bf16 := sent1 rowsA colsB (px (X1 q) d) q j

def sent2 (s : Dev nD) (q : Fin 3) (j : Fin 2) : FVec F S1x1x384x1024 .bf16 :=
  k0_pay25 (k0_pay24 (aN rowsA s (m2 q j)) (bN colsB s q)) (recv1 rowsA colsB s q (Fin.castLE (by decide) j))
def recv2 (d : Dev nD) (q : Fin 3) (j : Fin 2) : FVec F S1x1x384x1024 .bf16 := sent2 rowsA colsB (px (X2 q) d) q j

def sent3 (s : Dev nD) (q : Fin 3) : FVec F S1x1x384x1024 .bf16 :=
  k0_pay38 (k0_pay37 (k0_pay36 (aN rowsA s (X3 q)) (bN colsB s q)) (recv1 rowsA colsB s q 2) (recv2 rowsA colsB s q 0))
def recv3 (d : Dev nD) (q : Fin 3) : FVec F S1x1x384x1024 .bf16 := sent3 rowsA colsB (px (X3 q) d) q

def own4 (s : Dev nD) (q : Fin 3) : FVec F S1x1x384x1024 .bf16 :=
  k0_pay45 (k0_pay44 (aN rowsA s 0) (bN colsB s q)) (recv1 rowsA colsB s q 3) (recv2 rowsA colsB s q 1)

def outq (s : Dev nD) (q : Fin 3) : FVec F S384x1024 .bf16 := k0_pay50 (own4 rowsA colsB s q) (recv3 rowsA colsB s q)
end

end Cert.KernelIdeal.Hand

end
-- ==== Proof.Blocks.lean ====
import proofs.«900896_g7700000000000897_dist_matmul_mk_i_outk_m3072_n3072_k1536_v7x_i8_bf16_1_alg».proof.Proof.Spec
import Idealize.ShloMosaic.Lib.ValueIdx

noncomputable section

namespace Cert.KernelIdeal.Hand

open Cert.KernelIdeal Cert.KernelIdeal.Gen
open Idealize.ShloMosaic Idealize.SL.Sem Idealize.ShloMosaic.ValueIdx

variable {F : FTy → Type} [FloatOps F]

def rowsOf (A : (⟨S3072x1536, .f32⟩ : BufTy).Contents (Elt F)) (p : Dev nD) : Vec F S1x384x1536 .f32 :=
  fun i => A (ix2 (⟨p.val * 384 + (i 1).val, by
      have hp : p.val < 8 := p.isLt
      have hi : (i 1).val < 384 := (i 1).isLt
      omega⟩ : Fin 3072) (⟨(i 2).val, (i 2).isLt⟩ : Fin 1536))

def colsOf (B : (⟨S1536x3072, .f32⟩ : BufTy).Contents (Elt F)) (q : Fin 3) : Vec F S1536x1024 .f32 :=
  fun i => B (ix2 (⟨(i 0).val, (i 0).isLt⟩ : Fin 1536) (⟨q.val * 1024 + (i 1).val, by
      have hi : (i 1).val < 1024 := (i 1).isLt
      omega⟩ : Fin 3072))

section
variable (m : (ℓ : Loc nD τ sig) → Buf (Elt F) ℓ)

abbrev rowsA : Dev nD → Nat → Vec F S1x384x1536 .f32 :=
  fun s mask => rowsOf (m ((s.tc : Thread nD τ).loc main_arg0)) (px mask s)

abbrev colsB : Dev nD → Fin 3 → Vec F S1536x1024 .f32 :=
  fun s q => colsOf (m ((s.tc : Thread nD τ).loc main_arg1)) q

def outBuf (d : Dev nD) : Buf (Elt F) ((d.tc : Thread nD τ).loc main_v1) :=
  fun i => outq (rowsA m) (colsB m) d (⟨(i 1).val / 1024, by
      have hi : (i 1).val < 3072 := (i 1).isLt
      omega⟩ : Fin 3)
    (ix2 (⟨(i 0).val, (i 0).isLt⟩ : Fin 384) (⟨(i 1).val % 1024, Nat.mod_lt _ (by decide)⟩ : Fin 1024))

theorem outBuf_apply (d : Dev nD) (q : Fin 3) (r : Fin 384) (n : Fin 1024) :
    outBuf m d (ix2 r (⟨q.val * 1024 + n.val, by omega⟩ : Fin 3072)) = outq (rowsA m) (colsB m) d q (ix2 r n) := by
  have h1 : (⟨(q.val * 1024 + n.val) / 1024, by omega⟩ : Fin 3) = q := Fin.ext (by show (q.val * 1024 + n.val) / 1024 = q.val; omega)
  have h2 : (⟨(q.val * 1024 + n.val) % 1024, Nat.mod_lt _ (by decide)⟩ : Fin 1024) = n :=
    Fin.ext (by show (q.val * 1024 + n.val) % 1024 = n.val; omega)
  show outq (rowsA m) (colsB m) d (⟨(q.val * 1024 + n.val) / 1024, _⟩ : Fin 3)
      (ix2 r (⟨(q.val * 1024 + n.val) % 1024, _⟩ : Fin 1024)) = _
  rw [h1, h2]

end

theorem args_kept_of_run
    (hrun : ∀ (m : (ℓ : Loc nD τ sig) → Buf (Elt F) ℓ) (ρ : Dev nD → PrngReg),
      θ_run (defs (F := F)) (onTc (τ := τ) (main (F := F))) ⟨m, fun _ => 0, ρ⟩ (fun r => ∀ c : Dev nD,
        r.2.mem ((c.tc : Thread nD τ).loc main_v1) = outBuf m c
        ∧ r.2.mem ((c.tc : Thread nD τ).loc main_arg0) = m ((c.tc : Thread nD τ).loc main_arg0)
        ∧ r.2.mem ((c.tc : Thread nD τ).loc main_arg1) = m ((c.tc : Thread nD τ).loc main_arg1)))
    (m : (ℓ : Loc nD τ sig) → Buf (Elt F) ℓ) (g : Dev nD → PrngReg) :
    θ_run (defs (F := F)) (onTc (τ := τ) (main (F := F))) ⟨m, fun _ => 0, g⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun _ h c => (h c).2) (hrun m g)

end Cert.KernelIdeal.Hand

end
-- ==== Proof.Slots.lean ====
import proofs.«900896_g7700000000000897_dist_matmul_mk_i_outk_m3072_n3072_k1536_v7x_i8_bf16_1_alg».proof.Proof.Spec
import Idealize.ShloMosaic.Lib.Pipeline.Value
import Idealize.ShloMosaic.Lib.Ring

noncomputable section

namespace Cert.KernelIdeal.Hand

open Cert.KernelIdeal (S384x1024 S1x1x384x1024)
open Idealize.ShloMosaic
open Idealize.SL Idealize.SL.RA Idealize.SL.BI
open scoped Idealize.SL.BI
open Idealize.SL.BI.BIBase Idealize.SL.BI.Laws Idealize.SL.ProofMode Idealize.SL.Sem

theorem readAt_write_squeeze_slice {sg : RefSig} {κ : Kind} {cs : Space} {s s' : Shape} {e : EltTy} {Val : EltTy → Type}
    (M : Memref sg κ cs s e) (r : Rect s) (hr : ∀ a, r.stride a = 1) (hq : r.shape.Squeezes s')
    (hc : r.shape.ShapeCasts s') (hc' : s'.ShapeCasts r.shape) (f : M.view.ty.Contents Val) (w : s'.Idx → Val e) :
    M.view.readAt Val r.toLoadRect (((M.slice r hr).squeeze s' hq).view.write Val f w Finset.univ)
      = shapeCast r.shape w hc' := by
  have h := View.read_write_univ (v := ((M.slice r hr).squeeze s' hq).view) f w
  rw [Memref.read_squeeze_slice M r hr hq hc] at h
  exact (shapeCast_shapeCast _ hc hc').symm.trans (congrArg (fun x => shapeCast r.shape x hc') h)

abbrev SN (N : Nat) : Shape := ⟨4, ![3, N, 384, 1024]⟩

theorem slot_inb {N q j : Nat} (hq : q < 3) (hj : j < N) :
    ∀ a, (![q, j, 0, 0] : Fin 4 → Nat) a + S1x1x384x1024.size a ≤ (SN N).size a := fun a =>
  match a with
  | ⟨0, _⟩ => (by show q + 1 ≤ 3; omega)
  | ⟨1, _⟩ => (by show j + 1 ≤ N; omega)
  | ⟨2, _⟩ => (by show 0 + 384 ≤ 384; omega)
  | ⟨3, _⟩ => (by show 0 + 1024 ≤ 1024; omega)

theorem slot_casts : S1x1x384x1024.ShapeCasts S384x1024 := by decide
theorem slot_casts' : S384x1024.ShapeCasts S1x1x384x1024 := by decide

abbrev slotRect (N q j : Nat) (inb : ∀ a, (![q, j, 0, 0] : Fin 4 → Nat) a + S1x1x384x1024.size a ≤ (SN N).size a) : Rect (SN N) :=
  Rect.unit (s := SN N) ![q, j, 0, 0] S1x1x384x1024.size inb

section Sets
variable {sg : RefSig} {κ : Kind} {sp : Space} {e : EltTy} {N : Nat}

abbrev slotM (W : Memref sg κ sp (SN N) e) (hsq : S1x1x384x1024.Squeezes S384x1024) (q j : Nat)
    (inb : ∀ a, (![q, j, 0, 0] : Fin 4 → Nat) a + S1x1x384x1024.size a ≤ (SN N).size a) : Memref sg κ sp S384x1024 e :=
  (W.slice (slotRect N q j inb) (fun _ => rfl)).squeeze S384x1024 hsq

def slotSet (W : Memref sg κ sp (SN N) e) (t : Fin 3 × Fin N) : Finset W.view.ty.Idx :=
  (slotRect N t.1.val t.2.val (slot_inb t.1.isLt t.2.isLt)).set.map W.view.emb

theorem slot_set (W : Memref sg κ sp (SN N) e) (hsq : S1x1x384x1024.Squeezes S384x1024) (t : Fin 3 × Fin N) :
    (slotM W hsq t.1.val t.2.val (slot_inb t.1.isLt t.2.isLt)).view.set = slotSet W t := by
  show ((W.view.slice _).reshape S384x1024 _).set = _
  rw [View.set_reshape, View.set_slice]
  rfl

theorem slotRect_disjoint (t t' : Fin 3 × Fin N) (h : t ≠ t') :
    Disjoint (slotRect N t.1.val t.2.val (slot_inb t.1.isLt t.2.isLt)).set (slotRect N t'.1.val t'.2.val (slot_inb t'.1.isLt t'.2.isLt)).set := by
  by_cases h1 : t.1.val = t'.1.val
  · have h2 : t.2.val ≠ t'.2.val := fun e => h (Prod.ext (Fin.ext h1) (Fin.ext e))
    exact Rect.unit_disjoint (1 : Fin 4) (by show t.2.val + 1 ≤ t'.2.val ∨ t'.2.val + 1 ≤ t.2.val; omega)
  · exact Rect.unit_disjoint (0 : Fin 4) (by show t.1.val + 1 ≤ t'.1.val ∨ t'.1.val + 1 ≤ t.1.val; omega)

theorem slotRect_cover (i : (SN N).Idx) :
    ∃ t : Fin 3 × Fin N, i ∈ (slotRect N t.1.val t.2.val (slot_inb t.1.isLt t.2.isLt)).set := by
  have h0 : (i 0).val < 3 := (i 0).isLt
  have h1 : (i 1).val < N := (i 1).isLt
  have h2 : (i 2).val < 384 := (i 2).isLt
  have h3 : (i 3).val < 1024 := (i 3).isLt
  refine ⟨(⟨(i 0).val, h0⟩, ⟨(i 1).val, h1⟩), Rect.mem_set_unit.mpr fun a => ?_⟩
  match a with
  | ⟨0, _⟩ => exact ⟨Nat.le_refl _, Nat.lt_succ_self _⟩
  | ⟨1, _⟩ => exact ⟨Nat.le_refl _, Nat.lt_succ_self _⟩
  | ⟨2, _⟩ => exact ⟨Nat.zero_le _, by show (i 2).val < 0 + 384; omega⟩
  | ⟨3, _⟩ => exact ⟨Nat.zero_le _, by show (i 3).val < 0 + 1024; omega⟩

theorem slotSet_disjoint (W : Memref sg κ sp (SN N) e) (t t' : Fin 3 × Fin N) (h : t ≠ t') :
    Disjoint (slotSet W t) (slotSet W t') :=
  (Finset.disjoint_map _).mpr (slotRect_disjoint t t' h)

theorem slotSet_cover (W : Memref sg κ sp (SN N) e) (hW : W.view.set = Finset.univ) :
    Finset.univ.biUnion (slotSet W) = Finset.univ := by
  ext i
  simp only [Finset.mem_biUnion, Finset.mem_univ, true_and, iff_true]
  have hi : i ∈ W.view.set := hW ▸ Finset.mem_univ i
  obtain ⟨z, -, rfl⟩ := Finset.mem_map.mp hi
  obtain ⟨t, ht⟩ := slotRect_cover z
  exact ⟨t, Finset.mem_map_of_mem _ ht⟩

end Sets

section Held
variable {nD' : Nat} {τ' : Topo} {sg : RefSig} {Ix : Type} [DecidableEq Ix] {Val : EltTy → Type} {Name : Type} [DecidableEq Name]
  {U : Type} [URA U] {Lvl : Type}

local notation "𝕄" => MT nD' τ' sg Ix Val Name U Lvl

variable {c : Thread nD' τ'} {sp : Space} {e : EltTy} {N : Nat} (W : Memref sg c.2.kind sp (SN N) e)
  (hsq : S1x1x384x1024.Squeezes S384x1024)

abbrev slotP (sh : PosShare TreeShare) (q j : Nat)
    (inb : ∀ a, (![q, j, 0, 0] : Fin 4 → Nat) a + S1x1x384x1024.size a ≤ (SN N).size a)
    (f : Buf Val ((slotM W hsq q j inb).view.loc c)) : sProp 𝕄 :=
  (slotM W hsq q j inb).view.loc c ↦[(slotM W hsq q j inb).view.set]{sh} f

theorem slotP_eq (sh : PosShare TreeShare) (t : Fin 3 × Fin N) (f : Buf Val (W.view.loc c)) :
    slotP (Ix := Ix) (Name := Name) (U := U) (Lvl := Lvl) W hsq sh t.1.val t.2.val (slot_inb t.1.isLt t.2.isLt) f
      = (W.view.loc c ↦[slotSet W t]{sh} f : sProp 𝕄) := by
  unfold slotP
  rw [slot_set W hsq t]

theorem slots_split (hW : W.view.set = Finset.univ) (sh : PosShare TreeShare) (f : Buf Val (W.view.loc c)) :
    (W.view.loc c ↦{sh} f : sProp 𝕄)
      = bigSep Finset.univ fun t : Fin 3 × Fin N =>
          slotP (Ix := Ix) (Name := Name) (U := U) (Lvl := Lvl) W hsq sh t.1.val t.2.val (slot_inb t.1.isLt t.2.isLt) f := by
  rw [Ring.pointsTo_blocks (slotSet W) (slotSet_disjoint W) (slotSet_cover W hW) f]
  exact congrArg (bigSep Finset.univ) (funext fun t => (slotP_eq W hsq sh t f).symm)

theorem slots_join [∀ e, Nonempty (Val e)] (hW : W.view.set = Finset.univ) (sh : PosShare TreeShare) (fs : Fin 3 × Fin N → Buf Val (W.view.loc c)) :
    bigSep Finset.univ (fun t : Fin 3 × Fin N =>
        slotP (Ix := Ix) (Name := Name) (U := U) (Lvl := Lvl) W hsq sh t.1.val t.2.val (slot_inb t.1.isLt t.2.isLt) (fs t))
      ⊢ (iprop(∃ g, ⌜∀ t ∈ (Finset.univ : Finset (Fin 3 × Fin N)), ∀ i ∈ slotSet W t, g i = fs t i⌝ ∗ W.view.loc c ↦{sh} g) : sProp 𝕄) := by
  have h := pointsTo_biUnion_join (Ix := Ix) (Name := Name) (U := U) (Lvl := Lvl) (ℓ := W.view.loc c) (q := sh)
    Finset.univ (slotSet W) fs (fun _ => Classical.arbitrary _) (fun t _ t' _ h => slotSet_disjoint W t t' h)
  rw [slotSet_cover W hW] at h
  rw [show (fun t : Fin 3 × Fin N =>
        slotP (Ix := Ix) (Name := Name) (U := U) (Lvl := Lvl) W hsq sh t.1.val t.2.val (slot_inb t.1.isLt t.2.isLt) (fs t))
      = fun t => (W.view.loc c ↦[slotSet W t]{sh} fs t : sProp 𝕄) from funext fun t => slotP_eq W hsq sh t (fs t)]
  exact h

theorem slots_join_exists [∀ e, Nonempty (Val e)] (hW : W.view.set = Finset.univ) (sh : PosShare TreeShare) (fs : Fin 3 × Fin N → Buf Val (W.view.loc c)) :
    bigSep Finset.univ (fun t : Fin 3 × Fin N =>
        slotP (Ix := Ix) (Name := Name) (U := U) (Lvl := Lvl) W hsq sh t.1.val t.2.val (slot_inb t.1.isLt t.2.isLt) (fs t))
      ⊢ (iprop(∃ g, W.view.loc c ↦{sh} g) : sProp 𝕄) := by
  refine (slots_join W hsq hW sh fs).trans ?_
  iintro ⟨%g, -, H⟩
  iexists g
  iexact H

end Held

section Canon
variable {nD' : Nat} {τ' : Topo} {sg : RefSig} {Ix : Type} [DecidableEq Ix] {Val : EltTy → Type} [∀ e, Nonempty (Val e)]
  {Name : Type} [DecidableEq Name] {U : Type} [URA U] {Lvl : Type}

local notation "𝕄" => MT nD' τ' sg Ix Val Name U Lvl

def canon {c : Thread nD' τ'} {sp : Space} {e : EltTy} (M : Memref sg c.2.kind sp S384x1024 e) (v : S1x1x384x1024.Idx → Val e) :
    Buf Val (M.view.loc c) :=
  M.view.write Val M.view.junk (shapeCast S384x1024 v slot_casts) Finset.univ

theorem pointsTo_write_rebase {c : Thread nD' τ'} {sp : Space} {s : Shape} {e : EltTy} (M : Memref sg c.2.kind sp s e)
    (f g : Buf Val (M.view.loc c)) (w : s.Idx → Val e) (sh : PosShare TreeShare) :
    (M.view.loc c ↦[M.view.set]{sh} M.view.write Val f w Finset.univ : sProp 𝕄)
      = M.view.loc c ↦[M.view.set]{sh} M.view.write Val g w Finset.univ := by
  refine pointsTo_congr fun i hi => ?_
  obtain ⟨z, -, rfl⟩ := Finset.mem_map.mp hi
  rw [View.write_emb_of_mem _ _ (Finset.mem_univ _), View.write_emb_of_mem _ _ (Finset.mem_univ _)]

variable {c : Thread nD' τ'} {sp : Space} {e : EltTy} {N : Nat} (W : Memref sg c.2.kind sp (SN N) e)
  (hsq : S1x1x384x1024.Squeezes S384x1024)

theorem readAt_canon (q j : Nat) (inb : ∀ a, (![q, j, 0, 0] : Fin 4 → Nat) a + S1x1x384x1024.size a ≤ (SN N).size a)
    (v : S1x1x384x1024.Idx → Val e) :
    W.view.readAt Val (slotRect N q j inb).toLoadRect (canon (slotM W hsq q j inb) v) = v := by
  unfold canon
  rw [readAt_write_squeeze_slice W (slotRect N q j inb) (fun _ => rfl) hsq slot_casts slot_casts']
  exact shapeCast_shapeCast v slot_casts slot_casts'

theorem read_slot (q j : Nat) (inb : ∀ a, (![q, j, 0, 0] : Fin 4 → Nat) a + S1x1x384x1024.size a ≤ (SN N).size a)
    (fs : Buf Val (W.view.loc c)) (v : S1x1x384x1024.Idx → Val e)
    (hs : W.view.readAt Val (slotRect N q j inb).toLoadRect fs = v) :
    (slotM W hsq q j inb).view.read Val fs = shapeCast S384x1024 v slot_casts := by
  rw [← hs]
  exact Memref.read_squeeze_slice W (slotRect N q j inb) (fun _ => rfl) hsq slot_casts fs

theorem land {c' : Thread nD' τ'} {sp' : Space} {N' : Nat} (Wd : Memref sg c'.2.kind sp' (SN N') e)
    (q j : Nat) (inb : ∀ a, (![q, j, 0, 0] : Fin 4 → Nat) a + S1x1x384x1024.size a ≤ (SN N).size a)
    (q' j' : Nat) (inb' : ∀ a, (![q', j', 0, 0] : Fin 4 → Nat) a + S1x1x384x1024.size a ≤ (SN N').size a)
    (fs : Buf Val (W.view.loc c)) (fd : Buf Val (Wd.view.loc c')) (v : S1x1x384x1024.Idx → Val e)
    (hs : W.view.readAt Val (slotRect N q j inb).toLoadRect fs = v) (sh : PosShare TreeShare) :
    ((slotM Wd hsq q' j' inb').view.loc c' ↦[(slotM Wd hsq q' j' inb').view.set]{sh}
        (slotM Wd hsq q' j' inb').view.write Val fd ((slotM W hsq q j inb).view.read Val fs) Finset.univ : sProp 𝕄)
      = (slotM Wd hsq q' j' inb').view.loc c' ↦[(slotM Wd hsq q' j' inb').view.set]{sh} canon (slotM Wd hsq q' j' inb') v := by
  rw [read_slot W hsq q j inb fs v hs]
  exact pointsTo_write_rebase (slotM Wd hsq q' j' inb') fd _ _ sh

end Canon

section Store
variable {nD' : Nat} {τ' : Topo} {sg : RefSig} {Ix : Type} [DecidableEq Ix] {Val : EltTy → Type} [∀ e, Nonempty (Val e)]
  {Name : Type} [DecidableEq Name] {U : Type} [URA U] {Lvl : Type}

local notation "𝕄" => MT nD' τ' sg Ix Val Name U Lvl

variable {c : Thread nD' τ'} {sp : Space} {e : EltTy} {N : Nat} (W : Memref sg c.2.kind sp (SN N) e)
  (hsq : S1x1x384x1024.Squeezes S384x1024)

theorem store_canon (q j : Nat) (inb : ∀ a, (![q, j, 0, 0] : Fin 4 → Nat) a + S1x1x384x1024.size a ≤ (SN N).size a)
    (f : Buf Val (W.view.loc c)) (v : S1x1x384x1024.Idx → Val e) (sh : PosShare TreeShare) :
    ((slotM W hsq q j inb).view.loc c ↦[(slotM W hsq q j inb).view.set]{sh}
        (W.access (slotRect N q j inb)).write Val f v Finset.univ : sProp 𝕄)
      = (slotM W hsq q j inb).view.loc c ↦[(slotM W hsq q j inb).view.set]{sh} canon (slotM W hsq q j inb) v := by
  refine pointsTo_congr fun i hi => ?_
  obtain ⟨z, -, rfl⟩ := Finset.mem_map.mp hi
  unfold canon
  rw [View.write_emb_of_mem _ _ (Finset.mem_univ _)]
  show (W.view.slice (slotRect N q j inb)).write Val f v Finset.univ
      ((W.view.slice (slotRect N q j inb)).emb (Shape.reshapeEquiv hsq.numel_eq z)) = _
  rw [View.write_emb_of_mem _ _ (Finset.mem_univ _)]
  rfl

end Store

/-- info: 'Cert.KernelIdeal.Hand.slots_split' depends on axioms: [propext, Classical.choice, Quot.sound] -/
#guard_msgs in #print axioms slots_split
/-- info: 'Cert.KernelIdeal.Hand.land' depends on axioms: [propext, Classical.choice, Quot.sound] -/
#guard_msgs in #print axioms land
/-- info: 'Cert.KernelIdeal.Hand.store_canon' depends on axioms: [propext, Classical.choice, Quot.sound] -/
#guard_msgs in #print axioms store_canon

end Cert.KernelIdeal.Hand

end
-- ==== Proof.Sched.lean ====
import proofs.«900896_g7700000000000897_dist_matmul_mk_i_outk_m3072_n3072_k1536_v7x_i8_bf16_1_alg».proof.Proof.Levels
import proofs.«900896_g7700000000000897_dist_matmul_mk_i_outk_m3072_n3072_k1536_v7x_i8_bf16_1_alg».proof.Proof.Blocks
import proofs.«900896_g7700000000000897_dist_matmul_mk_i_outk_m3072_n3072_k1536_v7x_i8_bf16_1_alg».proof.Proof.Slots
import Idealize.ShloMosaic.Lib.Pipeline.Value

set_option maxRecDepth 4096

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev NX : ℕ := 24576

abbrev sb_0_0 : Memref sig .tc .vmem S384x1024 .bf16 := ((Memref.whole cc0_scratch4).slice (Rect.unit (s := S3x4x384x1024) ![0, 0, 0, 0] S1x1x384x1024.size inb_S3x4x384x1024_S1x1x384x1024_0_0_0_0) (fun _ => rfl)).squeeze S384x1024 squeezes_S1x1x384x1024_S384x1024
abbrev r1_0_0 : Memref sig .tc .vmem S384x1024 .bf16 := ((Memref.whole cc0_scratch5).slice (Rect.unit (s := S3x4x384x1024) ![0, 0, 0, 0] S1x1x384x1024.size inb_S3x4x384x1024_S1x1x384x1024_0_0_0_0) (fun _ => rfl)).squeeze S384x1024 squeezes_S1x1x384x1024_S384x1024
abbrev sb_0_1 : Memref sig .tc .vmem S384x1024 .bf16 := ((Memref.whole cc0_scratch4).slice (Rect.unit (s := S3x4x384x1024) ![0, 1, 0, 0] S1x1x384x1024.size inb_S3x4x384x1024_S1x1x384x1024_0_1_0_0) (fun _ => rfl)).squeeze S384x1024 squeezes_S1x1x384x1024_S384x1024
abbrev r1_0_1 : Memref sig .tc .vmem S384x1024 .bf16 := ((Memref.whole cc0_scratch5).slice (Rect.unit (s := S3x4x384x1024) ![0, 1, 0, 0] S1x1x384x1024.size inb_S3x4x384x1024_S1x1x384x1024_0_1_0_0) (fun _ => rfl)).squeeze S384x1024 squeezes_S1x1x384x1024_S384x1024
abbrev sb_0_2 : Memref sig .tc .vmem S384x1024 .bf16 := ((Memref.whole cc0_scratch4).slice (Rect.unit (s := S3x4x384x1024) ![0, 2, 0, 0] S1x1x384x1024.size inb_S3x4x384x1024_S1x1x384x1024_0_2_0_0) (fun _ => rfl)).squeeze S384x1024 squeezes_S1x1x384x1024_S384x1024
abbrev r1_0_2 : Memref sig .tc .vmem S384x1024 .bf16 := ((Memref.whole cc0_scratch5).slice (Rect.unit (s := S3x4x384x1024) ![0, 2, 0, 0] S1x1x384x1024.size inb_S3x4x384x1024_S1x1x384x1024_0_2_0_0) (fun _ => rfl)).squeeze S384x1024 squeezes_S1x1x384x1024_S384x1024
abbrev sb_0_3 : Memref sig .tc .vmem S384x1024 .bf16 := ((Memref.whole cc0_scratch4).slice (Rect.unit (s := S3x4x384x1024) ![0, 3, 0, 0] S1x1x384x1024.size inb_S3x4x384x1024_S1x1x384x1024_0_3_0_0) (fun _ => rfl)).squeeze S384x1024 squeezes_S1x1x384x1024_S384x1024
abbrev r1_0_3 : Memref sig .tc .vmem S384x1024 .bf16 := ((Memref.whole cc0_scratch5).slice (Rect.unit (s := S3x4x384x1024) ![0, 3, 0, 0] S1x1x384x1024.size inb_S3x4x384x1024_S1x1x384x1024_0_3_0_0) (fun _ => rfl)).squeeze S384x1024 squeezes_S1x1x384x1024_S384x1024
abbrev sb_1_0 : Memref sig .tc .vmem S384x1024 .bf16 := ((Memref.whole cc0_scratch4).slice (Rect.unit (s := S3x4x384x1024) ![1, 0, 0, 0] S1x1x384x1024.size inb_S3x4x384x1024_S1x1x384x1024_1_0_0_0) (fun _ => rfl)).squeeze S384x1024 squeezes_S1x1x384x1024_S384x1024
abbrev r1_1_0 : Memref sig .tc .vmem S384x1024 .bf16 := ((Memref.whole cc0_scratch5).slice (Rect.unit (s := S3x4x384x1024) ![1, 0, 0, 0] S1x1x384x1024.size inb_S3x4x384x1024_S1x1x384x1024_1_0_0_0) (fun _ => rfl)).squeeze S384x1024 squeezes_S1x1x384x1024_S384x1024
abbrev sb_1_1 : Memref sig .tc .vmem S384x1024 .bf16 := ((Memref.whole cc0_scratch4).slice (Rect.unit (s := S3x4x384x1024) ![1, 1, 0, 0] S1x1x384x1024.size inb_S3x4x384x1024_S1x1x384x1024_1_1_0_0) (fun _ => rfl)).squeeze S384x1024 squeezes_S1x1x384x1024_S384x1024
abbrev r1_1_1 : Memref sig .tc .vmem S384x1024 .bf16 := ((Memref.whole cc0_scratch5).slice (Rect.unit (s := S3x4x384x1024) ![1, 1, 0, 0] S1x1x384x1024.size inb_S3x4x384x1024_S1x1x384x1024_1_1_0_0) (fun _ => rfl)).squeeze S384x1024 squeezes_S1x1x384x1024_S384x1024
abbrev sb_1_2 : Memref sig .tc .vmem S384x1024 .bf16 := ((Memref.whole cc0_scratch4).slice (Rect.unit (s := S3x4x384x1024) ![1, 2, 0, 0] S1x1x384x1024.size inb_S3x4x384x1024_S1x1x384x1024_1_2_0_0) (fun _ => rfl)).squeeze S384x1024 squeezes_S1x1x384x1024_S384x1024
abbrev r1_1_2 : Memref sig .tc .vmem S384x1024 .bf16 := ((Memref.whole cc0_scratch5).slice (Rect.unit (s := S3x4x384x1024) ![1, 2, 0, 0] S1x1x384x1024.size inb_S3x4x384x1024_S1x1x384x1024_1_2_0_0) (fun _ => rfl)).squeeze S384x1024 squeezes_S1x1x384x1024_S384x1024
abbrev sb_1_3 : Memref sig .tc .vmem S384x1024 .bf16 := ((Memref.whole cc0_scratch4).slice (Rect.unit (s := S3x4x384x1024) ![1, 3, 0, 0] S1x1x384x1024.size inb_S3x4x384x1024_S1x1x384x1024_1_3_0_0) (fun _ => rfl)).squeeze S384x1024 squeezes_S1x1x384x1024_S384x1024
abbrev r1_1_3 : Memref sig .tc .vmem S384x1024 .bf16 := ((Memref.whole cc0_scratch5).slice (Rect.unit (s := S3x4x384x1024) ![1, 3, 0, 0] S1x1x384x1024.size inb_S3x4x384x1024_S1x1x384x1024_1_3_0_0) (fun _ => rfl)).squeeze S384x1024 squeezes_S1x1x384x1024_S384x1024
abbrev sb_2_0 : Memref sig .tc .vmem S384x1024 .bf16 := ((Memref.whole cc0_scratch4).slice (Rect.unit (s := S3x4x384x1024) ![2, 0, 0, 0] S1x1x384x1024.size inb_S3x4x384x1024_S1x1x384x1024_2_0_0_0) (fun _ => rfl)).squeeze S384x1024 squeezes_S1x1x384x1024_S384x1024
abbrev r1_2_0 : Memref sig .tc .vmem S384x1024 .bf16 := ((Memref.whole cc0_scratch5).slice (Rect.unit (s := S3x4x384x1024) ![2, 0, 0, 0] S1x1x384x1024.size inb_S3x4x384x1024_S1x1x384x1024_2_0_0_0) (fun _ => rfl)).squeeze S384x1024 squeezes_S1x1x384x1024_S384x1024
abbrev sb_2_1 : Memref sig .tc .vmem S384x1024 .bf16 := ((Memref.whole cc0_scratch4).slice (Rect.unit (s := S3x4x384x1024) ![2, 1, 0, 0] S1x1x384x1024.size inb_S3x4x384x1024_S1x1x384x1024_2_1_0_0) (fun _ => rfl)).squeeze S384x1024 squeezes_S1x1x384x1024_S384x1024
abbrev r1_2_1 : Memref sig .tc .vmem S384x1024 .bf16 := ((Memref.whole cc0_scratch5).slice (Rect.unit (s := S3x4x384x1024) ![2, 1, 0, 0] S1x1x384x1024.size inb_S3x4x384x1024_S1x1x384x1024_2_1_0_0) (fun _ => rfl)).squeeze S384x1024 squeezes_S1x1x384x1024_S384x1024
abbrev sb_2_2 : Memref sig .tc .vmem S384x1024 .bf16 := ((Memref.whole cc0_scratch4).slice (Rect.unit (s := S3x4x384x1024) ![2, 2, 0, 0] S1x1x384x1024.size inb_S3x4x384x1024_S1x1x384x1024_2_2_0_0) (fun _ => rfl)).squeeze S384x1024 squeezes_S1x1x384x1024_S384x1024
abbrev r1_2_2 : Memref sig .tc .vmem S384x1024 .bf16 := ((Memref.whole cc0_scratch5).slice (Rect.unit (s := S3x4x384x1024) ![2, 2, 0, 0] S1x1x384x1024.size inb_S3x4x384x1024_S1x1x384x1024_2_2_0_0) (fun _ => rfl)).squeeze S384x1024 squeezes_S1x1x384x1024_S384x1024
abbrev sb_2_3 : Memref sig .tc .vmem S384x1024 .bf16 := ((Memref.whole cc0_scratch4).slice (Rect.unit (s := S3x4x384x1024) ![2, 3, 0, 0] S1x1x384x1024.size inb_S3x4x384x1024_S1x1x384x1024_2_3_0_0) (fun _ => rfl)).squeeze S384x1024 squeezes_S1x1x384x1024_S384x1024
abbrev r1_2_3 : Memref sig .tc .vmem S384x1024 .bf16 := ((Memref.whole cc0_scratch5).slice (Rect.unit (s := S3x4x384x1024) ![2, 3, 0, 0] S1x1x384x1024.size inb_S3x4x384x1024_S1x1x384x1024_2_3_0_0) (fun _ => rfl)).squeeze S384x1024 squeezes_S1x1x384x1024_S384x1024
abbrev r2_0_0 : Memref sig .tc .vmem S384x1024 .bf16 := ((Memref.whole cc0_scratch6).slice (Rect.unit (s := S3x2x384x1024) ![0, 0, 0, 0] S1x1x384x1024.size inb_S3x2x384x1024_S1x1x384x1024_0_0_0_0) (fun _ => rfl)).squeeze S384x1024 squeezes_S1x1x384x1024_S384x1024
abbrev r2_0_1 : Memref sig .tc .vmem S384x1024 .bf16 := ((Memref.whole cc0_scratch6).slice (Rect.unit (s := S3x2x384x1024) ![0, 1, 0, 0] S1x1x384x1024.size inb_S3x2x384x1024_S1x1x384x1024_0_1_0_0) (fun _ => rfl)).squeeze S384x1024 squeezes_S1x1x384x1024_S384x1024
abbrev r2_1_0 : Memref sig .tc .vmem S384x1024 .bf16 := ((Memref.whole cc0_scratch6).slice (Rect.unit (s := S3x2x384x1024) ![1, 0, 0, 0] S1x1x384x1024.size inb_S3x2x384x1024_S1x1x384x1024_1_0_0_0) (fun _ => rfl)).squeeze S384x1024 squeezes_S1x1x384x1024_S384x1024
abbrev r2_1_1 : Memref sig .tc .vmem S384x1024 .bf16 := ((Memref.whole cc0_scratch6).slice (Rect.unit (s := S3x2x384x1024) ![1, 1, 0, 0] S1x1x384x1024.size inb_S3x2x384x1024_S1x1x384x1024_1_1_0_0) (fun _ => rfl)).squeeze S384x1024 squeezes_S1x1x384x1024_S384x1024
abbrev r2_2_0 : Memref sig .tc .vmem S384x1024 .bf16 := ((Memref.whole cc0_scratch6).slice (Rect.unit (s := S3x2x384x1024) ![2, 0, 0, 0] S1x1x384x1024.size inb_S3x2x384x1024_S1x1x384x1024_2_0_0_0) (fun _ => rfl)).squeeze S384x1024 squeezes_S1x1x384x1024_S384x1024
abbrev r2_2_1 : Memref sig .tc .vmem S384x1024 .bf16 := ((Memref.whole cc0_scratch6).slice (Rect.unit (s := S3x2x384x1024) ![2, 1, 0, 0] S1x1x384x1024.size inb_S3x2x384x1024_S1x1x384x1024_2_1_0_0) (fun _ => rfl)).squeeze S384x1024 squeezes_S1x1x384x1024_S384x1024
abbrev r3_0 : Memref sig .tc .vmem S384x1024 .bf16 := ((Memref.whole cc0_scratch7).slice (Rect.unit (s := S3x1x384x1024) ![0, 0, 0, 0] S1x1x384x1024.size inb_S3x1x384x1024_S1x1x384x1024_0_0_0_0) (fun _ => rfl)).squeeze S384x1024 squeezes_S1x1x384x1024_S384x1024
abbrev r3_1 : Memref sig .tc .vmem S384x1024 .bf16 := ((Memref.whole cc0_scratch7).slice (Rect.unit (s := S3x1x384x1024) ![1, 0, 0, 0] S1x1x384x1024.size inb_S3x1x384x1024_S1x1x384x1024_1_0_0_0) (fun _ => rfl)).squeeze S384x1024 squeezes_S1x1x384x1024_S384x1024
abbrev r3_2 : Memref sig .tc .vmem S384x1024 .bf16 := ((Memref.whole cc0_scratch7).slice (Rect.unit (s := S3x1x384x1024) ![2, 0, 0, 0] S1x1x384x1024.size inb_S3x1x384x1024_S1x1x384x1024_2_0_0_0) (fun _ => rfl)).squeeze S384x1024 squeezes_S1x1x384x1024_S384x1024

def someAt (M : Memref sig .tc .vmem S384x1024 .bf16) (c : Dev nD) : sProp 𝕄 :=
  iprop(∃ f, M.view.loc (c : Thread nD τ) ↦[M.view.set]{fullShare} f)
def holds (M : Memref sig .tc .vmem S384x1024 .bf16) (c : Dev nD) (v : Vec F S1x1x384x1024 .bf16) : sProp 𝕄 :=
  M.view.loc (c : Thread nD τ) ↦[M.view.set]{fullShare} canon (c := (c : Thread nD τ)) (Val := Elt F) M v
instance someAt_storable (M : Memref sig .tc .vmem S384x1024 .bf16) (c : Dev nD) : BI.Storable (upEmb : UEmb _ 𝕄) (someAt (F := F) M c) := by unfold someAt; infer_instance
instance holds_storable (M : Memref sig .tc .vmem S384x1024 .bf16) (c : Dev nD) (v) : BI.Storable (upEmb : UEmb _ 𝕄) (holds (F := F) M c v) := by unfold holds; infer_instance
theorem someAt_eq (M : Memref sig .tc .vmem S384x1024 .bf16) (c : Dev nD) : someAt (F := F) M c = iprop(∃ f, M.view.loc (c : Thread nD τ) ↦[M.view.set]{fullShare} f) := rfl
theorem holds_eq (M : Memref sig .tc .vmem S384x1024 .bf16) (c : Dev nD) (v) : holds (F := F) M c v = (M.view.loc (c : Thread nD τ) ↦[M.view.set]{fullShare} canon (c := (c : Thread nD τ)) (Val := Elt F) M v) := rfl

variable (m : (ℓ : Loc nD τ sig) → Buf (Elt F) ℓ)

def xferPay (d : Dev nD) : Nat → sProp 𝕄
  | 4 => someAt sb_0_0 d
  | 5 => someAt sb_0_1 d
  | 6 => someAt sb_0_2 d
  | 7 => someAt sb_0_3 d
  | 8 => someAt sb_1_0 d
  | 9 => someAt sb_1_1 d
  | 10 => someAt sb_1_2 d
  | 11 => someAt sb_1_3 d
  | 12 => someAt sb_2_0 d
  | 13 => someAt sb_2_1 d
  | 14 => someAt sb_2_2 d
  | 15 => someAt sb_2_3 d
  | 28 => someAt sb_0_0 d
  | 29 => someAt sb_0_1 d
  | 30 => someAt sb_1_0 d
  | 31 => someAt sb_1_1 d
  | 32 => someAt sb_2_0 d
  | 33 => someAt sb_2_1 d
  | 40 => someAt sb_0_2 d
  | 41 => someAt sb_1_2 d
  | 42 => someAt sb_2_2 d
  | 16 => holds r1_0_0 d (recv1 (rowsA m) (colsB m) d 0 0)
  | 17 => holds r1_0_1 d (recv1 (rowsA m) (colsB m) d 0 1)
  | 18 => holds r1_0_2 d (recv1 (rowsA m) (colsB m) d 0 2)
  | 19 => holds r1_0_3 d (recv1 (rowsA m) (colsB m) d 0 3)
  | 20 => holds r1_1_0 d (recv1 (rowsA m) (colsB m) d 1 0)
  | 21 => holds r1_1_1 d (recv1 (rowsA m) (colsB m) d 1 1)
  | 22 => holds r1_1_2 d (recv1 (rowsA m) (colsB m) d 1 2)
  | 23 => holds r1_1_3 d (recv1 (rowsA m) (colsB m) d 1 3)
  | 24 => holds r1_2_0 d (recv1 (rowsA m) (colsB m) d 2 0)
  | 25 => holds r1_2_1 d (recv1 (rowsA m) (colsB m) d 2 1)
  | 26 => holds r1_2_2 d (recv1 (rowsA m) (colsB m) d 2 2)
  | 27 => holds r1_2_3 d (recv1 (rowsA m) (colsB m) d 2 3)
  | 34 => holds r2_0_0 d (recv2 (rowsA m) (colsB m) d 0 0)
  | 35 => holds r2_0_1 d (recv2 (rowsA m) (colsB m) d 0 1)
  | 36 => holds r2_1_0 d (recv2 (rowsA m) (colsB m) d 1 0)
  | 37 => holds r2_1_1 d (recv2 (rowsA m) (colsB m) d 1 1)
  | 38 => holds r2_2_0 d (recv2 (rowsA m) (colsB m) d 2 0)
  | 39 => holds r2_2_1 d (recv2 (rowsA m) (colsB m) d 2 1)
  | 43 => holds r3_0 d (recv3 (rowsA m) (colsB m) d 0)
  | 44 => holds r3_1 d (recv3 (rowsA m) (colsB m) d 1)
  | 45 => holds r3_2 d (recv3 (rowsA m) (colsB m) d 2)
  | _ => iprop(emp)

def barSlots (p : Dev nD) : Fin 8 → sProp 𝕄
  | 1 => iprop(someAt r1_2_0 p ∗ someAt r1_2_1 p ∗ someAt r1_2_2 p ∗ someAt r1_2_3 p ∗ someAt r2_1_0 p ∗ someAt r2_1_1 p ∗ someAt r3_0 p)
  | 3 => iprop(someAt r1_1_0 p ∗ someAt r1_1_1 p ∗ someAt r1_1_2 p ∗ someAt r1_1_3 p ∗ someAt r2_0_0 p ∗ someAt r2_0_1 p ∗ someAt r3_2 p)
  | 4 => iprop(someAt r1_0_0 p ∗ someAt r1_0_1 p ∗ someAt r1_0_2 p ∗ someAt r1_0_3 p ∗ someAt r2_2_0 p ∗ someAt r2_2_1 p ∗ someAt r3_1 p)
  | _ => iprop(emp)
theorem barSlots_at_1 (p : Dev nD) : barSlots (F := F) p 1 = iprop(someAt r1_2_0 p ∗ someAt r1_2_1 p ∗ someAt r1_2_2 p ∗ someAt r1_2_3 p ∗ someAt r2_1_0 p ∗ someAt r2_1_1 p ∗ someAt r3_0 p) := rfl
theorem barSlots_at_3 (p : Dev nD) : barSlots (F := F) p 3 = iprop(someAt r1_1_0 p ∗ someAt r1_1_1 p ∗ someAt r1_1_2 p ∗ someAt r1_1_3 p ∗ someAt r2_0_0 p ∗ someAt r2_0_1 p ∗ someAt r3_2 p) := rfl
theorem barSlots_at_4 (p : Dev nD) : barSlots (F := F) p 4 = iprop(someAt r1_0_0 p ∗ someAt r1_0_1 p ∗ someAt r1_0_2 p ∗ someAt r1_0_3 p ∗ someAt r2_2_0 p ∗ someAt r2_2_1 p ∗ someAt r3_1 p) := rfl

def amt : SemLoc sig → ℕ
  | .reg _ => 1
  | .dma _ => NX
theorem amt_pos (s : SemLoc sig) : 0 < amt s := by
  cases s with
  | reg _ => exact Nat.one_pos
  | dma _ => exact (by decide : 0 < 24576)

def Rd : Rounds.Schedule (GSem nD τ sig) DT 𝕄 where
  duties g r := if r = 0 ∧ g.1.2 = .tc then (match g.2 with | .reg _ => {1, 3, 4} | .dma s => if 4 ≤ s.val then {0} else ∅) else ∅
  amount g _ _ := amt g.2
  payload g _ d := match g.2 with | .reg _ => barSlots (px d.val g.1.1) d | .dma s => xferPay m g.1.1 s.val
  amount_pos g _ _ _ := amt_pos g.2

set_option synthInstance.maxHeartbeats 1000000 in
instance Rd_payload_storable (g : GSem nD τ sig) (r : ℕ) (d : DT) : BI.Storable (upEmb : UEmb _ 𝕄) ((Rd (F := F) m).payload g r d) := by
  show BI.Storable upEmb (match g.2 with | .reg _ => barSlots (px d.val g.1.1) d | .dma s => xferPay m g.1.1 s.val)
  cases g.2 with
  | reg _ => dsimp only; unfold barSlots; split <;> infer_instance
  | dma s => dsimp only; unfold xferPay; split <;> infer_instance

abbrev bCell (c : Dev nD) : GSem nD τ sig := ((c : Thread nD τ), .reg barS)

section Tables
variable (c : Dev nD)

theorem duties_bar : (Rd (F := F) m).duties (bCell c) 0 = {1, 3, 4} := by dsimp only [Rd]; rw [if_pos ⟨rfl, rfl⟩]
theorem amount_bar (r : ℕ) (d : DT) : (Rd (F := F) m).amount (bCell c) r d = 1 := rfl
theorem expect_bar : (Rd (F := F) m).expect (bCell c) 0 = 3 := by
  unfold Schedule.expect Schedule.amountOf; rw [duties_bar]; rfl
theorem duties_later (g : GSem nD τ sig) : ∀ r, 1 ≤ r → (Rd (F := F) m).duties g r = ∅ :=
  fun r hr => by dsimp only [Rd]; rw [if_neg fun h => by omega]

theorem payload_bar_1 : (Rd (F := F) m).payload (bCell c) 0 1 = barSlots (px 1 c) 1 := rfl
theorem payload_bar_peer_1 : (Rd (F := F) m).payload (bCell (px 1 c)) 0 1 = barSlots c 1 := by
  have h : px 1 (px 1 c) = c := px_px 1 c
  show barSlots (px 1 (px 1 c)) 1 = barSlots c 1; rw [h]
theorem payload_bar_3 : (Rd (F := F) m).payload (bCell c) 0 3 = barSlots (px 3 c) 3 := rfl
theorem payload_bar_peer_3 : (Rd (F := F) m).payload (bCell (px 3 c)) 0 3 = barSlots c 3 := by
  have h : px 3 (px 3 c) = c := px_px 3 c
  show barSlots (px 3 (px 3 c)) 3 = barSlots c 3; rw [h]
theorem payload_bar_4 : (Rd (F := F) m).payload (bCell c) 0 4 = barSlots (px 4 c) 4 := rfl
theorem payload_bar_peer_4 : (Rd (F := F) m).payload (bCell (px 4 c)) 0 4 = barSlots c 4 := by
  have h : px 4 (px 4 c) = c := px_px 4 c
  show barSlots (px 4 (px 4 c)) 4 = barSlots c 4; rw [h]
theorem amount_dma (s : DmaSem sig) (r : ℕ) (d : DT) : (Rd (F := F) m).amount ((c : Thread nD τ), .dma s) r d = NX := rfl
theorem duties_dma (s : DmaSem sig) (h : 4 ≤ s.val) : (Rd (F := F) m).duties ((c : Thread nD τ), .dma s) 0 = {0} := by
  dsimp only [Rd]; rw [if_pos ⟨rfl, rfl⟩]; exact if_pos h
theorem expect_dma (s : DmaSem sig) (h : 4 ≤ s.val) : (Rd (F := F) m).expect ((c : Thread nD τ), .dma s) 0 = NX := by
  unfold Schedule.expect Schedule.amountOf; rw [duties_dma m c s h, Finset.sum_singleton]; rfl
theorem duties_4 : (Rd (F := F) m).duties ((c : Thread nD τ), .dma 4) 0 = {0} := by dsimp only [Rd]; rw [if_pos ⟨rfl, rfl⟩]; rfl
theorem expect_4 : (Rd (F := F) m).expect ((c : Thread nD τ), .dma 4) 0 = NX := expect_dma m c 4 (by decide)
theorem duties_16 : (Rd (F := F) m).duties ((c : Thread nD τ), .dma 16) 0 = {0} := by dsimp only [Rd]; rw [if_pos ⟨rfl, rfl⟩]; rfl
theorem expect_16 : (Rd (F := F) m).expect ((c : Thread nD τ), .dma 16) 0 = NX := expect_dma m c 16 (by decide)
theorem payload_4 (r : ℕ) (d : DT) : (Rd (F := F) m).payload ((c : Thread nD τ), .dma 4) r d = someAt sb_0_0 c := rfl
theorem payload_16 (r : ℕ) (d : DT) : (Rd (F := F) m).payload ((c : Thread nD τ), .dma 16) r d = holds r1_0_0 c (recv1 (rowsA m) (colsB m) c 0 0) := rfl
theorem duties_5 : (Rd (F := F) m).duties ((c : Thread nD τ), .dma 5) 0 = {0} := by dsimp only [Rd]; rw [if_pos ⟨rfl, rfl⟩]; rfl
theorem expect_5 : (Rd (F := F) m).expect ((c : Thread nD τ), .dma 5) 0 = NX := expect_dma m c 5 (by decide)
theorem duties_17 : (Rd (F := F) m).duties ((c : Thread nD τ), .dma 17) 0 = {0} := by dsimp only [Rd]; rw [if_pos ⟨rfl, rfl⟩]; rfl
theorem expect_17 : (Rd (F := F) m).expect ((c : Thread nD τ), .dma 17) 0 = NX := expect_dma m c 17 (by decide)
theorem payload_5 (r : ℕ) (d : DT) : (Rd (F := F) m).payload ((c : Thread nD τ), .dma 5) r d = someAt sb_0_1 c := rfl
theorem payload_17 (r : ℕ) (d : DT) : (Rd (F := F) m).payload ((c : Thread nD τ), .dma 17) r d = holds r1_0_1 c (recv1 (rowsA m) (colsB m) c 0 1) := rfl
theorem duties_6 : (Rd (F := F) m).duties ((c : Thread nD τ), .dma 6) 0 = {0} := by dsimp only [Rd]; rw [if_pos ⟨rfl, rfl⟩]; rfl
theorem expect_6 : (Rd (F := F) m).expect ((c : Thread nD τ), .dma 6) 0 = NX := expect_dma m c 6 (by decide)
theorem duties_18 : (Rd (F := F) m).duties ((c : Thread nD τ), .dma 18) 0 = {0} := by dsimp only [Rd]; rw [if_pos ⟨rfl, rfl⟩]; rfl
theorem expect_18 : (Rd (F := F) m).expect ((c : Thread nD τ), .dma 18) 0 = NX := expect_dma m c 18 (by decide)
theorem payload_6 (r : ℕ) (d : DT) : (Rd (F := F) m).payload ((c : Thread nD τ), .dma 6) r d = someAt sb_0_2 c := rfl
theorem payload_18 (r : ℕ) (d : DT) : (Rd (F := F) m).payload ((c : Thread nD τ), .dma 18) r d = holds r1_0_2 c (recv1 (rowsA m) (colsB m) c 0 2) := rfl
theorem duties_7 : (Rd (F := F) m).duties ((c : Thread nD τ), .dma 7) 0 = {0} := by dsimp only [Rd]; rw [if_pos ⟨rfl, rfl⟩]; rfl
theorem expect_7 : (Rd (F := F) m).expect ((c : Thread nD τ), .dma 7) 0 = NX := expect_dma m c 7 (by decide)
theorem duties_19 : (Rd (F := F) m).duties ((c : Thread nD τ), .dma 19) 0 = {0} := by dsimp only [Rd]; rw [if_pos ⟨rfl, rfl⟩]; rfl
theorem expect_19 : (Rd (F := F) m).expect ((c : Thread nD τ), .dma 19) 0 = NX := expect_dma m c 19 (by decide)
theorem payload_7 (r : ℕ) (d : DT) : (Rd (F := F) m).payload ((c : Thread nD τ), .dma 7) r d = someAt sb_0_3 c := rfl
theorem payload_19 (r : ℕ) (d : DT) : (Rd (F := F) m).payload ((c : Thread nD τ), .dma 19) r d = holds r1_0_3 c (recv1 (rowsA m) (colsB m) c 0 3) := rfl
theorem duties_8 : (Rd (F := F) m).duties ((c : Thread nD τ), .dma 8) 0 = {0} := by dsimp only [Rd]; rw [if_pos ⟨rfl, rfl⟩]; rfl
theorem expect_8 : (Rd (F := F) m).expect ((c : Thread nD τ), .dma 8) 0 = NX := expect_dma m c 8 (by decide)
theorem duties_20 : (Rd (F := F) m).duties ((c : Thread nD τ), .dma 20) 0 = {0} := by dsimp only [Rd]; rw [if_pos ⟨rfl, rfl⟩]; rfl
theorem expect_20 : (Rd (F := F) m).expect ((c : Thread nD τ), .dma 20) 0 = NX := expect_dma m c 20 (by decide)
theorem payload_8 (r : ℕ) (d : DT) : (Rd (F := F) m).payload ((c : Thread nD τ), .dma 8) r d = someAt sb_1_0 c := rfl
theorem payload_20 (r : ℕ) (d : DT) : (Rd (F := F) m).payload ((c : Thread nD τ), .dma 20) r d = holds r1_1_0 c (recv1 (rowsA m) (colsB m) c 1 0) := rfl
theorem duties_9 : (Rd (F := F) m).duties ((c : Thread nD τ), .dma 9) 0 = {0} := by dsimp only [Rd]; rw [if_pos ⟨rfl, rfl⟩]; rfl
theorem expect_9 : (Rd (F := F) m).expect ((c : Thread nD τ), .dma 9) 0 = NX := expect_dma m c 9 (by decide)
theorem duties_21 : (Rd (F := F) m).duties ((c : Thread nD τ), .dma 21) 0 = {0} := by dsimp only [Rd]; rw [if_pos ⟨rfl, rfl⟩]; rfl
theorem expect_21 : (Rd (F := F) m).expect ((c : Thread nD τ), .dma 21) 0 = NX := expect_dma m c 21 (by decide)
theorem payload_9 (r : ℕ) (d : DT) : (Rd (F := F) m).payload ((c : Thread nD τ), .dma 9) r d = someAt sb_1_1 c := rfl
theorem payload_21 (r : ℕ) (d : DT) : (Rd (F := F) m).payload ((c : Thread nD τ), .dma 21) r d = holds r1_1_1 c (recv1 (rowsA m) (colsB m) c 1 1) := rfl
theorem duties_10 : (Rd (F := F) m).duties ((c : Thread nD τ), .dma 10) 0 = {0} := by dsimp only [Rd]; rw [if_pos ⟨rfl, rfl⟩]; rfl
theorem expect_10 : (Rd (F := F) m).expect ((c : Thread nD τ), .dma 10) 0 = NX := expect_dma m c 10 (by decide)
theorem duties_22 : (Rd (F := F) m).duties ((c : Thread nD τ), .dma 22) 0 = {0} := by dsimp only [Rd]; rw [if_pos ⟨rfl, rfl⟩]; rfl
theorem expect_22 : (Rd (F := F) m).expect ((c : Thread nD τ), .dma 22) 0 = NX := expect_dma m c 22 (by decide)
theorem payload_10 (r : ℕ) (d : DT) : (Rd (F := F) m).payload ((c : Thread nD τ), .dma 10) r d = someAt sb_1_2 c := rfl
theorem payload_22 (r : ℕ) (d : DT) : (Rd (F := F) m).payload ((c : Thread nD τ), .dma 22) r d = holds r1_1_2 c (recv1 (rowsA m) (colsB m) c 1 2) := rfl
theorem duties_11 : (Rd (F := F) m).duties ((c : Thread nD τ), .dma 11) 0 = {0} := by dsimp only [Rd]; rw [if_pos ⟨rfl, rfl⟩]; rfl
theorem expect_11 : (Rd (F := F) m).expect ((c : Thread nD τ), .dma 11) 0 = NX := expect_dma m c 11 (by decide)
theorem duties_23 : (Rd (F := F) m).duties ((c : Thread nD τ), .dma 23) 0 = {0} := by dsimp only [Rd]; rw [if_pos ⟨rfl, rfl⟩]; rfl
theorem expect_23 : (Rd (F := F) m).expect ((c : Thread nD τ), .dma 23) 0 = NX := expect_dma m c 23 (by decide)
theorem payload_11 (r : ℕ) (d : DT) : (Rd (F := F) m).payload ((c : Thread nD τ), .dma 11) r d = someAt sb_1_3 c := rfl
theorem payload_23 (r : ℕ) (d : DT) : (Rd (F := F) m).payload ((c : Thread nD τ), .dma 23) r d = holds r1_1_3 c (recv1 (rowsA m) (colsB m) c 1 3) := rfl
theorem duties_12 : (Rd (F := F) m).duties ((c : Thread nD τ), .dma 12) 0 = {0} := by dsimp only [Rd]; rw [if_pos ⟨rfl, rfl⟩]; rfl
theorem expect_12 : (Rd (F := F) m).expect ((c : Thread nD τ), .dma 12) 0 = NX := expect_dma m c 12 (by decide)
theorem duties_24 : (Rd (F := F) m).duties ((c : Thread nD τ), .dma 24) 0 = {0} := by dsimp only [Rd]; rw [if_pos ⟨rfl, rfl⟩]; rfl
theorem expect_24 : (Rd (F := F) m).expect ((c : Thread nD τ), .dma 24) 0 = NX := expect_dma m c 24 (by decide)
theorem payload_12 (r : ℕ) (d : DT) : (Rd (F := F) m).payload ((c : Thread nD τ), .dma 12) r d = someAt sb_2_0 c := rfl
theorem payload_24 (r : ℕ) (d : DT) : (Rd (F := F) m).payload ((c : Thread nD τ), .dma 24) r d = holds r1_2_0 c (recv1 (rowsA m) (colsB m) c 2 0) := rfl
theorem duties_13 : (Rd (F := F) m).duties ((c : Thread nD τ), .dma 13) 0 = {0} := by dsimp only [Rd]; rw [if_pos ⟨rfl, rfl⟩]; rfl
theorem expect_13 : (Rd (F := F) m).expect ((c : Thread nD τ), .dma 13) 0 = NX := expect_dma m c 13 (by decide)
theorem duties_25 : (Rd (F := F) m).duties ((c : Thread nD τ), .dma 25) 0 = {0} := by dsimp only [Rd]; rw [if_pos ⟨rfl, rfl⟩]; rfl
theorem expect_25 : (Rd (F := F) m).expect ((c : Thread nD τ), .dma 25) 0 = NX := expect_dma m c 25 (by decide)
theorem payload_13 (r : ℕ) (d : DT) : (Rd (F := F) m).payload ((c : Thread nD τ), .dma 13) r d = someAt sb_2_1 c := rfl
theorem payload_25 (r : ℕ) (d : DT) : (Rd (F := F) m).payload ((c : Thread nD τ), .dma 25) r d = holds r1_2_1 c (recv1 (rowsA m) (colsB m) c 2 1) := rfl
theorem duties_14 : (Rd (F := F) m).duties ((c : Thread nD τ), .dma 14) 0 = {0} := by dsimp only [Rd]; rw [if_pos ⟨rfl, rfl⟩]; rfl
theorem expect_14 : (Rd (F := F) m).expect ((c : Thread nD τ), .dma 14) 0 = NX := expect_dma m c 14 (by decide)
theorem duties_26 : (Rd (F := F) m).duties ((c : Thread nD τ), .dma 26) 0 = {0} := by dsimp only [Rd]; rw [if_pos ⟨rfl, rfl⟩]; rfl
theorem expect_26 : (Rd (F := F) m).expect ((c : Thread nD τ), .dma 26) 0 = NX := expect_dma m c 26 (by decide)
theorem payload_14 (r : ℕ) (d : DT) : (Rd (F := F) m).payload ((c : Thread nD τ), .dma 14) r d = someAt sb_2_2 c := rfl
theorem payload_26 (r : ℕ) (d : DT) : (Rd (F := F) m).payload ((c : Thread nD τ), .dma 26) r d = holds r1_2_2 c (recv1 (rowsA m) (colsB m) c 2 2) := rfl
theorem duties_15 : (Rd (F := F) m).duties ((c : Thread nD τ), .dma 15) 0 = {0} := by dsimp only [Rd]; rw [if_pos ⟨rfl, rfl⟩]; rfl
theorem expect_15 : (Rd (F := F) m).expect ((c : Thread nD τ), .dma 15) 0 = NX := expect_dma m c 15 (by decide)
theorem duties_27 : (Rd (F := F) m).duties ((c : Thread nD τ), .dma 27) 0 = {0} := by dsimp only [Rd]; rw [if_pos ⟨rfl, rfl⟩]; rfl
theorem expect_27 : (Rd (F := F) m).expect ((c : Thread nD τ), .dma 27) 0 = NX := expect_dma m c 27 (by decide)
theorem payload_15 (r : ℕ) (d : DT) : (Rd (F := F) m).payload ((c : Thread nD τ), .dma 15) r d = someAt sb_2_3 c := rfl
theorem payload_27 (r : ℕ) (d : DT) : (Rd (F := F) m).payload ((c : Thread nD τ), .dma 27) r d = holds r1_2_3 c (recv1 (rowsA m) (colsB m) c 2 3) := rfl
theorem duties_28 : (Rd (F := F) m).duties ((c : Thread nD τ), .dma 28) 0 = {0} := by dsimp only [Rd]; rw [if_pos ⟨rfl, rfl⟩]; rfl
theorem expect_28 : (Rd (F := F) m).expect ((c : Thread nD τ), .dma 28) 0 = NX := expect_dma m c 28 (by decide)
theorem duties_34 : (Rd (F := F) m).duties ((c : Thread nD τ), .dma 34) 0 = {0} := by dsimp only [Rd]; rw [if_pos ⟨rfl, rfl⟩]; rfl
theorem expect_34 : (Rd (F := F) m).expect ((c : Thread nD τ), .dma 34) 0 = NX := expect_dma m c 34 (by decide)
theorem payload_28 (r : ℕ) (d : DT) : (Rd (F := F) m).payload ((c : Thread nD τ), .dma 28) r d = someAt sb_0_0 c := rfl
theorem payload_34 (r : ℕ) (d : DT) : (Rd (F := F) m).payload ((c : Thread nD τ), .dma 34) r d = holds r2_0_0 c (recv2 (rowsA m) (colsB m) c 0 0) := rfl
theorem duties_29 : (Rd (F := F) m).duties ((c : Thread nD τ), .dma 29) 0 = {0} := by dsimp only [Rd]; rw [if_pos ⟨rfl, rfl⟩]; rfl
theorem expect_29 : (Rd (F := F) m).expect ((c : Thread nD τ), .dma 29) 0 = NX := expect_dma m c 29 (by decide)
theorem duties_35 : (Rd (F := F) m).duties ((c : Thread nD τ), .dma 35) 0 = {0} := by dsimp only [Rd]; rw [if_pos ⟨rfl, rfl⟩]; rfl
theorem expect_35 : (Rd (F := F) m).expect ((c : Thread nD τ), .dma 35) 0 = NX := expect_dma m c 35 (by decide)
theorem payload_29 (r : ℕ) (d : DT) : (Rd (F := F) m).payload ((c : Thread nD τ), .dma 29) r d = someAt sb_0_1 c := rfl
theorem payload_35 (r : ℕ) (d : DT) : (Rd (F := F) m).payload ((c : Thread nD τ), .dma 35) r d = holds r2_0_1 c (recv2 (rowsA m) (colsB m) c 0 1) := rfl
theorem duties_30 : (Rd (F := F) m).duties ((c : Thread nD τ), .dma 30) 0 = {0} := by dsimp only [Rd]; rw [if_pos ⟨rfl, rfl⟩]; rfl
theorem expect_30 : (Rd (F := F) m).expect ((c : Thread nD τ), .dma 30) 0 = NX := expect_dma m c 30 (by decide)
theorem duties_36 : (Rd (F := F) m).duties ((c : Thread nD τ), .dma 36) 0 = {0} := by dsimp only [Rd]; rw [if_pos ⟨rfl, rfl⟩]; rfl
theorem expect_36 : (Rd (F := F) m).expect ((c : Thread nD τ), .dma 36) 0 = NX := expect_dma m c 36 (by decide)
theorem payload_30 (r : ℕ) (d : DT) : (Rd (F := F) m).payload ((c : Thread nD τ), .dma 30) r d = someAt sb_1_0 c := rfl
theorem payload_36 (r : ℕ) (d : DT) : (Rd (F := F) m).payload ((c : Thread nD τ), .dma 36) r d = holds r2_1_0 c (recv2 (rowsA m) (colsB m) c 1 0) := rfl
theorem duties_31 : (Rd (F := F) m).duties ((c : Thread nD τ), .dma 31) 0 = {0} := by dsimp only [Rd]; rw [if_pos ⟨rfl, rfl⟩]; rfl
theorem expect_31 : (Rd (F := F) m).expect ((c : Thread nD τ), .dma 31) 0 = NX := expect_dma m c 31 (by decide)
theorem duties_37 : (Rd (F := F) m).duties ((c : Thread nD τ), .dma 37) 0 = {0} := by dsimp only [Rd]; rw [if_pos ⟨rfl, rfl⟩]; rfl
theorem expect_37 : (Rd (F := F) m).expect ((c : Thread nD τ), .dma 37) 0 = NX := expect_dma m c 37 (by decide)
theorem payload_31 (r : ℕ) (d : DT) : (Rd (F := F) m).payload ((c : Thread nD τ), .dma 31) r d = someAt sb_1_1 c := rfl
theorem payload_37 (r : ℕ) (d : DT) : (Rd (F := F) m).payload ((c : Thread nD τ), .dma 37) r d = holds r2_1_1 c (recv2 (rowsA m) (colsB m) c 1 1) := rfl
theorem duties_32 : (Rd (F := F) m).duties ((c : Thread nD τ), .dma 32) 0 = {0} := by dsimp only [Rd]; rw [if_pos ⟨rfl, rfl⟩]; rfl
theorem expect_32 : (Rd (F := F) m).expect ((c : Thread nD τ), .dma 32) 0 = NX := expect_dma m c 32 (by decide)
theorem duties_38 : (Rd (F := F) m).duties ((c : Thread nD τ), .dma 38) 0 = {0} := by dsimp only [Rd]; rw [if_pos ⟨rfl, rfl⟩]; rfl
theorem expect_38 : (Rd (F := F) m).expect ((c : Thread nD τ), .dma 38) 0 = NX := expect_dma m c 38 (by decide)
theorem payload_32 (r : ℕ) (d : DT) : (Rd (F := F) m).payload ((c : Thread nD τ), .dma 32) r d = someAt sb_2_0 c := rfl
theorem payload_38 (r : ℕ) (d : DT) : (Rd (F := F) m).payload ((c : Thread nD τ), .dma 38) r d = holds r2_2_0 c (recv2 (rowsA m) (colsB m) c 2 0) := rfl
theorem duties_33 : (Rd (F := F) m).duties ((c : Thread nD τ), .dma 33) 0 = {0} := by dsimp only [Rd]; rw [if_pos ⟨rfl, rfl⟩]; rfl
theorem expect_33 : (Rd (F := F) m).expect ((c : Thread nD τ), .dma 33) 0 = NX := expect_dma m c 33 (by decide)
theorem duties_39 : (Rd (F := F) m).duties ((c : Thread nD τ), .dma 39) 0 = {0} := by dsimp only [Rd]; rw [if_pos ⟨rfl, rfl⟩]; rfl
theorem expect_39 : (Rd (F := F) m).expect ((c : Thread nD τ), .dma 39) 0 = NX := expect_dma m c 39 (by decide)
theorem payload_33 (r : ℕ) (d : DT) : (Rd (F := F) m).payload ((c : Thread nD τ), .dma 33) r d = someAt sb_2_1 c := rfl
theorem payload_39 (r : ℕ) (d : DT) : (Rd (F := F) m).payload ((c : Thread nD τ), .dma 39) r d = holds r2_2_1 c (recv2 (rowsA m) (colsB m) c 2 1) := rfl
theorem duties_40 : (Rd (F := F) m).duties ((c : Thread nD τ), .dma 40) 0 = {0} := by dsimp only [Rd]; rw [if_pos ⟨rfl, rfl⟩]; rfl
theorem expect_40 : (Rd (F := F) m).expect ((c : Thread nD τ), .dma 40) 0 = NX := expect_dma m c 40 (by decide)
theorem duties_43 : (Rd (F := F) m).duties ((c : Thread nD τ), .dma 43) 0 = {0} := by dsimp only [Rd]; rw [if_pos ⟨rfl, rfl⟩]; rfl
theorem expect_43 : (Rd (F := F) m).expect ((c : Thread nD τ), .dma 43) 0 = NX := expect_dma m c 43 (by decide)
theorem payload_40 (r : ℕ) (d : DT) : (Rd (F := F) m).payload ((c : Thread nD τ), .dma 40) r d = someAt sb_0_2 c := rfl
theorem payload_43 (r : ℕ) (d : DT) : (Rd (F := F) m).payload ((c : Thread nD τ), .dma 43) r d = holds r3_0 c (recv3 (rowsA m) (colsB m) c 0) := rfl
theorem duties_41 : (Rd (F := F) m).duties ((c : Thread nD τ), .dma 41) 0 = {0} := by dsimp only [Rd]; rw [if_pos ⟨rfl, rfl⟩]; rfl
theorem expect_41 : (Rd (F := F) m).expect ((c : Thread nD τ), .dma 41) 0 = NX := expect_dma m c 41 (by decide)
theorem duties_44 : (Rd (F := F) m).duties ((c : Thread nD τ), .dma 44) 0 = {0} := by dsimp only [Rd]; rw [if_pos ⟨rfl, rfl⟩]; rfl
theorem expect_44 : (Rd (F := F) m).expect ((c : Thread nD τ), .dma 44) 0 = NX := expect_dma m c 44 (by decide)
theorem payload_41 (r : ℕ) (d : DT) : (Rd (F := F) m).payload ((c : Thread nD τ), .dma 41) r d = someAt sb_1_2 c := rfl
theorem payload_44 (r : ℕ) (d : DT) : (Rd (F := F) m).payload ((c : Thread nD τ), .dma 44) r d = holds r3_1 c (recv3 (rowsA m) (colsB m) c 1) := rfl
theorem duties_42 : (Rd (F := F) m).duties ((c : Thread nD τ), .dma 42) 0 = {0} := by dsimp only [Rd]; rw [if_pos ⟨rfl, rfl⟩]; rfl
theorem expect_42 : (Rd (F := F) m).expect ((c : Thread nD τ), .dma 42) 0 = NX := expect_dma m c 42 (by decide)
theorem duties_45 : (Rd (F := F) m).duties ((c : Thread nD τ), .dma 45) 0 = {0} := by dsimp only [Rd]; rw [if_pos ⟨rfl, rfl⟩]; rfl
theorem expect_45 : (Rd (F := F) m).expect ((c : Thread nD τ), .dma 45) 0 = NX := expect_dma m c 45 (by decide)
theorem payload_42 (r : ℕ) (d : DT) : (Rd (F := F) m).payload ((c : Thread nD τ), .dma 42) r d = someAt sb_2_2 c := rfl
theorem payload_45 (r : ℕ) (d : DT) : (Rd (F := F) m).payload ((c : Thread nD τ), .dma 45) r d = holds r3_2 c (recv3 (rowsA m) (colsB m) c 2) := rfl

end Tables

end Cert.KernelIdeal.Hand

end
-- ==== Proof.Launch.lean ====
import proofs.«900896_g7700000000000897_dist_matmul_mk_i_outk_m3072_n3072_k1536_v7x_i8_bf16_1_alg».proof.Proof.LaunchCells
import proofs.«900896_g7700000000000897_dist_matmul_mk_i_outk_m3072_n3072_k1536_v7x_i8_bf16_1_alg».proof.Proof.Levels
import proofs.«900896_g7700000000000897_dist_matmul_mk_i_outk_m3072_n3072_k1536_v7x_i8_bf16_1_alg».proof.Proof.Blocks

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

def pxE (x : Nat) (hx : x < 8) : Dev nD ≃ Dev nD := ⟨px x, px x, px_px ⟨x, hx⟩, px_px ⟨x, hx⟩⟩

omit [FloatOps F] in
theorem bigSep_px (x : Nat) (hx : x < 8) (Φ : Dev nD → sProp 𝕄) : bigSep Finset.univ Φ = bigSep Finset.univ fun c => Φ (px x c) :=
  bigSep_univ_equiv (pxE x hx) Φ

omit [FloatOps F] in
theorem launchCred_px' (sm : SemLoc sig) (x : Nat) (hx : x < 8) (n : ℕ) (c : Dev nD) :
    (Pipeline.launchCred (fun c : Dev nD => tallyAt (((px x c : Dev nD) : Thread nD τ), sm) () n) c : sProp 𝕄)
      ⊢ cred (tallyAt ((c : Thread nD τ), sm) () n) :=
  Pipeline.launchCred_tallyAt sm (px x) (px x) (px_px ⟨x, hx⟩) (px_px ⟨x, hx⟩) () n c

def xS : Fin 21 → DmaSem sig := ![4, 5, 6, 7, 8, 9, 10, 11, 12, 13, 14, 15, 28, 29, 30, 31, 32, 33, 40, 41, 42]

def xR : Fin 21 → DmaSem sig := ![16, 17, 18, 19, 20, 21, 22, 23, 24, 25, 26, 27, 34, 35, 36, 37, 38, 39, 43, 44, 45]

def xM : Fin 21 → Nat := ![4, 4, 4, 4, 3, 3, 3, 3, 1, 1, 1, 1, 3, 3, 1, 1, 4, 4, 1, 4, 3]

theorem xM_lt (k : Fin 21) : xM k < 8 := by revert k; decide

def kS : Fin 21 → Fin 43 := ![1, 2, 3, 4, 5, 6, 7, 8, 9, 10, 11, 12, 25, 26, 27, 28, 29, 30, 37, 38, 39]
def kR : Fin 21 → Fin 43 := ![13, 14, 15, 16, 17, 18, 19, 20, 21, 22, 23, 24, 31, 32, 33, 34, 35, 36, 40, 41, 42]

theorem csem_kS (k : Fin 21) : csem (kS k) = .dma (xS k) := by revert k; decide
theorem csem_kR (k : Fin 21) : csem (kR k) = .dma (xR k) := by revert k; decide
theorem kS_inj : Function.Injective kS := by decide
theorem kR_inj : Function.Injective kR := by decide

abbrev barCell (c : Dev nD) : GSem nD τ sig := ((c : Thread nD τ), .reg barS)
abbrev sCell (c : Dev nD) (k : Fin 21) : GSem nD τ sig := ((c : Thread nD τ), .dma (xS k))
abbrev rCell (c : Dev nD) (k : Fin 21) : GSem nD τ sig := ((c : Thread nD τ), .dma (xR k))

theorem kcell_zero (c : Dev nD) : kcell (c, 0) = barCell c := rfl
theorem kcell_kS (c : Dev nD) (k : Fin 21) : kcell (c, kS k) = sCell c k := congrArg (Prod.mk (c : Thread nD τ)) (csem_kS k)
theorem kcell_kR (c : Dev nD) (k : Fin 21) : kcell (c, kR k) = rCell c k := congrArg (Prod.mk (c : Thread nD τ)) (csem_kR k)

omit [FloatOps F] in
theorem bigSep_cells (Φ : Fin 43 → sProp 𝕄) :
    bigSep Finset.univ Φ = iprop(Φ 0 ∗ (bigSep Finset.univ fun k : Fin 21 => Φ (kS k)) ∗ bigSep Finset.univ fun k : Fin 21 => Φ (kR k)) := by
  rw [show (Finset.univ : Finset (Fin 43)) = insert 0 (Finset.univ.map ⟨kS, kS_inj⟩ ∪ Finset.univ.map ⟨kR, kR_inj⟩) from by decide,
    bigSep_insert (by decide), bigSep_union (by decide), bigSep_map, bigSep_map]
  rfl

omit [FloatOps F] in
theorem bigSep_fin21 (Φ : Fin 21 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20) :=
  bigSep_univ_eq_bigSepL [0, 1, 2, 3, 4, 5, 6, 7, 8, 9, 10, 11, 12, 13, 14, 15, 16, 17, 18, 19, 20] (by decide) (by decide) Φ

abbrev due (c : Dev nD) (k : Fin 21) : CellTallies nD τ sig Unit := tallyAt (rCell (px (xM k) c) k) () 24576

abbrev dueB (c : Dev nD) (x : Nat) : CellTallies nD τ sig Unit := tallyAt (barCell (px x c)) () 1

def O₀ (c : Dev nD) : CellTallies nD τ sig Unit :=
  0 + tallyAt (((px 3 c : Dev nD) : Thread nD τ), .dma 45) () 24576
    + tallyAt (((px 4 c : Dev nD) : Thread nD τ), .dma 44) () 24576
    + tallyAt (((px 1 c : Dev nD) : Thread nD τ), .dma 43) () 24576
    + tallyAt (((px 4 c : Dev nD) : Thread nD τ), .dma 39) () 24576
    + tallyAt (((px 1 c : Dev nD) : Thread nD τ), .dma 37) () 24576
    + tallyAt (((px 3 c : Dev nD) : Thread nD τ), .dma 35) () 24576
    + tallyAt (((px 4 c : Dev nD) : Thread nD τ), .dma 38) () 24576
    + tallyAt (((px 1 c : Dev nD) : Thread nD τ), .dma 36) () 24576
    + tallyAt (((px 3 c : Dev nD) : Thread nD τ), .dma 34) () 24576
    + tallyAt (((px 1 c : Dev nD) : Thread nD τ), .dma 27) () 24576
    + tallyAt (((px 3 c : Dev nD) : Thread nD τ), .dma 23) () 24576
    + tallyAt (((px 4 c : Dev nD) : Thread nD τ), .dma 19) () 24576
    + tallyAt (((px 1 c : Dev nD) : Thread nD τ), .dma 26) () 24576
    + tallyAt (((px 3 c : Dev nD) : Thread nD τ), .dma 22) () 24576
    + tallyAt (((px 4 c : Dev nD) : Thread nD τ), .dma 18) () 24576
    + tallyAt (((px 1 c : Dev nD) : Thread nD τ), .dma 25) () 24576
    + tallyAt (((px 3 c : Dev nD) : Thread nD τ), .dma 21) () 24576
    + tallyAt (((px 4 c : Dev nD) : Thread nD τ), .dma 17) () 24576
    + tallyAt (((px 1 c : Dev nD) : Thread nD τ), .dma 24) () 24576
    + tallyAt (((px 3 c : Dev nD) : Thread nD τ), .dma 20) () 24576
    + tallyAt (((px 4 c : Dev nD) : Thread nD τ), .dma 16) () 24576
    + tallyAt (((px 4 c : Dev nD) : Thread nD τ), .reg barS) () 1
    + tallyAt (((px 3 c : Dev nD) : Thread nD τ), .reg barS) () 1
    + tallyAt (((px 1 c : Dev nD) : Thread nD τ), .reg barS) () 1

theorem O₀_eq (c : Dev nD) : O₀ c = 0 + due c 20 + due c 19 + due c 18 + due c 17 + due c 15 + due c 13 + due c 16 + due c 14 + due c 12 + due c 11 + due c 7 + due c 3 + due c 10 + due c 6 + due c 2 + due c 9 + due c 5 + due c 1 + due c 8 + due c 4 + due c 0 + dueB c 4 + dueB c 3 + dueB c 1 := rfl

theorem above_O₀ (c : Dev nD) : Above 0 (O₀ c) :=
  above_add (above_add (above_add (above_add (above_add (above_add (above_add (above_add (above_add (above_add (above_add (above_add (above_add (above_add (above_add (above_add (above_add (above_add (above_add (above_add (above_add (above_add (above_add (above_add (above_zero 0) (above_tally 0 (px 3 c) (.dma 45) 24576 (by decide))) (above_tally 0 (px 4 c) (.dma 44) 24576 (by decide))) (above_tally 0 (px 1 c) (.dma 43) 24576 (by decide))) (above_tally 0 (px 4 c) (.dma 39) 24576 (by decide))) (above_tally 0 (px 1 c) (.dma 37) 24576 (by decide))) (above_tally 0 (px 3 c) (.dma 35) 24576 (by decide))) (above_tally 0 (px 4 c) (.dma 38) 24576 (by decide))) (above_tally 0 (px 1 c) (.dma 36) 24576 (by decide))) (above_tally 0 (px 3 c) (.dma 34) 24576 (by decide))) (above_tally 0 (px 1 c) (.dma 27) 24576 (by decide))) (above_tally 0 (px 3 c) (.dma 23) 24576 (by decide))) (above_tally 0 (px 4 c) (.dma 19) 24576 (by decide))) (above_tally 0 (px 1 c) (.dma 26) 24576 (by decide))) (above_tally 0 (px 3 c) (.dma 22) 24576 (by decide))) (above_tally 0 (px 4 c) (.dma 18) 24576 (by decide))) (above_tally 0 (px 1 c) (.dma 25) 24576 (by decide))) (above_tally 0 (px 3 c) (.dma 21) 24576 (by decide))) (above_tally 0 (px 4 c) (.dma 17) 24576 (by decide))) (above_tally 0 (px 1 c) (.dma 24) 24576 (by decide))) (above_tally 0 (px 3 c) (.dma 20) 24576 (by decide))) (above_tally 0 (px 4 c) (.dma 16) 24576 (by decide))) (above_tally 0 (px 4 c) (.reg barS) 1 (by decide))) (above_tally 0 (px 3 c) (.reg barS) 1 (by decide))) (above_tally 0 (px 1 c) (.reg barS) 1 (by decide))

omit [FloatOps F] in
theorem creds (c : Dev nD) :
    (Pipeline.launchCred O₀ c : sProp 𝕄)
      ⊢ iprop(cred (tallyAt (barCell c) () 3) ∗ bigSep Finset.univ fun k : Fin 21 => cred (tallyAt (rCell c k) () 24576)) := by
  unfold O₀
  simp only [Pipeline.launchCred_add]
  rw [bigSep_fin21]
  iintro ⟨⟨⟨⟨⟨⟨⟨⟨⟨⟨⟨⟨⟨⟨⟨⟨⟨⟨⟨⟨⟨⟨⟨⟨-, H20⟩, H19⟩, H18⟩, H17⟩, H15⟩, H13⟩, H16⟩, H14⟩, H12⟩, H11⟩, H7⟩, H3⟩, H10⟩, H6⟩, H2⟩, H9⟩, H5⟩, H1⟩, H8⟩, H4⟩, H0⟩, B4⟩, B3⟩, B1⟩
  isplitl [B4 B3 B1]
  · ihave C4 := (launchCred_px' (F := F) (.reg barS) 4 (by decide) 1 c) $$ B4
    ihave C3 := (launchCred_px' (F := F) (.reg barS) 3 (by decide) 1 c) $$ B3
    ihave C1 := (launchCred_px' (F := F) (.reg barS) 1 (by decide) 1 c) $$ B1
    rw [show (3 : ℕ) = 1 + 1 + 1 from rfl, ← tallyAt_add, ← tallyAt_add]
    iapply (cred_add _ _).2
    isplitl [C4 C3]
    · iapply (cred_add _ _).2
      isplitl [C4] <;> iassumption
    · iexact C1
  isplitl [H0]; · iapply (launchCred_px' (F := F) (.dma 16) 4 (by decide) 24576 c); iexact H0
  isplitl [H1]; · iapply (launchCred_px' (F := F) (.dma 17) 4 (by decide) 24576 c); iexact H1
  isplitl [H2]; · iapply (launchCred_px' (F := F) (.dma 18) 4 (by decide) 24576 c); iexact H2
  isplitl [H3]; · iapply (launchCred_px' (F := F) (.dma 19) 4 (by decide) 24576 c); iexact H3
  isplitl [H4]; · iapply (launchCred_px' (F := F) (.dma 20) 3 (by decide) 24576 c); iexact H4
  isplitl [H5]; · iapply (launchCred_px' (F := F) (.dma 21) 3 (by decide) 24576 c); iexact H5
  isplitl [H6]; · iapply (launchCred_px' (F := F) (.dma 22) 3 (by decide) 24576 c); iexact H6
  isplitl [H7]; · iapply (launchCred_px' (F := F) (.dma 23) 3 (by decide) 24576 c); iexact H7
  isplitl [H8]; · iapply (launchCred_px' (F := F) (.dma 24) 1 (by decide) 24576 c); iexact H8
  isplitl [H9]; · iapply (launchCred_px' (F := F) (.dma 25) 1 (by decide) 24576 c); iexact H9
  isplitl [H10]; · iapply (launchCred_px' (F := F) (.dma 26) 1 (by decide) 24576 c); iexact H10
  isplitl [H11]; · iapply (launchCred_px' (F := F) (.dma 27) 1 (by decide) 24576 c); iexact H11
  isplitl [H12]; · iapply (launchCred_px' (F := F) (.dma 34) 3 (by decide) 24576 c); iexact H12
  isplitl [H13]; · iapply (launchCred_px' (F := F) (.dma 35) 3 (by decide) 24576 c); iexact H13
  isplitl [H14]; · iapply (launchCred_px' (F := F) (.dma 36) 1 (by decide) 24576 c); iexact H14
  isplitl [H15]; · iapply (launchCred_px' (F := F) (.dma 37) 1 (by decide) 24576 c); iexact H15
  isplitl [H16]; · iapply (launchCred_px' (F := F) (.dma 38) 4 (by decide) 24576 c); iexact H16
  isplitl [H17]; · iapply (launchCred_px' (F := F) (.dma 39) 4 (by decide) 24576 c); iexact H17
  isplitl [H18]; · iapply (launchCred_px' (F := F) (.dma 43) 1 (by decide) 24576 c); iexact H18
  isplitl [H19]; · iapply (launchCred_px' (F := F) (.dma 44) 4 (by decide) 24576 c); iexact H19
  iapply (launchCred_px' (F := F) (.dma 45) 3 (by decide) 24576 c); iexact H20

def records (Rd : Schedule (GSem nD τ sig) DT (MT nD τ sig Unit (Elt F) ℕ UU ℕ)) (K : Dev nD × Fin 43 → ℕ) : sProp 𝕄 :=
  iprop((bigSep Finset.univ fun ck : Dev nD × Fin 43 => cellInv ER Rd (K ck) (kcell ck))
    ∗ bigSep Finset.univ fun ck : Dev nD × Fin 43 => reached ER (kcell ck) 0)

omit [FloatOps F] in
instance records_persistent (Rd : Schedule (GSem nD τ sig) DT (MT nD τ sig Unit (Elt F) ℕ UU ℕ)) (K : Dev nD × Fin 43 → ℕ) : BI.Persistent (records Rd K) := by
  unfold records; infer_instance

omit [FloatOps F] in
theorem inv_at (Rd : Schedule (GSem nD τ sig) DT (MT nD τ sig Unit (Elt F) ℕ UU ℕ)) (K : Dev nD × Fin 43 → ℕ) (ck : Dev nD × Fin 43) : records Rd K ⊢ cellInv ER Rd (K ck) (kcell ck) :=
  sep_elim_left.trans (bigSep_elim (Finset.mem_univ ck))
omit [FloatOps F] in
theorem reached_at (Rd : Schedule (GSem nD τ sig) DT (MT nD τ sig Unit (Elt F) ℕ UU ℕ)) (K : Dev nD × Fin 43 → ℕ) (ck : Dev nD × Fin 43) : records Rd K ⊢ reached ER (kcell ck) 0 :=
  sep_elim_right.trans (bigSep_elim (Finset.mem_univ ck))

omit [FloatOps F] in
theorem inv_bar (Rd : Schedule (GSem nD τ sig) DT (MT nD τ sig Unit (Elt F) ℕ UU ℕ)) (K : Dev nD × Fin 43 → ℕ) (d : Dev nD) : records Rd K ⊢ cellInv ER Rd (K (d, 0)) (barCell d) :=
  inv_at Rd K (d, 0)
omit [FloatOps F] in
theorem inv_send (Rd : Schedule (GSem nD τ sig) DT (MT nD τ sig Unit (Elt F) ℕ UU ℕ)) (K : Dev nD × Fin 43 → ℕ) (d : Dev nD) (k : Fin 21) : records Rd K ⊢ cellInv ER Rd (K (d, kS k)) (sCell d k) := by
  rw [← kcell_kS]; exact inv_at Rd K (d, kS k)
omit [FloatOps F] in
theorem inv_recv (Rd : Schedule (GSem nD τ sig) DT (MT nD τ sig Unit (Elt F) ℕ UU ℕ)) (K : Dev nD × Fin 43 → ℕ) (d : Dev nD) (k : Fin 21) : records Rd K ⊢ cellInv ER Rd (K (d, kR k)) (rCell d k) := by
  rw [← kcell_kR]; exact inv_at Rd K (d, kR k)
omit [FloatOps F] in
theorem reached_bar (Rd : Schedule (GSem nD τ sig) DT (MT nD τ sig Unit (Elt F) ℕ UU ℕ)) (K : Dev nD × Fin 43 → ℕ) (d : Dev nD) : records Rd K ⊢ reached ER (barCell d) 0 :=
  reached_at Rd K (d, 0)
omit [FloatOps F] in
theorem reached_send (Rd : Schedule (GSem nD τ sig) DT (MT nD τ sig Unit (Elt F) ℕ UU ℕ)) (K : Dev nD × Fin 43 → ℕ) (d : Dev nD) (k : Fin 21) : records Rd K ⊢ reached ER (sCell d k) 0 := by
  rw [← kcell_kS]; exact reached_at Rd K (d, kS k)
omit [FloatOps F] in
theorem reached_recv (Rd : Schedule (GSem nD τ sig) DT (MT nD τ sig Unit (Elt F) ℕ UU ℕ)) (K : Dev nD × Fin 43 → ℕ) (d : Dev nD) (k : Fin 21) : records Rd K ⊢ reached ER (rCell d k) 0 := by
  rw [← kcell_kR]; exact reached_at Rd K (d, kR k)

def bx : Fin 3 → DT := ![1, 3, 4]

theorem bx_lt (x : Fin 3) : (bx x).val < 8 := (bx x).isLt

def toksOwn (c : Dev nD) : sProp 𝕄 :=
  iprop((bigSep Finset.univ fun x : Fin 3 => dutyTok ER (barCell c) 0 (bx x))
    ∗ (bigSep Finset.univ fun k : Fin 21 => dutyTok ER (sCell c k) 0 (0 : DT))
    ∗ bigSep Finset.univ fun k : Fin 21 => dutyTok ER (rCell c k) 0 (0 : DT))

def payToks (c : Dev nD) : sProp 𝕄 :=
  iprop((bigSep Finset.univ fun x : Fin 3 => dutyTok ER (barCell (px (bx x).val c)) 0 (bx x))
    ∗ (bigSep Finset.univ fun k : Fin 21 => dutyTok ER (sCell c k) 0 (0 : DT))
    ∗ bigSep Finset.univ fun k : Fin 21 => dutyTok ER (rCell (px (xM k) c) k) 0 (0 : DT))

omit [FloatOps F] in
theorem payToks_eq (c : Dev nD) :
    (payToks c : sProp 𝕄) = iprop((dutyTok ER (barCell (px 1 c)) 0 (1 : DT) ∗ dutyTok ER (barCell (px 3 c)) 0 (3 : DT) ∗ dutyTok ER (barCell (px 4 c)) 0 (4 : DT))
      ∗ (bigSep Finset.univ fun k : Fin 21 => dutyTok ER (sCell c k) 0 (0 : DT))
      ∗ bigSep Finset.univ fun k : Fin 21 => dutyTok ER (rCell (px (xM k) c) k) 0 (0 : DT)) := by
  unfold payToks; rw [bigSep_fin3]; rfl

def linear (c : Dev nD) : sProp 𝕄 :=
  iprop((bigSep Finset.univ fun j : Fin 43 => atPos ER (kcell (c, j)) 0 ∅ 0) ∗ payToks c)

omit [FloatOps F] in
theorem atPos_cells (c : Dev nD) :
    (bigSep Finset.univ fun j : Fin 43 => (atPos ER (kcell (c, j)) 0 ∅ 0 : sProp 𝕄))
      = iprop(atPos ER (barCell c) 0 ∅ 0 ∗ (bigSep Finset.univ fun k : Fin 21 => atPos ER (sCell c k) 0 ∅ 0)
          ∗ bigSep Finset.univ fun k : Fin 21 => atPos ER (rCell c k) 0 ∅ 0) := by
  rw [bigSep_cells]; simp only [kcell_kS, kcell_kR, kcell_zero]

def ghost (Rd : Schedule (GSem nD τ sig) DT (MT nD τ sig Unit (Elt F) ℕ UU ℕ)) (K : Dev nD × Fin 43 → ℕ) (c : Dev nD) : sProp 𝕄 := iprop(records Rd K ∗ linear c)

def G (Rd : Schedule (GSem nD τ sig) DT (MT nD τ sig Unit (Elt F) ℕ UU ℕ)) (c : Dev nD) : sProp 𝕄 :=
  iprop((bigSep Finset.univ fun j : Fin 43 => roundState ER Rd (kcell (c, j)) 0)
    ∗ (bigSep Finset.univ fun j : Fin 43 => iprop(atPos ER (kcell (c, j)) 0 ∅ 0 ∗ reached ER (kcell (c, j)) 0)) ∗ toksOwn c)

def G' (Rd : Schedule (GSem nD τ sig) DT (MT nD τ sig Unit (Elt F) ℕ UU ℕ)) (c : Dev nD) : sProp 𝕄 := iprop((∃ K, ghost Rd K c) ∗ localSems0 c)

abbrev TJ : Type := Fin 3 ⊕ (Fin 21 ⊕ Fin 21)

def tokAt : TJ → SemLoc sig × DT
  | .inl x => (.reg barS, bx x)
  | .inr (.inl k) => (.dma (xS k), 0)
  | .inr (.inr k) => (.dma (xR k), 0)

theorem tokAt_inj : Function.Injective tokAt := by decide

def tokOf (dj : Dev nD × TJ) : GSem nD τ sig × ℕ × DT := (((dj.1 : Thread nD τ), (tokAt dj.2).1), 0, (tokAt dj.2).2)

theorem tokOf_injective : Function.Injective tokOf := by
  rintro ⟨d, j⟩ ⟨d', j'⟩ h
  have h1 : d = d' := congrArg (fun x : GSem nD τ sig × ℕ × DT => x.1.1.1) h
  subst h1
  have h2 : tokAt j = tokAt j' :=
    Prod.ext (congrArg (fun x : GSem nD τ sig × ℕ × DT => x.1.2) h) (congrArg (fun x : GSem nD τ sig × ℕ × DT => x.2.2) h)
  rw [tokAt_inj h2]

def protoToks : Finset (GSem nD τ sig × ℕ × DT) := Finset.univ.map ⟨tokOf, tokOf_injective⟩

omit [FloatOps F] in
theorem bigSep_protoToks :
    bigSep protoToks (fun x => (dutyTok ER x.1 x.2.1 x.2.2 : sProp 𝕄)) = bigSep Finset.univ fun d : Dev nD => toksOwn d := by
  unfold protoToks; rw [bigSep_map, bigSep_univ_prod]
  exact bigSep_congr fun d _ => by
    unfold toksOwn
    rw [bigSep_univ_sum, bigSep_univ_sum]; rfl

def u₀ : UU := (initOf (Pipeline.cells cfgs cellOf_inj) (Pipeline.launchToks cfgs cellOf_inj), (initOf protoCells protoToks, 1))

omit [FloatOps F] in
theorem fund (Rd : Schedule (GSem nD τ sig) DT (MT nD τ sig Unit (Elt F) ℕ UU ℕ)) : BI.own (ER (initOf protoCells protoToks)) ⊢ (|==> bigSep Finset.univ (G Rd) : sProp 𝕄) := by
  iintro HX
  imod (fund_cells Rd protoToks) $$ HX with ⟨Hst, Hr, Hat, Htok⟩
  imodintro
  ihave Htok' := (Entails.of_eq (bigSep_protoToks (F := F))) $$ Htok
  unfold G; simp only [bigSep_sep']
  isplitl [Hst]; · iexact Hst
  isplitl [Hat Hr]
  · isplitl [Hat] <;> iassumption
  iexact Htok'

omit [FloatOps F] in
theorem core_alloc (Rd : Schedule (GSem nD τ sig) DT (MT nD τ sig Unit (Elt F) ℕ UU ℕ)) [∀ g r d, BI.Storable (upEmb : UEmb _ (MT nD τ sig Unit (Elt F) ℕ UU ℕ)) (Rd.payload g r d)] (c : Dev nD) :
    iprop(Pipeline.ownSems0 (Ix := Unit) (Name := ℕ) (U := UU) (Lvl := ℕ) (Val := Elt F) (τ := τ) osem c ∗ unscopedSems0 c ∗ G Rd c)
      ⊢ |={Set.univ}=> iprop((bigSep Finset.univ fun j : Fin 43 => iprop(∃ κ : ℕ, cellInv ER Rd κ (kcell (c, j))))
          ∗ (bigSep Finset.univ fun j : Fin 43 => iprop(atPos ER (kcell (c, j)) 0 ∅ 0 ∗ reached ER (kcell (c, j)) 0)) ∗ toksOwn c ∗ localSems0 c) := by
  unfold G
  iintro ⟨Hos, Hus, Hst, Hat, Htok⟩
  ihave Hv := (sems0_sort (F := F) c) $$ [Hos Hus]
  · isplitl [Hos] <;> iassumption
  icases Hv with ⟨HL, Hv⟩
  imod (cells_alloc Rd c) $$ [Hv Hst] with Hinv
  · isplitl [Hv] <;> iassumption
  imodintro
  iframe

omit [FloatOps F] in
theorem deal {J : Type} [Fintype J] (mask : J → Nat) (hm : ∀ j, mask j < 8) (Φ : Dev nD → J → sProp 𝕄) :
    (bigSep Finset.univ fun d : Dev nD => bigSep Finset.univ fun j : J => Φ d j)
      = bigSep Finset.univ fun c : Dev nD => bigSep Finset.univ fun j : J => Φ (px (mask j) c) j := by
  rw [bigSep_univ_comm, bigSep_univ_comm (fun (c : Dev nD) (j : J) => Φ (px (mask j) c) j)]
  exact bigSep_congr fun j _ => bigSep_px (mask j) (hm j) (fun d => Φ d j)

omit [FloatOps F] in
theorem toks_around : (bigSep Finset.univ fun d : Dev nD => (toksOwn d : sProp 𝕄)) ⊢ bigSep Finset.univ fun c : Dev nD => payToks c := by
  unfold toksOwn payToks
  rw [bigSep_sep', bigSep_sep', bigSep_sep', bigSep_sep',
    deal (fun x : Fin 3 => (bx x).val) bx_lt (fun (d : Dev nD) (x : Fin 3) => (dutyTok ER (barCell d) 0 (bx x) : sProp 𝕄)),
    deal xM xM_lt (fun (d : Dev nD) (k : Fin 21) => (dutyTok ER (rCell d k) 0 (0 : DT) : sProp 𝕄))]

omit [FloatOps F] in
theorem ghost_intro (Rd : Schedule (GSem nD τ sig) DT (MT nD τ sig Unit (Elt F) ℕ UU ℕ)) (K : Dev nD × Fin 43 → ℕ) (c : Dev nD) :
    iprop(records Rd K ∗ (linear c ∗ localSems0 c)) ⊢ G' Rd c := by
  unfold G' ghost
  iintro ⟨#HR, HL, Hs⟩
  isplitl [HL]
  · iexists K
    isplitr; · iexact HR
    iexact HL
  · iexact Hs

omit [FloatOps F] in
theorem regroup (Rd : Schedule (GSem nD τ sig) DT (MT nD τ sig Unit (Elt F) ℕ UU ℕ)) :
    (bigSep Finset.univ fun c : Dev nD => iprop((bigSep Finset.univ fun j : Fin 43 => iprop(∃ κ : ℕ, cellInv ER Rd κ (kcell (c, j))))
          ∗ (bigSep Finset.univ fun j : Fin 43 => iprop(atPos ER (kcell (c, j)) 0 ∅ 0 ∗ reached ER (kcell (c, j)) 0)) ∗ toksOwn c ∗ localSems0 c) : sProp 𝕄)
      ⊢ bigSep Finset.univ (G' Rd) := by
  rw [bigSep_sep', bigSep_sep', bigSep_sep',
    bigSep_congr (s := Finset.univ) (fun (c : Dev nD) _ => bigSep_sep' Finset.univ (fun j : Fin 43 => (atPos ER (kcell (c, j)) 0 ∅ 0 : sProp 𝕄)) (fun j => reached ER (kcell (c, j)) 0)),
    bigSep_sep', ← bigSep_univ_prod (fun ck : Dev nD × Fin 43 => (reached ER (kcell ck) 0 : sProp 𝕄))]
  iintro ⟨HI, ⟨Hat, #HR⟩, Htok, HL⟩
  ihave HK := (cells_names Rd) $$ HI
  icases HK with ⟨%K, #HI⟩
  ihave Htk := (toks_around (F := F)) $$ Htok
  iapply (bigSep_with_persistent (R := records Rd K) fun c _ => ghost_intro Rd K c)
  isplitr
  · unfold records; isplitl; · iexact HI
    iexact HR
  · unfold linear
    simp only [bigSep_sep']
    isplitl [Hat Htk]
    · isplitl [Hat] <;> iassumption
    iexact HL

omit [FloatOps F] in
theorem glob (Rd : Schedule (GSem nD τ sig) DT (MT nD τ sig Unit (Elt F) ℕ UU ℕ)) [∀ g r d, BI.Storable (upEmb : UEmb _ (MT nD τ sig Unit (Elt F) ℕ UU ℕ)) (Rd.payload g r d)] :
    (bigSep Finset.univ fun c => iprop(Pipeline.ownSems0 (Ix := Unit) (Name := ℕ) (U := UU) (Lvl := ℕ) (Val := Elt F) (τ := τ) osem c ∗ unscopedSems0 c ∗ G Rd c) : sProp 𝕄)
      ⊢ |={Set.univ}=> bigSep Finset.univ (G' Rd) :=
  ((bigSep_mono fun c _ => core_alloc Rd c).trans (bigSep_fupd _ _)).trans (BI.fupd_mono (regroup Rd))

def scr (c : Dev nD) {sp : Space} {s : Shape} {e : EltTy} (M : Memref sig .tc sp s e) : sProp 𝕄 :=
  iprop(∃ f : Buf (Elt F) (M.view.loc (c : Thread nD τ)), M.view.loc (c : Thread nD τ) ↦{fullShare} f)

def scratch (c : Dev nD) : sProp 𝕄 :=
  iprop(scr c (Memref.whole cc0_scratch0 : Memref sig .tc .vmem S3072x1536 .bf16)
    ∗ scr c (Memref.whole cc0_scratch1 : Memref sig .tc .vmem S1536x3072 .bf16)
    ∗ scr c (Memref.whole cc0_scratch2 : Memref sig .tc .vmem S2x384x1536 .f32)
    ∗ scr c (Memref.whole cc0_scratch3 : Memref sig .tc .vmem S1536x1024 .f32)
    ∗ scr c (Memref.whole cc0_scratch4 : Memref sig .tc .vmem S3x4x384x1024 .bf16)
    ∗ scr c (Memref.whole cc0_scratch5 : Memref sig .tc .vmem S3x4x384x1024 .bf16)
    ∗ scr c (Memref.whole cc0_scratch6 : Memref sig .tc .vmem S3x2x384x1024 .bf16)
    ∗ scr c (Memref.whole cc0_scratch7 : Memref sig .tc .vmem S3x1x384x1024 .bf16))

def argPts (m : (ℓ : Loc nD τ sig) → Buf (Elt F) ℓ) (c : Dev nD) : sProp 𝕄 :=
  iprop(((Memref.whole main_arg0 : Memref sig .tc .hbm S3072x1536 .f32).view.loc (c : Thread nD τ) ↦{fullShare} m ((c : Thread nD τ).loc main_arg0))
    ∗ ((Memref.whole main_arg1 : Memref sig .tc .hbm S1536x3072 .f32).view.loc (c : Thread nD τ) ↦{fullShare} m ((c : Thread nD τ).loc main_arg1)))

omit [FloatOps F] in
theorem unscopedRest_args (m : (ℓ : Loc nD τ sig) → Buf (Elt F) ℓ) (c : Dev nD) :
    (Pipeline.unscopedRestP Pipeline.Prefetch.none cfg0.spec c (fun b => m ((c : Thread nD τ).loc b)) : sProp 𝕄) = argPts m c := by
  rw [Pipeline.unscopedRestP_none]
  exact unscopedRest0_eq c (fun b => m ((c : Thread nD τ).loc b))

omit [FloatOps F] in
theorem args_read (m : (ℓ : Loc nD τ sig) → Buf (Elt F) ℓ) (c : Dev nD) (s' : Phys nD τ sig (Elt F)) :
    iprop(argPts m c ∗ SI s')
      ⊢ (|={Set.univ}=> iprop(⌜s'.mem.mem ((c : Thread nD τ).loc main_arg0) = m ((c : Thread nD τ).loc main_arg0)
          ∧ s'.mem.mem ((c : Thread nD τ).loc main_arg1) = m ((c : Thread nD τ).loc main_arg1)⌝ ∗ SI s') : sProp 𝕄) := by
  unfold argPts
  iintro ⟨⟨H0, H1⟩, HSI⟩
  icombine HSI H0 gives %h0
  icombine HSI H1 gives %h1
  imodintro
  isplitr; · ipureintro; exact ⟨Buf.eq_of_forall_mem_univ h0, Buf.eq_of_forall_mem_univ h1⟩
  iexact HSI

def jS : Fin 21 → Fin 42 := ![0, 1, 2, 3, 4, 5, 6, 7, 8, 9, 10, 11, 24, 25, 26, 27, 28, 29, 36, 37, 38]
def jR : Fin 21 → Fin 42 := ![12, 13, 14, 15, 16, 17, 18, 19, 20, 21, 22, 23, 30, 31, 32, 33, 34, 35, 39, 40, 41]
theorem psem_jS (k : Fin 21) : psem (jS k) = .dma (xS k) := by revert k; decide
theorem psem_jR (k : Fin 21) : psem (jR k) = .dma (xR k) := by revert k; decide
theorem jS_inj : Function.Injective jS := by decide
theorem jR_inj : Function.Injective jR := by decide

omit [FloatOps F] in
theorem bigSep_remote (Ψ : Fin 42 → sProp 𝕄) :
    bigSep Finset.univ Ψ = iprop((bigSep Finset.univ fun k : Fin 21 => Ψ (jS k)) ∗ bigSep Finset.univ fun k : Fin 21 => Ψ (jR k)) := by
  rw [show (Finset.univ : Finset (Fin 42)) = Finset.univ.map ⟨jS, jS_inj⟩ ∪ Finset.univ.map ⟨jR, jR_inj⟩ from by decide,
    bigSep_union (by decide), bigSep_map, bigSep_map]
  rfl

omit [FloatOps F] in
theorem remoteSems0_eq (c : Dev nD) :
    (bigSep Finset.univ fun j : Fin 42 => (semVal ((c : Thread nD τ), psem j) 0 : sProp 𝕄))
      = iprop((bigSep Finset.univ fun k : Fin 21 => semVal (sCell c k) 0) ∗ bigSep Finset.univ fun k : Fin 21 => semVal (rCell c k) 0) := by
  rw [bigSep_remote]; simp only [psem_jS, psem_jR]

def start (Rd : Schedule (GSem nD τ sig) DT (MT nD τ sig Unit (Elt F) ℕ UU ℕ)) (m : (ℓ : Loc nD τ sig) → Buf (Elt F) ℓ) (c : Dev nD) : sProp 𝕄 :=
  iprop((∃ K, ghost Rd K c) ∗ cred (tallyAt (barCell c) () 3) ∗ (bigSep Finset.univ fun k : Fin 21 => cred (tallyAt (rCell c k) () 24576))
    ∗ levAts L lv ∗ localSems0 c ∗ argPts m c)

def Φ₀ (Rd : Schedule (GSem nD τ sig) DT (MT nD τ sig Unit (Elt F) ℕ UU ℕ)) (m : (ℓ : Loc nD τ sig) → Buf (Elt F) ℓ) (c : Dev nD) : sProp 𝕄 := iprop(start Rd m c ∗ scratch c)

def Φ₁ (m : (ℓ : Loc nD τ sig) → Buf (Elt F) ℓ) (c : Dev nD) : sProp 𝕄 :=
  iprop(scratch c ∗ localSems0 c ∗ (bigSep Finset.univ fun k : Fin 21 => semVal (sCell c k) 0)
    ∗ (bigSep Finset.univ fun k : Fin 21 => semVal (rCell c k) 0) ∗ argPts m c)

def dats (Rd : Schedule (GSem nD τ sig) DT (MT nD τ sig Unit (Elt F) ℕ UU ℕ)) (m : (ℓ : Loc nD τ sig) → Buf (Elt F) ℓ) (ρ : Dev nD → PrngReg) (_ : Fin 1) (c : Dev nD) : Dat τ (Elt F) Unit ℕ UU ℕ cfg0 c where
  A w := m ((cfg0.win w).arr.view.loc (c : Thread nD τ))
  after w _ := match w with
    | ⟨0, _⟩ => outBuf m c
    | ⟨_ + 1, h⟩ => absurd h (Nat.not_lt.2 (Nat.le_add_left _ _))
  Φ t := match t with
    | ⟨0, _⟩ => Φ₀ Rd m c
    | ⟨_ + 1, _⟩ => Φ₁ m c
  q _ := fullShare
  owed t := match t with
    | ⟨0, _⟩ => O₀ c
    | ⟨_ + 1, _⟩ => 0

abbrev 𝒱₀ : Variants := Variants.none

theorem share_eq (Rd : Schedule (GSem nD τ sig) DT (MT nD τ sig Unit (Elt F) ℕ UU ℕ)) (m : (ℓ : Loc nD τ sig) → Buf (Elt F) ℓ) (ρ : Dev nD → PrngReg) (c : Dev nD) (w : Fin cfg0.W) : (dats Rd m ρ 0 c).share w = fullShare := by
  unfold Dat.share; split <;> rfl

theorem waits (Rd : Schedule (GSem nD τ sig) DT (MT nD τ sig Unit (Elt F) ℕ UU ℕ)) (m : (ℓ : Loc nD τ sig) → Buf (Elt F) ℓ) (ρ : Dev nD → PrngReg) (c : Dev nD) : (levAts L lv : sProp 𝕄) ⊢ Pipeline.cellsWaits cfgs (dats Rd m ρ) () 0 c :=
  Pipeline.cellsWaits_intro cfgs (dats Rd m ρ) () 0 c fun w s t =>
    mayWait_of_above c _ 0 (by fin_cases w <;> fin_cases s <;> decide) _ (by
      rcases t with ⟨_ | _, ht⟩
      · exact above_O₀ c
      · exact above_zero 0)

omit [FloatOps F] in
theorem start_intro (Rd : Schedule (GSem nD τ sig) DT (MT nD τ sig Unit (Elt F) ℕ UU ℕ)) (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' Rd c)
      ⊢ |={Set.univ}=> iprop(start Rd m c ∗ emp) := by
  rw [unscopedRest_args]
  unfold G'
  iintro ⟨Ha, Hlev, Hcr, -, ⟨Hg, HL⟩⟩
  ihave Hc := (creds (F := F) c) $$ Hcr
  icases Hc with ⟨H3, HN⟩
  imodintro
  unfold start
  iframe

theorem phi0_intro (Rd : Schedule (GSem nD τ sig) DT (MT nD τ sig Unit (Elt F) ℕ UU ℕ)) (m : (ℓ : Loc nD τ sig) → Buf (Elt F) ℓ) (ρ : Dev nD → PrngReg) (c : Dev nD) :
    iprop(start Rd m c ∗ Pipeline.prefHeld Pipeline.Prefetch.none c (fun _ => fullShare.right) (fun k => k.elim0) ∗ Pipeline.scopedRest cfg0.spec c)
      ⊢ (dats Rd m ρ 0 c).Φ 0 := by
  rw [show (dats Rd m ρ 0 c).Φ 0 = Φ₀ Rd m c from rfl, scopedRest0_eq]
  unfold Φ₀ scratch scr
  iintro ⟨Hs, -, H0, H1, H2, H3, H4, H5, H6, H7⟩
  iframe

theorem phi1_exit (Rd : Schedule (GSem nD τ sig) DT (MT nD τ sig Unit (Elt F) ℕ UU ℕ)) (m : (ℓ : Loc nD τ sig) → Buf (Elt F) ℓ) (ρ : Dev nD → PrngReg) (c : Dev nD) :
    (dats Rd m ρ 0 c).Φ (Fin.last cfg0.N) ⊢ iprop(argPts m c ∗ Pipeline.ownSems0 (Ix := Unit) (Name := ℕ) (U := UU) (Lvl := ℕ) (Val := Elt F) (τ := τ) osem c ∗ Pipeline.scopedRest cfg0.spec c) := by
  rw [show (dats Rd m ρ 0 c).Φ (Fin.last cfg0.N) = Φ₁ m c from rfl, scopedRest0_eq, ownSems0_split, remoteSems0_eq]
  unfold Φ₁ scratch scr
  iintro ⟨⟨H0, H1, H2, H3, H4, H5, H6, H7⟩, HL, HS, HR, Ha⟩
  iframe

def QC (Rd : Schedule (GSem nD τ sig) DT (MT nD τ sig Unit (Elt F) ℕ UU ℕ)) (m : (ℓ : Loc nD τ sig) → Buf (Elt F) ℓ) (ρ : Dev nD → PrngReg) : PUnit × MemSt nD τ sig (Elt F) → Prop := fun r =>
  ∀ c : Dev nD, (∀ w : Fin cfg0.W, r.2.mem ((cfg0.win w).arr.view.loc (c : Thread nD τ)) = (dats Rd m ρ 0 c).arrAt w cfg0.N)
    ∧ r.2.mem ((c : Thread nD τ).loc main_arg0) = m ((c : Thread nD τ).loc main_arg0)
    ∧ r.2.mem ((c : Thread nD τ).loc main_arg1) = m ((c : Thread nD τ).loc main_arg1)

set_option maxRecDepth 200000 in
theorem run_main (Rd : Schedule (GSem nD τ sig) DT (MT nD τ sig Unit (Elt F) ℕ UU ℕ)) [∀ g r d, BI.Storable (upEmb : UEmb _ (MT nD τ sig Unit (Elt F) ℕ UU ℕ)) (Rd.payload g r d)] (m : (ℓ : Loc nD τ sig) → Buf (Elt F) ℓ) (ρ : Dev nD → PrngReg)
    (hbody : ∀ c, BodyObligation (dats Rd m ρ 0 c) (defs₀ (F := F)) 𝒱₀ () Set.univ) :
    θ_run defs (onTc (τ := τ) (main (F := F))) (⟨m, fun _ => 0, ρ⟩ : MemSt nD τ sig (Elt F)) (QC Rd m ρ) :=
  Pipeline.θ_run_region_owing_glob_pf (fun p => (cfgs p).toPCfg) (fun p => (cfgs p).toPCfg_adm) (dats Rd m ρ) () cellOf_inj (0 : Fin 1)
    winFacts0.to₀ ownSemFacts (Pipeline.PreFacts.none _) EP defs₀ 𝒱₀ m ρ main
    (hmain := fun _ => rfl)
    (hbody := fun c => (hbody c).loose) (hne := block_pos0) (harr := arr_whole0) (hstage := stage_whole0) (hshare := share_eq Rd m ρ)
    (hdistinct := winFacts0.arr_inj)
    (O₀ := O₀) (howed₀ := fun _ => rfl) (howedN := fun _ => rfl)
    (L := L) (lv := lv) (hL := L_of_ne) (hwaits := waits Rd m ρ)
    (G := G Rd) (G' := G' Rd) (u₀ := u₀)
    (hu₀ := by
      unfold u₀
      iintro Hu
      ihave H := (ownU_split₂ _ _ _) $$ Hu
      icases H with ⟨HP, HX⟩
      imod (fund Rd) $$ HX with HG
      imodintro
      isplitl [HP] <;> iassumption)
    (hglob := glob Rd)
    (hA := fun _ _ => rfl) (hpf := fun _ k => k.elim0)
    (X := start Rd m) (Y := argPts m) (Z := fun _ => iprop(emp))
    (hX := start_intro Rd m ρ) (hin := phi0_intro Rd m ρ) (hout := phi1_exit Rd m ρ)
    (QY := fun c s => s.mem ((c : Thread nD τ).loc main_arg0) = m ((c : Thread nD τ).loc main_arg0)
      ∧ s.mem ((c : Thread nD τ).loc main_arg1) = m ((c : Thread nD τ).loc main_arg1))
    (hY := fun c s' => by
      iintro ⟨Ha, -, HSI⟩
      iapply (args_read m c s')
      isplitl [Ha] <;> iassumption)
    (hQ := fun _ h c => ⟨(h c).1, (h c).2.2⟩)

/-- info: 'Cert.KernelIdeal.Hand.run_main' depends on axioms: [propext, Classical.choice, Quot.sound] -/
#guard_msgs in #print axioms run_main

end Cert.KernelIdeal.Hand

end
-- ==== Proof.BodyPre.lean ====
import proofs.«900896_g7700000000000897_dist_matmul_mk_i_outk_m3072_n3072_k1536_v7x_i8_bf16_1_alg».proof.Proof.Sched
import proofs.«900896_g7700000000000897_dist_matmul_mk_i_outk_m3072_n3072_k1536_v7x_i8_bf16_1_alg».proof.Proof.Launch
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev Bf (c : Dev nD) {sp : Space} {S : Shape} {e : EltTy} (M : Memref sig .tc sp S e) : Type := Buf (Elt F) (M.view.loc (c : Thread nD τ))
abbrev ptM (c : Dev nD) {sp : Space} {S : Shape} {e : EltTy} (M : Memref sig .tc sp S e) (f : Bf (F := F) c M) : sProp 𝕄 :=
  M.view.loc (c : Thread nD τ) ↦{fullShare} f

/-- The invariants of the cells the body opens: the device's own 43, and its partners' handshake and receive cells. -/
abbrev invs (m : (ℓ : Loc nD τ sig) → Buf (Elt F) ℓ) (K : Dev nD × Fin 43 → ℕ) (c : Dev nD) : sProp 𝕄 :=
  iprop(cellInv ER (Rd m) (K (c, 0)) (barCell c) ∗ cellInv ER (Rd m) (K (px 1 c, 0)) (barCell (px 1 c)) ∗ cellInv ER (Rd m) (K (px 3 c, 0)) (barCell (px 3 c)) ∗ cellInv ER (Rd m) (K (px 4 c, 0)) (barCell (px 4 c)) ∗ cellInv ER (Rd m) (K (c, 1)) ((c : Thread nD τ), .dma 4) ∗ cellInv ER (Rd m) (K (c, 13)) ((c : Thread nD τ), .dma 16) ∗ cellInv ER (Rd m) (K (px 4 c, 13)) ((px 4 c : Thread nD τ), .dma 16) ∗ cellInv ER (Rd m) (K (c, 2)) ((c : Thread nD τ), .dma 5) ∗ cellInv ER (Rd m) (K (c, 14)) ((c : Thread nD τ), .dma 17) ∗ cellInv ER (Rd m) (K (px 4 c, 14)) ((px 4 c : Thread nD τ), .dma 17) ∗ cellInv ER (Rd m) (K (c, 3)) ((c : Thread nD τ), .dma 6) ∗ cellInv ER (Rd m) (K (c, 15)) ((c : Thread nD τ), .dma 18) ∗ cellInv ER (Rd m) (K (px 4 c, 15)) ((px 4 c : Thread nD τ), .dma 18) ∗ cellInv ER (Rd m) (K (c, 4)) ((c : Thread nD τ), .dma 7) ∗ cellInv ER (Rd m) (K (c, 16)) ((c : Thread nD τ), .dma 19) ∗ cellInv ER (Rd m) (K (px 4 c, 16)) ((px 4 c : Thread nD τ), .dma 19) ∗ cellInv ER (Rd m) (K (c, 5)) ((c : Thread nD τ), .dma 8) ∗ cellInv ER (Rd m) (K (c, 17)) ((c : Thread nD τ), .dma 20) ∗ cellInv ER (Rd m) (K (px 3 c, 17)) ((px 3 c : Thread nD τ), .dma 20) ∗ cellInv ER (Rd m) (K (c, 6)) ((c : Thread nD τ), .dma 9) ∗ cellInv ER (Rd m) (K (c, 18)) ((c : Thread nD τ), .dma 21) ∗ cellInv ER (Rd m) (K (px 3 c, 18)) ((px 3 c : Thread nD τ), .dma 21) ∗ cellInv ER (Rd m) (K (c, 7)) ((c : Thread nD τ), .dma 10) ∗ cellInv ER (Rd m) (K (c, 19)) ((c : Thread nD τ), .dma 22) ∗ cellInv ER (Rd m) (K (px 3 c, 19)) ((px 3 c : Thread nD τ), .dma 22) ∗ cellInv ER (Rd m) (K (c, 8)) ((c : Thread nD τ), .dma 11) ∗ cellInv ER (Rd m) (K (c, 20)) ((c : Thread nD τ), .dma 23) ∗ cellInv ER (Rd m) (K (px 3 c, 20)) ((px 3 c : Thread nD τ), .dma 23) ∗ cellInv ER (Rd m) (K (c, 9)) ((c : Thread nD τ), .dma 12) ∗ cellInv ER (Rd m) (K (c, 21)) ((c : Thread nD τ), .dma 24) ∗ cellInv ER (Rd m) (K (px 1 c, 21)) ((px 1 c : Thread nD τ), .dma 24) ∗ cellInv ER (Rd m) (K (c, 10)) ((c : Thread nD τ), .dma 13) ∗ cellInv ER (Rd m) (K (c, 22)) ((c : Thread nD τ), .dma 25) ∗ cellInv ER (Rd m) (K (px 1 c, 22)) ((px 1 c : Thread nD τ), .dma 25) ∗ cellInv ER (Rd m) (K (c, 11)) ((c : Thread nD τ), .dma 14) ∗ cellInv ER (Rd m) (K (c, 23)) ((c : Thread nD τ), .dma 26) ∗ cellInv ER (Rd m) (K (px 1 c, 23)) ((px 1 c : Thread nD τ), .dma 26) ∗ cellInv ER (Rd m) (K (c, 12)) ((c : Thread nD τ), .dma 15) ∗ cellInv ER (Rd m) (K (c, 24)) ((c : Thread nD τ), .dma 27) ∗ cellInv ER (Rd m) (K (px 1 c, 24)) ((px 1 c : Thread nD τ), .dma 27) ∗ cellInv ER (Rd m) (K (c, 25)) ((c : Thread nD τ), .dma 28) ∗ cellInv ER (Rd m) (K (c, 31)) ((c : Thread nD τ), .dma 34) ∗ cellInv ER (Rd m) (K (px 3 c, 31)) ((px 3 c : Thread nD τ), .dma 34) ∗ cellInv ER (Rd m) (K (c, 26)) ((c : Thread nD τ), .dma 29) ∗ cellInv ER (Rd m) (K (c, 32)) ((c : Thread nD τ), .dma 35) ∗ cellInv ER (Rd m) (K (px 3 c, 32)) ((px 3 c : Thread nD τ), .dma 35) ∗ cellInv ER (Rd m) (K (c, 27)) ((c : Thread nD τ), .dma 30) ∗ cellInv ER (Rd m) (K (c, 33)) ((c : Thread nD τ), .dma 36) ∗ cellInv ER (Rd m) (K (px 1 c, 33)) ((px 1 c : Thread nD τ), .dma 36) ∗ cellInv ER (Rd m) (K (c, 28)) ((c : Thread nD τ), .dma 31) ∗ cellInv ER (Rd m) (K (c, 34)) ((c : Thread nD τ), .dma 37) ∗ cellInv ER (Rd m) (K (px 1 c, 34)) ((px 1 c : Thread nD τ), .dma 37) ∗ cellInv ER (Rd m) (K (c, 29)) ((c : Thread nD τ), .dma 32) ∗ cellInv ER (Rd m) (K (c, 35)) ((c : Thread nD τ), .dma 38) ∗ cellInv ER (Rd m) (K (px 4 c, 35)) ((px 4 c : Thread nD τ), .dma 38) ∗ cellInv ER (Rd m) (K (c, 30)) ((c : Thread nD τ), .dma 33) ∗ cellInv ER (Rd m) (K (c, 36)) ((c : Thread nD τ), .dma 39) ∗ cellInv ER (Rd m) (K (px 4 c, 36)) ((px 4 c : Thread nD τ), .dma 39) ∗ cellInv ER (Rd m) (K (c, 37)) ((c : Thread nD τ), .dma 40) ∗ cellInv ER (Rd m) (K (c, 40)) ((c : Thread nD τ), .dma 43) ∗ cellInv ER (Rd m) (K (px 1 c, 40)) ((px 1 c : Thread nD τ), .dma 43) ∗ cellInv ER (Rd m) (K (c, 38)) ((c : Thread nD τ), .dma 41) ∗ cellInv ER (Rd m) (K (c, 41)) ((c : Thread nD τ), .dma 44) ∗ cellInv ER (Rd m) (K (px 4 c, 41)) ((px 4 c : Thread nD τ), .dma 44) ∗ cellInv ER (Rd m) (K (c, 39)) ((c : Thread nD τ), .dma 42) ∗ cellInv ER (Rd m) (K (c, 42)) ((c : Thread nD τ), .dma 45) ∗ cellInv ER (Rd m) (K (px 3 c, 42)) ((px 3 c : Thread nD τ), .dma 45))

/-- Round 0 of every cell the body pays into is open. -/
abbrev rchs (c : Dev nD) : sProp 𝕄 :=
  iprop(reached ER (barCell (px 1 c)) 0 ∗ reached ER (barCell (px 3 c)) 0 ∗ reached ER (barCell (px 4 c)) 0 ∗ reached ER ((c : Thread nD τ), .dma 4) 0 ∗ reached ER ((px 4 c : Thread nD τ), .dma 16) 0 ∗ reached ER ((c : Thread nD τ), .dma 5) 0 ∗ reached ER ((px 4 c : Thread nD τ), .dma 17) 0 ∗ reached ER ((c : Thread nD τ), .dma 6) 0 ∗ reached ER ((px 4 c : Thread nD τ), .dma 18) 0 ∗ reached ER ((c : Thread nD τ), .dma 7) 0 ∗ reached ER ((px 4 c : Thread nD τ), .dma 19) 0 ∗ reached ER ((c : Thread nD τ), .dma 8) 0 ∗ reached ER ((px 3 c : Thread nD τ), .dma 20) 0 ∗ reached ER ((c : Thread nD τ), .dma 9) 0 ∗ reached ER ((px 3 c : Thread nD τ), .dma 21) 0 ∗ reached ER ((c : Thread nD τ), .dma 10) 0 ∗ reached ER ((px 3 c : Thread nD τ), .dma 22) 0 ∗ reached ER ((c : Thread nD τ), .dma 11) 0 ∗ reached ER ((px 3 c : Thread nD τ), .dma 23) 0 ∗ reached ER ((c : Thread nD τ), .dma 12) 0 ∗ reached ER ((px 1 c : Thread nD τ), .dma 24) 0 ∗ reached ER ((c : Thread nD τ), .dma 13) 0 ∗ reached ER ((px 1 c : Thread nD τ), .dma 25) 0 ∗ reached ER ((c : Thread nD τ), .dma 14) 0 ∗ reached ER ((px 1 c : Thread nD τ), .dma 26) 0 ∗ reached ER ((c : Thread nD τ), .dma 15) 0 ∗ reached ER ((px 1 c : Thread nD τ), .dma 27) 0 ∗ reached ER ((c : Thread nD τ), .dma 28) 0 ∗ reached ER ((px 3 c : Thread nD τ), .dma 34) 0 ∗ reached ER ((c : Thread nD τ), .dma 29) 0 ∗ reached ER ((px 3 c : Thread nD τ), .dma 35) 0 ∗ reached ER ((c : Thread nD τ), .dma 30) 0 ∗ reached ER ((px 1 c : Thread nD τ), .dma 36) 0 ∗ reached ER ((c : Thread nD τ), .dma 31) 0 ∗ reached ER ((px 1 c : Thread nD τ), .dma 37) 0 ∗ reached ER ((c : Thread nD τ), .dma 32) 0 ∗ reached ER ((px 4 c : Thread nD τ), .dma 38) 0 ∗ reached ER ((c : Thread nD τ), .dma 33) 0 ∗ reached ER ((px 4 c : Thread nD τ), .dma 39) 0 ∗ reached ER ((c : Thread nD τ), .dma 40) 0 ∗ reached ER ((px 1 c : Thread nD τ), .dma 43) 0 ∗ reached ER ((c : Thread nD τ), .dma 41) 0 ∗ reached ER ((px 4 c : Thread nD τ), .dma 44) 0 ∗ reached ER ((c : Thread nD τ), .dma 42) 0 ∗ reached ER ((px 3 c : Thread nD τ), .dma 45) 0)

omit [FloatOps F] in
/-- The device stands at round `r`, nothing consumed, on each of its 21 send cells. -/
abbrev sendPos (r : ℕ) (c : Dev nD) : sProp 𝕄 :=
  iprop(atPos ER ((c : Thread nD τ), .dma 4) r ∅ 0 ∗ atPos ER ((c : Thread nD τ), .dma 5) r ∅ 0 ∗ atPos ER ((c : Thread nD τ), .dma 6) r ∅ 0 ∗ atPos ER ((c : Thread nD τ), .dma 7) r ∅ 0 ∗ atPos ER ((c : Thread nD τ), .dma 8) r ∅ 0 ∗ atPos ER ((c : Thread nD τ), .dma 9) r ∅ 0 ∗ atPos ER ((c : Thread nD τ), .dma 10) r ∅ 0 ∗ atPos ER ((c : Thread nD τ), .dma 11) r ∅ 0 ∗ atPos ER ((c : Thread nD τ), .dma 12) r ∅ 0 ∗ atPos ER ((c : Thread nD τ), .dma 13) r ∅ 0 ∗ atPos ER ((c : Thread nD τ), .dma 14) r ∅ 0 ∗ atPos ER ((c : Thread nD τ), .dma 15) r ∅ 0 ∗ atPos ER ((c : Thread nD τ), .dma 28) r ∅ 0 ∗ atPos ER ((c : Thread nD τ), .dma 29) r ∅ 0 ∗ atPos ER ((c : Thread nD τ), .dma 30) r ∅ 0 ∗ atPos ER ((c : Thread nD τ), .dma 31) r ∅ 0 ∗ atPos ER ((c : Thread nD τ), .dma 32) r ∅ 0 ∗ atPos ER ((c : Thread nD τ), .dma 33) r ∅ 0 ∗ atPos ER ((c : Thread nD τ), .dma 40) r ∅ 0 ∗ atPos ER ((c : Thread nD τ), .dma 41) r ∅ 0 ∗ atPos ER ((c : Thread nD τ), .dma 42) r ∅ 0)

omit [FloatOps F] in
/-- The same on each of its 21 receive cells. -/
abbrev recvPos (r : ℕ) (c : Dev nD) : sProp 𝕄 :=
  iprop(atPos ER ((c : Thread nD τ), .dma 16) r ∅ 0 ∗ atPos ER ((c : Thread nD τ), .dma 17) r ∅ 0 ∗ atPos ER ((c : Thread nD τ), .dma 18) r ∅ 0 ∗ atPos ER ((c : Thread nD τ), .dma 19) r ∅ 0 ∗ atPos ER ((c : Thread nD τ), .dma 20) r ∅ 0 ∗ atPos ER ((c : Thread nD τ), .dma 21) r ∅ 0 ∗ atPos ER ((c : Thread nD τ), .dma 22) r ∅ 0 ∗ atPos ER ((c : Thread nD τ), .dma 23) r ∅ 0 ∗ atPos ER ((c : Thread nD τ), .dma 24) r ∅ 0 ∗ atPos ER ((c : Thread nD τ), .dma 25) r ∅ 0 ∗ atPos ER ((c : Thread nD τ), .dma 26) r ∅ 0 ∗ atPos ER ((c : Thread nD τ), .dma 27) r ∅ 0 ∗ atPos ER ((c : Thread nD τ), .dma 34) r ∅ 0 ∗ atPos ER ((c : Thread nD τ), .dma 35) r ∅ 0 ∗ atPos ER ((c : Thread nD τ), .dma 36) r ∅ 0 ∗ atPos ER ((c : Thread nD τ), .dma 37) r ∅ 0 ∗ atPos ER ((c : Thread nD τ), .dma 38) r ∅ 0 ∗ atPos ER ((c : Thread nD τ), .dma 39) r ∅ 0 ∗ atPos ER ((c : Thread nD τ), .dma 43) r ∅ 0 ∗ atPos ER ((c : Thread nD τ), .dma 44) r ∅ 0 ∗ atPos ER ((c : Thread nD τ), .dma 45) r ∅ 0)

omit [FloatOps F] in
/-- The tokens of the duties the body pays: three handshake units, its 21 departures, its partners' 21 arrivals. -/
abbrev toks (c : Dev nD) : sProp 𝕄 :=
  iprop((dutyTok ER (barCell (px 1 c)) 0 1 ∗ dutyTok ER (barCell (px 3 c)) 0 3 ∗ dutyTok ER (barCell (px 4 c)) 0 4) ∗ (dutyTok ER ((c : Thread nD τ), .dma 4) 0 0 ∗ dutyTok ER ((c : Thread nD τ), .dma 5) 0 0 ∗ dutyTok ER ((c : Thread nD τ), .dma 6) 0 0 ∗ dutyTok ER ((c : Thread nD τ), .dma 7) 0 0 ∗ dutyTok ER ((c : Thread nD τ), .dma 8) 0 0 ∗ dutyTok ER ((c : Thread nD τ), .dma 9) 0 0 ∗ dutyTok ER ((c : Thread nD τ), .dma 10) 0 0 ∗ dutyTok ER ((c : Thread nD τ), .dma 11) 0 0 ∗ dutyTok ER ((c : Thread nD τ), .dma 12) 0 0 ∗ dutyTok ER ((c : Thread nD τ), .dma 13) 0 0 ∗ dutyTok ER ((c : Thread nD τ), .dma 14) 0 0 ∗ dutyTok ER ((c : Thread nD τ), .dma 15) 0 0 ∗ dutyTok ER ((c : Thread nD τ), .dma 28) 0 0 ∗ dutyTok ER ((c : Thread nD τ), .dma 29) 0 0 ∗ dutyTok ER ((c : Thread nD τ), .dma 30) 0 0 ∗ dutyTok ER ((c : Thread nD τ), .dma 31) 0 0 ∗ dutyTok ER ((c : Thread nD τ), .dma 32) 0 0 ∗ dutyTok ER ((c : Thread nD τ), .dma 33) 0 0 ∗ dutyTok ER ((c : Thread nD τ), .dma 40) 0 0 ∗ dutyTok ER ((c : Thread nD τ), .dma 41) 0 0 ∗ dutyTok ER ((c : Thread nD τ), .dma 42) 0 0) ∗ (dutyTok ER ((px 4 c : Thread nD τ), .dma 16) 0 0 ∗ dutyTok ER ((px 4 c : Thread nD τ), .dma 17) 0 0 ∗ dutyTok ER ((px 4 c : Thread nD τ), .dma 18) 0 0 ∗ dutyTok ER ((px 4 c : Thread nD τ), .dma 19) 0 0 ∗ dutyTok ER ((px 3 c : Thread nD τ), .dma 20) 0 0 ∗ dutyTok ER ((px 3 c : Thread nD τ), .dma 21) 0 0 ∗ dutyTok ER ((px 3 c : Thread nD τ), .dma 22) 0 0 ∗ dutyTok ER ((px 3 c : Thread nD τ), .dma 23) 0 0 ∗ dutyTok ER ((px 1 c : Thread nD τ), .dma 24) 0 0 ∗ dutyTok ER ((px 1 c : Thread nD τ), .dma 25) 0 0 ∗ dutyTok ER ((px 1 c : Thread nD τ), .dma 26) 0 0 ∗ dutyTok ER ((px 1 c : Thread nD τ), .dma 27) 0 0 ∗ dutyTok ER ((px 3 c : Thread nD τ), .dma 34) 0 0 ∗ dutyTok ER ((px 3 c : Thread nD τ), .dma 35) 0 0 ∗ dutyTok ER ((px 1 c : Thread nD τ), .dma 36) 0 0 ∗ dutyTok ER ((px 1 c : Thread nD τ), .dma 37) 0 0 ∗ dutyTok ER ((px 4 c : Thread nD τ), .dma 38) 0 0 ∗ dutyTok ER ((px 4 c : Thread nD τ), .dma 39) 0 0 ∗ dutyTok ER ((px 1 c : Thread nD τ), .dma 43) 0 0 ∗ dutyTok ER ((px 4 c : Thread nD τ), .dma 44) 0 0 ∗ dutyTok ER ((px 3 c : Thread nD τ), .dma 45) 0 0))

omit [FloatOps F] in
/-- The credit for the 21 arrivals the body waits for. -/
abbrev recvCreds (c : Dev nD) : sProp 𝕄 :=
  iprop(cred (tallyAt ((c : Thread nD τ), .dma 16) () NX) ∗ cred (tallyAt ((c : Thread nD τ), .dma 17) () NX) ∗ cred (tallyAt ((c : Thread nD τ), .dma 18) () NX) ∗ cred (tallyAt ((c : Thread nD τ), .dma 19) () NX) ∗ cred (tallyAt ((c : Thread nD τ), .dma 20) () NX) ∗ cred (tallyAt ((c : Thread nD τ), .dma 21) () NX) ∗ cred (tallyAt ((c : Thread nD τ), .dma 22) () NX) ∗ cred (tallyAt ((c : Thread nD τ), .dma 23) () NX) ∗ cred (tallyAt ((c : Thread nD τ), .dma 24) () NX) ∗ cred (tallyAt ((c : Thread nD τ), .dma 25) () NX) ∗ cred (tallyAt ((c : Thread nD τ), .dma 26) () NX) ∗ cred (tallyAt ((c : Thread nD τ), .dma 27) () NX) ∗ cred (tallyAt ((c : Thread nD τ), .dma 34) () NX) ∗ cred (tallyAt ((c : Thread nD τ), .dma 35) () NX) ∗ cred (tallyAt ((c : Thread nD τ), .dma 36) () NX) ∗ cred (tallyAt ((c : Thread nD τ), .dma 37) () NX) ∗ cred (tallyAt ((c : Thread nD τ), .dma 38) () NX) ∗ cred (tallyAt ((c : Thread nD τ), .dma 39) () NX) ∗ cred (tallyAt ((c : Thread nD τ), .dma 43) () NX) ∗ cred (tallyAt ((c : Thread nD τ), .dma 44) () NX) ∗ cred (tallyAt ((c : Thread nD τ), .dma 45) () NX))

omit [FloatOps F] in
/-- The 21 send counters at zero. -/
abbrev sendZero (c : Dev nD) : sProp 𝕄 :=
  iprop(semVal ((c : Thread nD τ), .dma 4) 0 ∗ semVal ((c : Thread nD τ), .dma 5) 0 ∗ semVal ((c : Thread nD τ), .dma 6) 0 ∗ semVal ((c : Thread nD τ), .dma 7) 0 ∗ semVal ((c : Thread nD τ), .dma 8) 0 ∗ semVal ((c : Thread nD τ), .dma 9) 0 ∗ semVal ((c : Thread nD τ), .dma 10) 0 ∗ semVal ((c : Thread nD τ), .dma 11) 0 ∗ semVal ((c : Thread nD τ), .dma 12) 0 ∗ semVal ((c : Thread nD τ), .dma 13) 0 ∗ semVal ((c : Thread nD τ), .dma 14) 0 ∗ semVal ((c : Thread nD τ), .dma 15) 0 ∗ semVal ((c : Thread nD τ), .dma 28) 0 ∗ semVal ((c : Thread nD τ), .dma 29) 0 ∗ semVal ((c : Thread nD τ), .dma 30) 0 ∗ semVal ((c : Thread nD τ), .dma 31) 0 ∗ semVal ((c : Thread nD τ), .dma 32) 0 ∗ semVal ((c : Thread nD τ), .dma 33) 0 ∗ semVal ((c : Thread nD τ), .dma 40) 0 ∗ semVal ((c : Thread nD τ), .dma 41) 0 ∗ semVal ((c : Thread nD τ), .dma 42) 0)

omit [FloatOps F] in
/-- The 21 receive counters at zero. -/
abbrev recvZero (c : Dev nD) : sProp 𝕄 :=
  iprop(semVal ((c : Thread nD τ), .dma 16) 0 ∗ semVal ((c : Thread nD τ), .dma 17) 0 ∗ semVal ((c : Thread nD τ), .dma 18) 0 ∗ semVal ((c : Thread nD τ), .dma 19) 0 ∗ semVal ((c : Thread nD τ), .dma 20) 0 ∗ semVal ((c : Thread nD τ), .dma 21) 0 ∗ semVal ((c : Thread nD τ), .dma 22) 0 ∗ semVal ((c : Thread nD τ), .dma 23) 0 ∗ semVal ((c : Thread nD τ), .dma 24) 0 ∗ semVal ((c : Thread nD τ), .dma 25) 0 ∗ semVal ((c : Thread nD τ), .dma 26) 0 ∗ semVal ((c : Thread nD τ), .dma 27) 0 ∗ semVal ((c : Thread nD τ), .dma 34) 0 ∗ semVal ((c : Thread nD τ), .dma 35) 0 ∗ semVal ((c : Thread nD τ), .dma 36) 0 ∗ semVal ((c : Thread nD τ), .dma 37) 0 ∗ semVal ((c : Thread nD τ), .dma 38) 0 ∗ semVal ((c : Thread nD τ), .dma 39) 0 ∗ semVal ((c : Thread nD τ), .dma 43) 0 ∗ semVal ((c : Thread nD τ), .dma 44) 0 ∗ semVal ((c : Thread nD τ), .dma 45) 0)

def bodyPre (m : (ℓ : Loc nD τ sig) → Buf (Elt F) ℓ) (c : Dev nD) (K : Dev nD × Fin 43 → ℕ) (W : Waits sig Unit)
    (fHo : Bf (F := F) c (Memref.whole cc0_stg0_0)) (fH0 : Bf (F := F) c (Memref.whole cc0_scratch0)) (fH1 : Bf (F := F) c (Memref.whole cc0_scratch1)) (fH2 : Bf (F := F) c (Memref.whole cc0_scratch2)) (fH3 : Bf (F := F) c (Memref.whole cc0_scratch3)) (fS : Buf (Elt F) (sb_0_0.view.loc (c : Thread nD τ))) : sProp 𝕄 :=
  iprop((invs m K c) ∗
        (rchs (F := F) c) ∗
        levAts L lv ∗
        (atPos ER (barCell c) 0 ∅ 0 ∗ (sendPos (F := F) 0 c) ∗ (recvPos (F := F) 0 c)) ∗
        (toks (F := F) c) ∗
        (cred (tallyAt (barCell c) () 3) ∗ (recvCreds (F := F) c)) ∗
        owes (c : Thread nD τ) ((((((((((((((((((((((((0 + tallyAt ((px 3 c : Thread nD τ), .dma 45) () NX) + tallyAt ((px 4 c : Thread nD τ), .dma 44) () NX) + tallyAt ((px 1 c : Thread nD τ), .dma 43) () NX) + tallyAt ((px 4 c : Thread nD τ), .dma 39) () NX) + tallyAt ((px 1 c : Thread nD τ), .dma 37) () NX) + tallyAt ((px 3 c : Thread nD τ), .dma 35) () NX) + tallyAt ((px 4 c : Thread nD τ), .dma 38) () NX) + tallyAt ((px 1 c : Thread nD τ), .dma 36) () NX) + tallyAt ((px 3 c : Thread nD τ), .dma 34) () NX) + tallyAt ((px 1 c : Thread nD τ), .dma 27) () NX) + tallyAt ((px 3 c : Thread nD τ), .dma 23) () NX) + tallyAt ((px 4 c : Thread nD τ), .dma 19) () NX) + tallyAt ((px 1 c : Thread nD τ), .dma 26) () NX) + tallyAt ((px 3 c : Thread nD τ), .dma 22) () NX) + tallyAt ((px 4 c : Thread nD τ), .dma 18) () NX) + tallyAt ((px 1 c : Thread nD τ), .dma 25) () NX) + tallyAt ((px 3 c : Thread nD τ), .dma 21) () NX) + tallyAt ((px 4 c : Thread nD τ), .dma 17) () NX) + tallyAt ((px 1 c : Thread nD τ), .dma 24) () NX) + tallyAt ((px 3 c : Thread nD τ), .dma 20) () NX) + tallyAt ((px 4 c : Thread nD τ), .dma 16) () NX) + tallyAt (barCell (px 4 c)) () 1) + tallyAt (barCell (px 3 c)) () 1) + tallyAt (barCell (px 1 c)) () 1) W ∗
        (ptM c (Memref.whole main_arg0) (m ((c : Thread nD τ).loc main_arg0)) ∗ ptM c (Memref.whole main_arg1) (m ((c : Thread nD τ).loc main_arg1)) ∗ ptM c (Memref.whole cc0_stg0_0) fHo ∗ ptM c (Memref.whole cc0_scratch0) fH0 ∗ ptM c (Memref.whole cc0_scratch1) fH1 ∗ ptM c (Memref.whole cc0_scratch2) fH2 ∗ ptM c (Memref.whole cc0_scratch3) fH3) ∗
        (((sb_0_0.view.loc (c : Thread nD τ) ↦[sb_0_0.view.set]{fullShare} fS) ∗ (sb_0_1.view.loc (c : Thread nD τ) ↦[sb_0_1.view.set]{fullShare} fS) ∗ (sb_0_2.view.loc (c : Thread nD τ) ↦[sb_0_2.view.set]{fullShare} fS) ∗ (sb_0_3.view.loc (c : Thread nD τ) ↦[sb_0_3.view.set]{fullShare} fS) ∗ (sb_1_0.view.loc (c : Thread nD τ) ↦[sb_1_0.view.set]{fullShare} fS) ∗ (sb_1_1.view.loc (c : Thread nD τ) ↦[sb_1_1.view.set]{fullShare} fS) ∗ (sb_1_2.view.loc (c : Thread nD τ) ↦[sb_1_2.view.set]{fullShare} fS) ∗ (sb_1_3.view.loc (c : Thread nD τ) ↦[sb_1_3.view.set]{fullShare} fS) ∗ (sb_2_0.view.loc (c : Thread nD τ) ↦[sb_2_0.view.set]{fullShare} fS) ∗ (sb_2_1.view.loc (c : Thread nD τ) ↦[sb_2_1.view.set]{fullShare} fS) ∗ (sb_2_2.view.loc (c : Thread nD τ) ↦[sb_2_2.view.set]{fullShare} fS) ∗ (sb_2_3.view.loc (c : Thread nD τ) ↦[sb_2_3.view.set]{fullShare} fS)) ∗ (barSlots c 1 ∗ barSlots c 3 ∗ barSlots c 4)) ∗
        (semVal ((c : Thread nD τ), .dma 1) 0 ∗ semVal ((c : Thread nD τ), .dma 2) 0 ∗ semVal ((c : Thread nD τ), .dma 3) 0))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPost (m : (ℓ : Loc nD τ sig) → Buf (Elt F) ℓ) (ρ : Dev nD → PrngReg) (c : Dev nD) : sProp 𝕄 :=
  iprop(Φ₁ m c ∗ (dats (Rd m) m ρ 0 c).owesAt () (t0_0 : Fin cfg0.N).succ ∗ stg c cc0_stg0_0 (outBuf m c))

end Cert.KernelIdeal.Hand

end
-- ==== Proof.BodyEnd.lean ====
import proofs.«900896_g7700000000000897_dist_matmul_mk_i_outk_m3072_n3072_k1536_v7x_i8_bf16_1_alg».proof.Proof.BodyPre
import proofs.«900896_g7700000000000897_dist_matmul_mk_i_outk_m3072_n3072_k1536_v7x_i8_bf16_1_alg».proof.Proof.Slots
import Idealize.ShloMosaic.Lib.Pipeline.Value
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem join_SB (c : Dev nD) (fsb_0_0 : Buf (Elt F) (sb_0_0.view.loc (c : Thread nD τ))) (fsb_0_1 : Buf (Elt F) (sb_0_1.view.loc (c : Thread nD τ))) (fsb_0_2 : Buf (Elt F) (sb_0_2.view.loc (c : Thread nD τ))) (fsb_0_3 : Buf (Elt F) (sb_0_3.view.loc (c : Thread nD τ))) (fsb_1_0 : Buf (Elt F) (sb_1_0.view.loc (c : Thread nD τ))) (fsb_1_1 : Buf (Elt F) (sb_1_1.view.loc (c : Thread nD τ))) (fsb_1_2 : Buf (Elt F) (sb_1_2.view.loc (c : Thread nD τ))) (fsb_1_3 : Buf (Elt F) (sb_1_3.view.loc (c : Thread nD τ))) (fsb_2_0 : Buf (Elt F) (sb_2_0.view.loc (c : Thread nD τ))) (fsb_2_1 : Buf (Elt F) (sb_2_1.view.loc (c : Thread nD τ))) (fsb_2_2 : Buf (Elt F) (sb_2_2.view.loc (c : Thread nD τ))) (fsb_2_3 : Buf (Elt F) (sb_2_3.view.loc (c : Thread nD τ))) :
    (iprop((sb_0_0.view.loc (c : Thread nD τ) ↦[sb_0_0.view.set]{fullShare} fsb_0_0) ∗ (sb_0_1.view.loc (c : Thread nD τ) ↦[sb_0_1.view.set]{fullShare} fsb_0_1) ∗ (sb_0_2.view.loc (c : Thread nD τ) ↦[sb_0_2.view.set]{fullShare} fsb_0_2) ∗ (sb_0_3.view.loc (c : Thread nD τ) ↦[sb_0_3.view.set]{fullShare} fsb_0_3) ∗ (sb_1_0.view.loc (c : Thread nD τ) ↦[sb_1_0.view.set]{fullShare} fsb_1_0) ∗ (sb_1_1.view.loc (c : Thread nD τ) ↦[sb_1_1.view.set]{fullShare} fsb_1_1) ∗ (sb_1_2.view.loc (c : Thread nD τ) ↦[sb_1_2.view.set]{fullShare} fsb_1_2) ∗ (sb_1_3.view.loc (c : Thread nD τ) ↦[sb_1_3.view.set]{fullShare} fsb_1_3) ∗ (sb_2_0.view.loc (c : Thread nD τ) ↦[sb_2_0.view.set]{fullShare} fsb_2_0) ∗ (sb_2_1.view.loc (c : Thread nD τ) ↦[sb_2_1.view.set]{fullShare} fsb_2_1) ∗ (sb_2_2.view.loc (c : Thread nD τ) ↦[sb_2_2.view.set]{fullShare} fsb_2_2) ∗ (sb_2_3.view.loc (c : Thread nD τ) ↦[sb_2_3.view.set]{fullShare} fsb_2_3)) : sProp 𝕄)
      ⊢ scr c (Memref.whole cc0_scratch4 : Memref sig .tc .vmem S3x4x384x1024 .bf16) := by
  have h := slots_join_exists (Ix := Unit) (Name := ℕ) (U := UU) (Lvl := ℕ) (N := 4) (c := (c : Thread nD τ))
    (Memref.whole cc0_scratch4 : Memref sig .tc .vmem (SN 4) .bf16) squeezes_S1x1x384x1024_S384x1024 (View.set_whole _) fullShare
    (fun t => (![![fsb_0_0, fsb_0_1, fsb_0_2, fsb_0_3], ![fsb_1_0, fsb_1_1, fsb_1_2, fsb_1_3], ![fsb_2_0, fsb_2_1, fsb_2_2, fsb_2_3]] : Fin 3 → Fin 4 → Buf (Elt F) ((Memref.whole cc0_scratch4 : Memref sig .tc .vmem (SN 4) .bf16).view.loc (c : Thread nD τ))) t.1 t.2)
  rw [bigSep_univ_eq_bigSepL [(0, 0), (0, 1), (0, 2), (0, 3), (1, 0), (1, 1), (1, 2), (1, 3), (2, 0), (2, 1), (2, 2), (2, 3)] (by decide) (by decide)] at h
  exact h

theorem join_SR1 (c : Dev nD) (fr1_0_0 : Buf (Elt F) (r1_0_0.view.loc (c : Thread nD τ))) (fr1_0_1 : Buf (Elt F) (r1_0_1.view.loc (c : Thread nD τ))) (fr1_0_2 : Buf (Elt F) (r1_0_2.view.loc (c : Thread nD τ))) (fr1_0_3 : Buf (Elt F) (r1_0_3.view.loc (c : Thread nD τ))) (fr1_1_0 : Buf (Elt F) (r1_1_0.view.loc (c : Thread nD τ))) (fr1_1_1 : Buf (Elt F) (r1_1_1.view.loc (c : Thread nD τ))) (fr1_1_2 : Buf (Elt F) (r1_1_2.view.loc (c : Thread nD τ))) (fr1_1_3 : Buf (Elt F) (r1_1_3.view.loc (c : Thread nD τ))) (fr1_2_0 : Buf (Elt F) (r1_2_0.view.loc (c : Thread nD τ))) (fr1_2_1 : Buf (Elt F) (r1_2_1.view.loc (c : Thread nD τ))) (fr1_2_2 : Buf (Elt F) (r1_2_2.view.loc (c : Thread nD τ))) (fr1_2_3 : Buf (Elt F) (r1_2_3.view.loc (c : Thread nD τ))) :
    (iprop((r1_0_0.view.loc (c : Thread nD τ) ↦[r1_0_0.view.set]{fullShare} fr1_0_0) ∗ (r1_0_1.view.loc (c : Thread nD τ) ↦[r1_0_1.view.set]{fullShare} fr1_0_1) ∗ (r1_0_2.view.loc (c : Thread nD τ) ↦[r1_0_2.view.set]{fullShare} fr1_0_2) ∗ (r1_0_3.view.loc (c : Thread nD τ) ↦[r1_0_3.view.set]{fullShare} fr1_0_3) ∗ (r1_1_0.view.loc (c : Thread nD τ) ↦[r1_1_0.view.set]{fullShare} fr1_1_0) ∗ (r1_1_1.view.loc (c : Thread nD τ) ↦[r1_1_1.view.set]{fullShare} fr1_1_1) ∗ (r1_1_2.view.loc (c : Thread nD τ) ↦[r1_1_2.view.set]{fullShare} fr1_1_2) ∗ (r1_1_3.view.loc (c : Thread nD τ) ↦[r1_1_3.view.set]{fullShare} fr1_1_3) ∗ (r1_2_0.view.loc (c : Thread nD τ) ↦[r1_2_0.view.set]{fullShare} fr1_2_0) ∗ (r1_2_1.view.loc (c : Thread nD τ) ↦[r1_2_1.view.set]{fullShare} fr1_2_1) ∗ (r1_2_2.view.loc (c : Thread nD τ) ↦[r1_2_2.view.set]{fullShare} fr1_2_2) ∗ (r1_2_3.view.loc (c : Thread nD τ) ↦[r1_2_3.view.set]{fullShare} fr1_2_3)) : sProp 𝕄)
      ⊢ scr c (Memref.whole cc0_scratch5 : Memref sig .tc .vmem S3x4x384x1024 .bf16) := by
  have h := slots_join_exists (Ix := Unit) (Name := ℕ) (U := UU) (Lvl := ℕ) (N := 4) (c := (c : Thread nD τ))
    (Memref.whole cc0_scratch5 : Memref sig .tc .vmem (SN 4) .bf16) squeezes_S1x1x384x1024_S384x1024 (View.set_whole _) fullShare
    (fun t => (![![fr1_0_0, fr1_0_1, fr1_0_2, fr1_0_3], ![fr1_1_0, fr1_1_1, fr1_1_2, fr1_1_3], ![fr1_2_0, fr1_2_1, fr1_2_2, fr1_2_3]] : Fin 3 → Fin 4 → Buf (Elt F) ((Memref.whole cc0_scratch5 : Memref sig .tc .vmem (SN 4) .bf16).view.loc (c : Thread nD τ))) t.1 t.2)
  rw [bigSep_univ_eq_bigSepL [(0, 0), (0, 1), (0, 2), (0, 3), (1, 0), (1, 1), (1, 2), (1, 3), (2, 0), (2, 1), (2, 2), (2, 3)] (by decide) (by decide)] at h
  exact h

theorem join_SR2 (c : Dev nD) (fr2_0_0 : Buf (Elt F) (r2_0_0.view.loc (c : Thread nD τ))) (fr2_0_1 : Buf (Elt F) (r2_0_1.view.loc (c : Thread nD τ))) (fr2_1_0 : Buf (Elt F) (r2_1_0.view.loc (c : Thread nD τ))) (fr2_1_1 : Buf (Elt F) (r2_1_1.view.loc (c : Thread nD τ))) (fr2_2_0 : Buf (Elt F) (r2_2_0.view.loc (c : Thread nD τ))) (fr2_2_1 : Buf (Elt F) (r2_2_1.view.loc (c : Thread nD τ))) :
    (iprop((r2_0_0.view.loc (c : Thread nD τ) ↦[r2_0_0.view.set]{fullShare} fr2_0_0) ∗ (r2_0_1.view.loc (c : Thread nD τ) ↦[r2_0_1.view.set]{fullShare} fr2_0_1) ∗ (r2_1_0.view.loc (c : Thread nD τ) ↦[r2_1_0.view.set]{fullShare} fr2_1_0) ∗ (r2_1_1.view.loc (c : Thread nD τ) ↦[r2_1_1.view.set]{fullShare} fr2_1_1) ∗ (r2_2_0.view.loc (c : Thread nD τ) ↦[r2_2_0.view.set]{fullShare} fr2_2_0) ∗ (r2_2_1.view.loc (c : Thread nD τ) ↦[r2_2_1.view.set]{fullShare} fr2_2_1)) : sProp 𝕄)
      ⊢ scr c (Memref.whole cc0_scratch6 : Memref sig .tc .vmem S3x2x384x1024 .bf16) := by
  have h := slots_join_exists (Ix := Unit) (Name := ℕ) (U := UU) (Lvl := ℕ) (N := 2) (c := (c : Thread nD τ))
    (Memref.whole cc0_scratch6 : Memref sig .tc .vmem (SN 2) .bf16) squeezes_S1x1x384x1024_S384x1024 (View.set_whole _) fullShare
    (fun t => (![![fr2_0_0, fr2_0_1], ![fr2_1_0, fr2_1_1], ![fr2_2_0, fr2_2_1]] : Fin 3 → Fin 2 → Buf (Elt F) ((Memref.whole cc0_scratch6 : Memref sig .tc .vmem (SN 2) .bf16).view.loc (c : Thread nD τ))) t.1 t.2)
  rw [bigSep_univ_eq_bigSepL [(0, 0), (0, 1), (1, 0), (1, 1), (2, 0), (2, 1)] (by decide) (by decide)] at h
  exact h

theorem join_SR3 (c : Dev nD) (fr3_0 : Buf (Elt F) (r3_0.view.loc (c : Thread nD τ))) (fr3_1 : Buf (Elt F) (r3_1.view.loc (c : Thread nD τ))) (fr3_2 : Buf (Elt F) (r3_2.view.loc (c : Thread nD τ))) :
    (iprop((r3_0.view.loc (c : Thread nD τ) ↦[r3_0.view.set]{fullShare} fr3_0) ∗ (r3_1.view.loc (c : Thread nD τ) ↦[r3_1.view.set]{fullShare} fr3_1) ∗ (r3_2.view.loc (c : Thread nD τ) ↦[r3_2.view.set]{fullShare} fr3_2)) : sProp 𝕄)
      ⊢ scr c (Memref.whole cc0_scratch7 : Memref sig .tc .vmem S3x1x384x1024 .bf16) := by
  have h := slots_join_exists (Ix := Unit) (Name := ℕ) (U := UU) (Lvl := ℕ) (N := 1) (c := (c : Thread nD τ))
    (Memref.whole cc0_scratch7 : Memref sig .tc .vmem (SN 1) .bf16) squeezes_S1x1x384x1024_S384x1024 (View.set_whole _) fullShare
    (fun t => (![![fr3_0], ![fr3_1], ![fr3_2]] : Fin 3 → Fin 1 → Buf (Elt F) ((Memref.whole cc0_scratch7 : Memref sig .tc .vmem (SN 1) .bf16).view.loc (c : Thread nD τ))) t.1 t.2)
  rw [bigSep_univ_eq_bigSepL [(0, 0), (1, 0), (2, 0)] (by decide) (by decide)] at h
  exact h

omit [FloatOps F] in
theorem closed_intro (c : Dev nD) :
    (iprop((sendZero (F := F) c)
        ∗ (recvZero (F := F) c)) : sProp 𝕄)
      ⊢ iprop((bigSep Finset.univ fun k : Fin 21 => semVal (sCell c k) 0) ∗ bigSep Finset.univ fun k : Fin 21 => semVal (rCell c k) 0) := by
  unfold sendZero recvZero
  rw [bigSep_fin21, bigSep_fin21]
  exact .rfl

theorem bodyPost_intro (m : (ℓ : Loc nD τ sig) → Buf (Elt F) ℓ) (ρ : Dev nD → PrngReg) (c : Dev nD) (W : Waits sig Unit)
    (fHo : Bf (F := F) c (Memref.whole cc0_stg0_0)) (hout : fHo = outBuf m c)
    (fH0 : Bf (F := F) c (Memref.whole cc0_scratch0)) (fH1 : Bf (F := F) c (Memref.whole cc0_scratch1))
    (fH2 : Bf (F := F) c (Memref.whole cc0_scratch2)) (fH3 : Bf (F := F) c (Memref.whole cc0_scratch3))
    (fsb_0_0 : Buf (Elt F) (sb_0_0.view.loc (c : Thread nD τ))) (fsb_0_1 : Buf (Elt F) (sb_0_1.view.loc (c : Thread nD τ))) (fsb_0_2 : Buf (Elt F) (sb_0_2.view.loc (c : Thread nD τ))) (fsb_0_3 : Buf (Elt F) (sb_0_3.view.loc (c : Thread nD τ))) (fsb_1_0 : Buf (Elt F) (sb_1_0.view.loc (c : Thread nD τ))) (fsb_1_1 : Buf (Elt F) (sb_1_1.view.loc (c : Thread nD τ))) (fsb_1_2 : Buf (Elt F) (sb_1_2.view.loc (c : Thread nD τ))) (fsb_1_3 : Buf (Elt F) (sb_1_3.view.loc (c : Thread nD τ))) (fsb_2_0 : Buf (Elt F) (sb_2_0.view.loc (c : Thread nD τ))) (fsb_2_1 : Buf (Elt F) (sb_2_1.view.loc (c : Thread nD τ))) (fsb_2_2 : Buf (Elt F) (sb_2_2.view.loc (c : Thread nD τ))) (fsb_2_3 : Buf (Elt F) (sb_2_3.view.loc (c : Thread nD τ)))
    (fr1_0_0 : Buf (Elt F) (r1_0_0.view.loc (c : Thread nD τ))) (fr1_0_1 : Buf (Elt F) (r1_0_1.view.loc (c : Thread nD τ))) (fr1_0_2 : Buf (Elt F) (r1_0_2.view.loc (c : Thread nD τ))) (fr1_0_3 : Buf (Elt F) (r1_0_3.view.loc (c : Thread nD τ))) (fr1_1_0 : Buf (Elt F) (r1_1_0.view.loc (c : Thread nD τ))) (fr1_1_1 : Buf (Elt F) (r1_1_1.view.loc (c : Thread nD τ))) (fr1_1_2 : Buf (Elt F) (r1_1_2.view.loc (c : Thread nD τ))) (fr1_1_3 : Buf (Elt F) (r1_1_3.view.loc (c : Thread nD τ))) (fr1_2_0 : Buf (Elt F) (r1_2_0.view.loc (c : Thread nD τ))) (fr1_2_1 : Buf (Elt F) (r1_2_1.view.loc (c : Thread nD τ))) (fr1_2_2 : Buf (Elt F) (r1_2_2.view.loc (c : Thread nD τ))) (fr1_2_3 : Buf (Elt F) (r1_2_3.view.loc (c : Thread nD τ)))
    (fr2_0_0 : Buf (Elt F) (r2_0_0.view.loc (c : Thread nD τ))) (fr2_0_1 : Buf (Elt F) (r2_0_1.view.loc (c : Thread nD τ))) (fr2_1_0 : Buf (Elt F) (r2_1_0.view.loc (c : Thread nD τ))) (fr2_1_1 : Buf (Elt F) (r2_1_1.view.loc (c : Thread nD τ))) (fr2_2_0 : Buf (Elt F) (r2_2_0.view.loc (c : Thread nD τ))) (fr2_2_1 : Buf (Elt F) (r2_2_1.view.loc (c : Thread nD τ)))
    (fr3_0 : Buf (Elt F) (r3_0.view.loc (c : Thread nD τ))) (fr3_1 : Buf (Elt F) (r3_1.view.loc (c : Thread nD τ))) (fr3_2 : Buf (Elt F) (r3_2.view.loc (c : Thread nD τ))) :
    (iprop((ptM c (Memref.whole main_arg0) (m ((c : Thread nD τ).loc main_arg0)) ∗ ptM c (Memref.whole main_arg1) (m ((c : Thread nD τ).loc main_arg1))
          ∗ ptM c (Memref.whole cc0_stg0_0) fHo ∗ ptM c (Memref.whole cc0_scratch0) fH0 ∗ ptM c (Memref.whole cc0_scratch1) fH1
          ∗ ptM c (Memref.whole cc0_scratch2) fH2 ∗ ptM c (Memref.whole cc0_scratch3) fH3)
        ∗ (((sb_0_0.view.loc (c : Thread nD τ) ↦[sb_0_0.view.set]{fullShare} fsb_0_0) ∗ (sb_0_1.view.loc (c : Thread nD τ) ↦[sb_0_1.view.set]{fullShare} fsb_0_1) ∗ (sb_0_2.view.loc (c : Thread nD τ) ↦[sb_0_2.view.set]{fullShare} fsb_0_2) ∗ (sb_0_3.view.loc (c : Thread nD τ) ↦[sb_0_3.view.set]{fullShare} fsb_0_3) ∗ (sb_1_0.view.loc (c : Thread nD τ) ↦[sb_1_0.view.set]{fullShare} fsb_1_0) ∗ (sb_1_1.view.loc (c : Thread nD τ) ↦[sb_1_1.view.set]{fullShare} fsb_1_1) ∗ (sb_1_2.view.loc (c : Thread nD τ) ↦[sb_1_2.view.set]{fullShare} fsb_1_2) ∗ (sb_1_3.view.loc (c : Thread nD τ) ↦[sb_1_3.view.set]{fullShare} fsb_1_3) ∗ (sb_2_0.view.loc (c : Thread nD τ) ↦[sb_2_0.view.set]{fullShare} fsb_2_0) ∗ (sb_2_1.view.loc (c : Thread nD τ) ↦[sb_2_1.view.set]{fullShare} fsb_2_1) ∗ (sb_2_2.view.loc (c : Thread nD τ) ↦[sb_2_2.view.set]{fullShare} fsb_2_2) ∗ (sb_2_3.view.loc (c : Thread nD τ) ↦[sb_2_3.view.set]{fullShare} fsb_2_3))
          ∗ ((r1_0_0.view.loc (c : Thread nD τ) ↦[r1_0_0.view.set]{fullShare} fr1_0_0) ∗ (r1_0_1.view.loc (c : Thread nD τ) ↦[r1_0_1.view.set]{fullShare} fr1_0_1) ∗ (r1_0_2.view.loc (c : Thread nD τ) ↦[r1_0_2.view.set]{fullShare} fr1_0_2) ∗ (r1_0_3.view.loc (c : Thread nD τ) ↦[r1_0_3.view.set]{fullShare} fr1_0_3) ∗ (r1_1_0.view.loc (c : Thread nD τ) ↦[r1_1_0.view.set]{fullShare} fr1_1_0) ∗ (r1_1_1.view.loc (c : Thread nD τ) ↦[r1_1_1.view.set]{fullShare} fr1_1_1) ∗ (r1_1_2.view.loc (c : Thread nD τ) ↦[r1_1_2.view.set]{fullShare} fr1_1_2) ∗ (r1_1_3.view.loc (c : Thread nD τ) ↦[r1_1_3.view.set]{fullShare} fr1_1_3) ∗ (r1_2_0.view.loc (c : Thread nD τ) ↦[r1_2_0.view.set]{fullShare} fr1_2_0) ∗ (r1_2_1.view.loc (c : Thread nD τ) ↦[r1_2_1.view.set]{fullShare} fr1_2_1) ∗ (r1_2_2.view.loc (c : Thread nD τ) ↦[r1_2_2.view.set]{fullShare} fr1_2_2) ∗ (r1_2_3.view.loc (c : Thread nD τ) ↦[r1_2_3.view.set]{fullShare} fr1_2_3))
          ∗ ((r2_0_0.view.loc (c : Thread nD τ) ↦[r2_0_0.view.set]{fullShare} fr2_0_0) ∗ (r2_0_1.view.loc (c : Thread nD τ) ↦[r2_0_1.view.set]{fullShare} fr2_0_1) ∗ (r2_1_0.view.loc (c : Thread nD τ) ↦[r2_1_0.view.set]{fullShare} fr2_1_0) ∗ (r2_1_1.view.loc (c : Thread nD τ) ↦[r2_1_1.view.set]{fullShare} fr2_1_1) ∗ (r2_2_0.view.loc (c : Thread nD τ) ↦[r2_2_0.view.set]{fullShare} fr2_2_0) ∗ (r2_2_1.view.loc (c : Thread nD τ) ↦[r2_2_1.view.set]{fullShare} fr2_2_1))
          ∗ ((r3_0.view.loc (c : Thread nD τ) ↦[r3_0.view.set]{fullShare} fr3_0) ∗ (r3_1.view.loc (c : Thread nD τ) ↦[r3_1.view.set]{fullShare} fr3_1) ∗ (r3_2.view.loc (c : Thread nD τ) ↦[r3_2.view.set]{fullShare} fr3_2)))
        ∗ (semVal ((c : Thread nD τ), .dma 1) 0 ∗ semVal ((c : Thread nD τ), .dma 2) 0 ∗ semVal ((c : Thread nD τ), .dma 3) 0)
        ∗ ((sendZero (F := F) c)
          ∗ (recvZero (F := F) c))
        ∗ owes (c : Thread nD τ) (0 : CellTallies nD τ sig Unit) W) : sProp 𝕄)
      ⊢ bodyPost m ρ c := by
  subst hout
  unfold bodyPost Φ₁ scratch argPts Dat.owesAt Pipeline.owesWithin
  iintro ⟨⟨Ha0, Ha1, Ho, H0, H1, H2, H3⟩, ⟨S4, S5, S6, S7⟩, HL, HC, HO⟩
  ihave J4 := (join_SB c fsb_0_0 fsb_0_1 fsb_0_2 fsb_0_3 fsb_1_0 fsb_1_1 fsb_1_2 fsb_1_3 fsb_2_0 fsb_2_1 fsb_2_2 fsb_2_3) $$ S4
  ihave J5 := (join_SR1 c fr1_0_0 fr1_0_1 fr1_0_2 fr1_0_3 fr1_1_0 fr1_1_1 fr1_1_2 fr1_1_3 fr1_2_0 fr1_2_1 fr1_2_2 fr1_2_3) $$ S5
  ihave J6 := (join_SR2 c fr2_0_0 fr2_0_1 fr2_1_0 fr2_1_1 fr2_2_0 fr2_2_1) $$ S6
  ihave J7 := (join_SR3 c fr3_0 fr3_1 fr3_2) $$ S7
  ihave HC' := (closed_intro (F := F) c) $$ HC
  icases HC' with ⟨HS, HR⟩
  isplitl [Ha0 Ha1 H0 H1 H2 H3 J4 J5 J6 J7 HL HS HR]
  · isplitl [H0 H1 H2 H3 J4 J5 J6 J7]
    · unfold scr
      isplitl [H0]; · iexists fH0; iexact H0
      isplitl [H1]; · iexists fH1; iexact H1
      isplitl [H2]; · iexists fH2; iexact H2
      isplitl [H3]; · iexists fH3; iexact H3
      isplitl [J4]; · iexact J4
      isplitl [J5]; · iexact J5
      isplitl [J6]; · iexact J6
      iexact J7
    isplitl [HL]; · iapply (Entails.of_eq (show iprop(semVal ((c : Thread nD τ), .dma 1) 0 ∗ semVal ((c : Thread nD τ), .dma 2) 0 ∗ semVal ((c : Thread nD τ), .dma 3) 0) = (localSems0 c : sProp 𝕄) from rfl)); iexact HL
    isplitl [HS]; · iexact HS
    isplitl [HR]; · iexact HR
    isplitl [Ha0] <;> iassumption
  isplitl [HO]
  · rw [show (dats (Rd m) m ρ 0 c).owed (t0_0 : Fin cfg0.N).succ = 0 from rfl]
    iexists W
    isplitr; · ipureintro; exact fun _ _ => Or.inl trivial
    iexact HO
  iexists _
  isplitr; · (ipureintro; rfl)
  iexact Ho

/-- info: 'Cert.KernelIdeal.Hand.bodyPost_intro' depends on axioms: [propext, Classical.choice, Quot.sound] -/
#guard_msgs in #print axioms bodyPost_intro

end Cert.KernelIdeal.Hand

end
-- ==== Proof.BodyClose.lean ====
import proofs.«900896_g7700000000000897_dist_matmul_mk_i_outk_m3072_n3072_k1536_v7x_i8_bf16_1_alg».proof.Proof.BodyPre
import Idealize.ShloMosaic.Lib.Pipeline.Value
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem close1 (m : (ℓ : Loc nD τ sig) → Buf (Elt F) ℓ) (κ : ℕ) (g : GSem nD τ sig) :
    ⊢ (iprop(cellInv ER (Rd m) κ g -∗ atPos ER g 1 ∅ 0 -∗ |={Set.univ}=> semVal g 0) : sProp 𝕄) := by
  iintro HI HA
  iapply (Rounds.cell_close ER (Rd m) (Set.mem_univ κ) (fun h => h) (R := 1) (duties_later m g))
  isplitl [HI]
  · iexact HI
  · iexact HA

set_option maxHeartbeats 4000000 in
theorem close_all (m : (ℓ : Loc nD τ sig) → Buf (Elt F) ℓ) (K : Dev nD × Fin 43 → ℕ) (c : Dev nD) :
    (iprop((invs m K c)
        ∗ (sendPos (F := F) 1 c)
        ∗ (recvPos (F := F) 1 c)) : sProp 𝕄)
      ⊢ |={Set.univ}=> iprop((sendZero (F := F) c)
          ∗ (recvZero (F := F) c)) := by
  unfold invs sendPos recvPos
  iintro ⟨⟨-, -, -, -, #I4, #I16, -, #I5, #I17, -, #I6, #I18, -, #I7, #I19, -, #I8, #I20, -, #I9, #I21, -, #I10, #I22, -, #I11, #I23, -, #I12, #I24, -, #I13, #I25, -, #I14, #I26, -, #I15, #I27, -, #I28, #I34, -, #I29, #I35, -, #I30, #I36, -, #I31, #I37, -, #I32, #I38, -, #I33, #I39, -, #I40, #I43, -, #I41, #I44, -, #I42, #I45, -⟩, ⟨A4, A5, A6, A7, A8, A9, A10, A11, A12, A13, A14, A15, A28, A29, A30, A31, A32, A33, A40, A41, A42⟩, ⟨A16, A17, A18, A19, A20, A21, A22, A23, A24, A25, A26, A27, A34, A35, A36, A37, A38, A39, A43, A44, A45⟩⟩
  imod (close1 m _ _) $$ I4 A4 with Z4
  imod (close1 m _ _) $$ I5 A5 with Z5
  imod (close1 m _ _) $$ I6 A6 with Z6
  imod (close1 m _ _) $$ I7 A7 with Z7
  imod (close1 m _ _) $$ I8 A8 with Z8
  imod (close1 m _ _) $$ I9 A9 with Z9
  imod (close1 m _ _) $$ I10 A10 with Z10
  imod (close1 m _ _) $$ I11 A11 with Z11
  imod (close1 m _ _) $$ I12 A12 with Z12
  imod (close1 m _ _) $$ I13 A13 with Z13
  imod (close1 m _ _) $$ I14 A14 with Z14
  imod (close1 m _ _) $$ I15 A15 with Z15
  imod (close1 m _ _) $$ I28 A28 with Z28
  imod (close1 m _ _) $$ I29 A29 with Z29
  imod (close1 m _ _) $$ I30 A30 with Z30
  imod (close1 m _ _) $$ I31 A31 with Z31
  imod (close1 m _ _) $$ I32 A32 with Z32
  imod (close1 m _ _) $$ I33 A33 with Z33
  imod (close1 m _ _) $$ I40 A40 with Z40
  imod (close1 m _ _) $$ I41 A41 with Z41
  imod (close1 m _ _) $$ I42 A42 with Z42
  imod (close1 m _ _) $$ I16 A16 with Z16
  imod (close1 m _ _) $$ I17 A17 with Z17
  imod (close1 m _ _) $$ I18 A18 with Z18
  imod (close1 m _ _) $$ I19 A19 with Z19
  imod (close1 m _ _) $$ I20 A20 with Z20
  imod (close1 m _ _) $$ I21 A21 with Z21
  imod (close1 m _ _) $$ I22 A22 with Z22
  imod (close1 m _ _) $$ I23 A23 with Z23
  imod (close1 m _ _) $$ I24 A24 with Z24
  imod (close1 m _ _) $$ I25 A25 with Z25
  imod (close1 m _ _) $$ I26 A26 with Z26
  imod (close1 m _ _) $$ I27 A27 with Z27
  imod (close1 m _ _) $$ I34 A34 with Z34
  imod (close1 m _ _) $$ I35 A35 with Z35
  imod (close1 m _ _) $$ I36 A36 with Z36
  imod (close1 m _ _) $$ I37 A37 with Z37
  imod (close1 m _ _) $$ I38 A38 with Z38
  imod (close1 m _ _) $$ I39 A39 with Z39
  imod (close1 m _ _) $$ I43 A43 with Z43
  imod (close1 m _ _) $$ I44 A44 with Z44
  imod (close1 m _ _) $$ I45 A45 with Z45
  imodintro
  unfold sendZero recvZero
  iframe

/-- info: 'Cert.KernelIdeal.Hand.close_all' depends on axioms: [propext, Classical.choice, Quot.sound] -/
#guard_msgs in #print axioms close_all

end Cert.KernelIdeal.Hand

end
-- ==== Proof.BodyFinish.lean ====
import proofs.«900896_g7700000000000897_dist_matmul_mk_i_outk_m3072_n3072_k1536_v7x_i8_bf16_1_alg».proof.Proof.BodyEnd
import proofs.«900896_g7700000000000897_dist_matmul_mk_i_outk_m3072_n3072_k1536_v7x_i8_bf16_1_alg».proof.Proof.BodyClose
import Idealize.ShloMosaic.Lib.Pipeline.Value
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

set_option maxHeartbeats 2000000 in
theorem finish_wp (m : (ℓ : Loc nD τ sig) → Buf (Elt F) ℓ) (ρ : Dev nD → PrngReg) (c : Dev nD) (K : Dev nD × Fin 43 → ℕ) {W : Waits sig Unit}
    {fHo : Bf (F := F) c (Memref.whole cc0_stg0_0)}
    {fH0 : Bf (F := F) c (Memref.whole cc0_scratch0)} {fH1 : Bf (F := F) c (Memref.whole cc0_scratch1)}
    {fH2 : Bf (F := F) c (Memref.whole cc0_scratch2)} {fH3 : Bf (F := F) c (Memref.whole cc0_scratch3)}
    {fsb_0_0 : Buf (Elt F) (sb_0_0.view.loc (c : Thread nD τ))} {fsb_0_1 : Buf (Elt F) (sb_0_1.view.loc (c : Thread nD τ))} {fsb_0_2 : Buf (Elt F) (sb_0_2.view.loc (c : Thread nD τ))} {fsb_0_3 : Buf (Elt F) (sb_0_3.view.loc (c : Thread nD τ))} {fsb_1_0 : Buf (Elt F) (sb_1_0.view.loc (c : Thread nD τ))} {fsb_1_1 : Buf (Elt F) (sb_1_1.view.loc (c : Thread nD τ))} {fsb_1_2 : Buf (Elt F) (sb_1_2.view.loc (c : Thread nD τ))} {fsb_1_3 : Buf (Elt F) (sb_1_3.view.loc (c : Thread nD τ))} {fsb_2_0 : Buf (Elt F) (sb_2_0.view.loc (c : Thread nD τ))} {fsb_2_1 : Buf (Elt F) (sb_2_1.view.loc (c : Thread nD τ))} {fsb_2_2 : Buf (Elt F) (sb_2_2.view.loc (c : Thread nD τ))} {fsb_2_3 : Buf (Elt F) (sb_2_3.view.loc (c : Thread nD τ))}
    {fr1_0_0 : Buf (Elt F) (r1_0_0.view.loc (c : Thread nD τ))} {fr1_0_1 : Buf (Elt F) (r1_0_1.view.loc (c : Thread nD τ))} {fr1_0_2 : Buf (Elt F) (r1_0_2.view.loc (c : Thread nD τ))} {fr1_0_3 : Buf (Elt F) (r1_0_3.view.loc (c : Thread nD τ))} {fr1_1_0 : Buf (Elt F) (r1_1_0.view.loc (c : Thread nD τ))} {fr1_1_1 : Buf (Elt F) (r1_1_1.view.loc (c : Thread nD τ))} {fr1_1_2 : Buf (Elt F) (r1_1_2.view.loc (c : Thread nD τ))} {fr1_1_3 : Buf (Elt F) (r1_1_3.view.loc (c : Thread nD τ))} {fr1_2_0 : Buf (Elt F) (r1_2_0.view.loc (c : Thread nD τ))} {fr1_2_1 : Buf (Elt F) (r1_2_1.view.loc (c : Thread nD τ))} {fr1_2_2 : Buf (Elt F) (r1_2_2.view.loc (c : Thread nD τ))} {fr1_2_3 : Buf (Elt F) (r1_2_3.view.loc (c : Thread nD τ))}
    {fr2_0_0 : Buf (Elt F) (r2_0_0.view.loc (c : Thread nD τ))} {fr2_0_1 : Buf (Elt F) (r2_0_1.view.loc (c : Thread nD τ))} {fr2_1_0 : Buf (Elt F) (r2_1_0.view.loc (c : Thread nD τ))} {fr2_1_1 : Buf (Elt F) (r2_1_1.view.loc (c : Thread nD τ))} {fr2_2_0 : Buf (Elt F) (r2_2_0.view.loc (c : Thread nD τ))} {fr2_2_1 : Buf (Elt F) (r2_2_1.view.loc (c : Thread nD τ))}
    {fr3_0 : Buf (Elt F) (r3_0.view.loc (c : Thread nD τ))} {fr3_1 : Buf (Elt F) (r3_1.view.loc (c : Thread nD τ))} {fr3_2 : Buf (Elt F) (r3_2.view.loc (c : Thread nD τ))} :
    (iprop(⌜fHo = outBuf m c⌝ ∗ (invs m K c)
        ∗ (sendPos (F := F) 1 c)
        ∗ (recvPos (F := F) 1 c)
        ∗ (ptM c (Memref.whole main_arg0) (m ((c : Thread nD τ).loc main_arg0)) ∗ ptM c (Memref.whole main_arg1) (m ((c : Thread nD τ).loc main_arg1))
          ∗ ptM c (Memref.whole cc0_stg0_0) fHo ∗ ptM c (Memref.whole cc0_scratch0) fH0 ∗ ptM c (Memref.whole cc0_scratch1) fH1
          ∗ ptM c (Memref.whole cc0_scratch2) fH2 ∗ ptM c (Memref.whole cc0_scratch3) fH3)
        ∗ (((sb_0_0.view.loc (c : Thread nD τ) ↦[sb_0_0.view.set]{fullShare} fsb_0_0) ∗ (sb_0_1.view.loc (c : Thread nD τ) ↦[sb_0_1.view.set]{fullShare} fsb_0_1) ∗ (sb_0_2.view.loc (c : Thread nD τ) ↦[sb_0_2.view.set]{fullShare} fsb_0_2) ∗ (sb_0_3.view.loc (c : Thread nD τ) ↦[sb_0_3.view.set]{fullShare} fsb_0_3) ∗ (sb_1_0.view.loc (c : Thread nD τ) ↦[sb_1_0.view.set]{fullShare} fsb_1_0) ∗ (sb_1_1.view.loc (c : Thread nD τ) ↦[sb_1_1.view.set]{fullShare} fsb_1_1) ∗ (sb_1_2.view.loc (c : Thread nD τ) ↦[sb_1_2.view.set]{fullShare} fsb_1_2) ∗ (sb_1_3.view.loc (c : Thread nD τ) ↦[sb_1_3.view.set]{fullShare} fsb_1_3) ∗ (sb_2_0.view.loc (c : Thread nD τ) ↦[sb_2_0.view.set]{fullShare} fsb_2_0) ∗ (sb_2_1.view.loc (c : Thread nD τ) ↦[sb_2_1.view.set]{fullShare} fsb_2_1) ∗ (sb_2_2.view.loc (c : Thread nD τ) ↦[sb_2_2.view.set]{fullShare} fsb_2_2) ∗ (sb_2_3.view.loc (c : Thread nD τ) ↦[sb_2_3.view.set]{fullShare} fsb_2_3))
          ∗ ((r1_0_0.view.loc (c : Thread nD τ) ↦[r1_0_0.view.set]{fullShare} fr1_0_0) ∗ (r1_0_1.view.loc (c : Thread nD τ) ↦[r1_0_1.view.set]{fullShare} fr1_0_1) ∗ (r1_0_2.view.loc (c : Thread nD τ) ↦[r1_0_2.view.set]{fullShare} fr1_0_2) ∗ (r1_0_3.view.loc (c : Thread nD τ) ↦[r1_0_3.view.set]{fullShare} fr1_0_3) ∗ (r1_1_0.view.loc (c : Thread nD τ) ↦[r1_1_0.view.set]{fullShare} fr1_1_0) ∗ (r1_1_1.view.loc (c : Thread nD τ) ↦[r1_1_1.view.set]{fullShare} fr1_1_1) ∗ (r1_1_2.view.loc (c : Thread nD τ) ↦[r1_1_2.view.set]{fullShare} fr1_1_2) ∗ (r1_1_3.view.loc (c : Thread nD τ) ↦[r1_1_3.view.set]{fullShare} fr1_1_3) ∗ (r1_2_0.view.loc (c : Thread nD τ) ↦[r1_2_0.view.set]{fullShare} fr1_2_0) ∗ (r1_2_1.view.loc (c : Thread nD τ) ↦[r1_2_1.view.set]{fullShare} fr1_2_1) ∗ (r1_2_2.view.loc (c : Thread nD τ) ↦[r1_2_2.view.set]{fullShare} fr1_2_2) ∗ (r1_2_3.view.loc (c : Thread nD τ) ↦[r1_2_3.view.set]{fullShare} fr1_2_3))
          ∗ ((r2_0_0.view.loc (c : Thread nD τ) ↦[r2_0_0.view.set]{fullShare} fr2_0_0) ∗ (r2_0_1.view.loc (c : Thread nD τ) ↦[r2_0_1.view.set]{fullShare} fr2_0_1) ∗ (r2_1_0.view.loc (c : Thread nD τ) ↦[r2_1_0.view.set]{fullShare} fr2_1_0) ∗ (r2_1_1.view.loc (c : Thread nD τ) ↦[r2_1_1.view.set]{fullShare} fr2_1_1) ∗ (r2_2_0.view.loc (c : Thread nD τ) ↦[r2_2_0.view.set]{fullShare} fr2_2_0) ∗ (r2_2_1.view.loc (c : Thread nD τ) ↦[r2_2_1.view.set]{fullShare} fr2_2_1))
          ∗ ((r3_0.view.loc (c : Thread nD τ) ↦[r3_0.view.set]{fullShare} fr3_0) ∗ (r3_1.view.loc (c : Thread nD τ) ↦[r3_1.view.set]{fullShare} fr3_1) ∗ (r3_2.view.loc (c : Thread nD τ) ↦[r3_2.view.set]{fullShare} fr3_2)))
        ∗ (semVal ((c : Thread nD τ), .dma 1) 0 ∗ semVal ((c : Thread nD τ), .dma 2) 0 ∗ semVal ((c : Thread nD τ), .dma 3) 0)
        ∗ owes (c : Thread nD τ) (0 : CellTallies nD τ sig Unit) W) : sProp 𝕄)
      ⊢ wp frame (wpE (defs₀ (F := F)) 𝒱₀ c none) Set.univ (Prog.ret PUnit.unit) (fun _ => bodyPost m ρ c) := by
  rw [wp_ret]
  iintro ⟨%hout, HI, HS, HR, HB, HSl, HL, HO⟩
  imod (close_all m K c) $$ [HI HS HR] with HC
  · isplitl [HI]; · iexact HI
    isplitl [HS] <;> iassumption
  imodintro
  iapply (bodyPost_intro m ρ c W fHo hout fH0 fH1 fH2 fH3 fsb_0_0 fsb_0_1 fsb_0_2 fsb_0_3 fsb_1_0 fsb_1_1 fsb_1_2 fsb_1_3 fsb_2_0 fsb_2_1 fsb_2_2 fsb_2_3 fr1_0_0 fr1_0_1 fr1_0_2 fr1_0_3 fr1_1_0 fr1_1_1 fr1_1_2 fr1_1_3 fr1_2_0 fr1_2_1 fr1_2_2 fr1_2_3 fr2_0_0 fr2_0_1 fr2_1_0 fr2_1_1 fr2_2_0 fr2_2_1 fr3_0 fr3_1 fr3_2)
  iframe

/-- info: 'Cert.KernelIdeal.Hand.finish_wp' depends on axioms: [propext, Classical.choice, Quot.sound] -/
#guard_msgs in #print axioms finish_wp

end Cert.KernelIdeal.Hand

end
-- ==== Proof.BodyGlue.lean ====
import proofs.«900896_g7700000000000897_dist_matmul_mk_i_outk_m3072_n3072_k1536_v7x_i8_bf16_1_alg».proof.Proof.BodyPre
import proofs.«900896_g7700000000000897_dist_matmul_mk_i_outk_m3072_n3072_k1536_v7x_i8_bf16_1_alg».proof.Proof.Slots
import Idealize.ShloMosaic.Lib.Pipeline.Value
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

theorem arrAt_out (Rd : Schedule (GSem nD τ sig) DT (MT nD τ sig Unit (Elt F) ℕ UU ℕ)) (m : (ℓ : Loc nD τ sig) → Buf (Elt F) ℓ) (ρ : Dev nD → PrngReg) (c : Dev nD) :
    (dats Rd m ρ 0 c).arrAt (0 : Fin 1) cfg0.N = outBuf m c := by
  rw [show cfg0.N = (t0_0 : Fin cfg0.N).val + 1 from rfl, Dat.arrAt_succ]
  rw [if_pos (show (cfg0.win (0 : Fin 1)).flush t0_0 = true from by decide)]
  exact Memref.write_access_unit_zero_univ (Elt F) main_v1 (funext fun a => Nat.zero_mul _) _ _ _

theorem hrun_of_body
    (hbody : ∀ (m : (ℓ : Loc nD τ sig) → Buf (Elt F) ℓ) (ρ : Dev nD → PrngReg) (c : Dev nD),
      BodyObligation (dats (Rd m) m ρ 0 c) (defs₀ (F := F)) 𝒱₀ () Set.univ)
    (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v1) = outBuf m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run (defs (F := F)) _ _).mono (fun r h c => ⟨((h c).1 (0 : Fin 1)).trans (arrAt_out (Rd m) m ρ c), (h c).2⟩)
    (run_main (Rd m) m ρ (hbody m ρ))

/-- info: 'Cert.KernelIdeal.Hand.hrun_of_body' depends on axioms: [propext, Classical.choice, Quot.sound] -/
#guard_msgs in #print axioms hrun_of_body

omit [FloatOps F] in
theorem owns_whole_eq' (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem pand {R A B : sProp 𝕄} [BI.Persistent R] (h1 : R ⊢ A) (h2 : R ⊢ B) : R ⊢ iprop(A ∗ B) := by
  iintro #H
  isplitr
  · iapply h1; iexact H
  · iapply h2; iexact H

theorem invs_intro (m : (ℓ : Loc nD τ sig) → Buf (Elt F) ℓ) (K : Dev nD × Fin 43 → ℕ) (c : Dev nD) :
    records (Rd m) K ⊢ iprop(invs m K c) :=
  by unfold invs; exact pand (inv_bar (Rd m) K c) (pand (inv_bar (Rd m) K (px 1 c)) (pand (inv_bar (Rd m) K (px 3 c)) (pand (inv_bar (Rd m) K (px 4 c)) (pand (inv_send (Rd m) K c 0) (pand (inv_recv (Rd m) K c 0) (pand (inv_recv (Rd m) K (px 4 c) 0) (pand (inv_send (Rd m) K c 1) (pand (inv_recv (Rd m) K c 1) (pand (inv_recv (Rd m) K (px 4 c) 1) (pand (inv_send (Rd m) K c 2) (pand (inv_recv (Rd m) K c 2) (pand (inv_recv (Rd m) K (px 4 c) 2) (pand (inv_send (Rd m) K c 3) (pand (inv_recv (Rd m) K c 3) (pand (inv_recv (Rd m) K (px 4 c) 3) (pand (inv_send (Rd m) K c 4) (pand (inv_recv (Rd m) K c 4) (pand (inv_recv (Rd m) K (px 3 c) 4) (pand (inv_send (Rd m) K c 5) (pand (inv_recv (Rd m) K c 5) (pand (inv_recv (Rd m) K (px 3 c) 5) (pand (inv_send (Rd m) K c 6) (pand (inv_recv (Rd m) K c 6) (pand (inv_recv (Rd m) K (px 3 c) 6) (pand (inv_send (Rd m) K c 7) (pand (inv_recv (Rd m) K c 7) (pand (inv_recv (Rd m) K (px 3 c) 7) (pand (inv_send (Rd m) K c 8) (pand (inv_recv (Rd m) K c 8) (pand (inv_recv (Rd m) K (px 1 c) 8) (pand (inv_send (Rd m) K c 9) (pand (inv_recv (Rd m) K c 9) (pand (inv_recv (Rd m) K (px 1 c) 9) (pand (inv_send (Rd m) K c 10) (pand (inv_recv (Rd m) K c 10) (pand (inv_recv (Rd m) K (px 1 c) 10) (pand (inv_send (Rd m) K c 11) (pand (inv_recv (Rd m) K c 11) (pand (inv_recv (Rd m) K (px 1 c) 11) (pand (inv_send (Rd m) K c 12) (pand (inv_recv (Rd m) K c 12) (pand (inv_recv (Rd m) K (px 3 c) 12) (pand (inv_send (Rd m) K c 13) (pand (inv_recv (Rd m) K c 13) (pand (inv_recv (Rd m) K (px 3 c) 13) (pand (inv_send (Rd m) K c 14) (pand (inv_recv (Rd m) K c 14) (pand (inv_recv (Rd m) K (px 1 c) 14) (pand (inv_send (Rd m) K c 15) (pand (inv_recv (Rd m) K c 15) (pand (inv_recv (Rd m) K (px 1 c) 15) (pand (inv_send (Rd m) K c 16) (pand (inv_recv (Rd m) K c 16) (pand (inv_recv (Rd m) K (px 4 c) 16) (pand (inv_send (Rd m) K c 17) (pand (inv_recv (Rd m) K c 17) (pand (inv_recv (Rd m) K (px 4 c) 17) (pand (inv_send (Rd m) K c 18) (pand (inv_recv (Rd m) K c 18) (pand (inv_recv (Rd m) K (px 1 c) 18) (pand (inv_send (Rd m) K c 19) (pand (inv_recv (Rd m) K c 19) (pand (inv_recv (Rd m) K (px 4 c) 19) (pand (inv_send (Rd m) K c 20) (pand (inv_recv (Rd m) K c 20) ((inv_recv (Rd m) K (px 3 c) 20)))))))))))))))))))))))))))))))))))))))))))))))))))))))))))))))))))

theorem rch_intro (m : (ℓ : Loc nD τ sig) → Buf (Elt F) ℓ) (K : Dev nD × Fin 43 → ℕ) (c : Dev nD) :
    records (Rd m) K ⊢ iprop(rchs (F := F) c) :=
  by unfold rchs; exact pand (reached_bar (Rd m) K (px 1 c)) (pand (reached_bar (Rd m) K (px 3 c)) (pand (reached_bar (Rd m) K (px 4 c)) (pand (reached_send (Rd m) K c 0) (pand (reached_recv (Rd m) K (px 4 c) 0) (pand (reached_send (Rd m) K c 1) (pand (reached_recv (Rd m) K (px 4 c) 1) (pand (reached_send (Rd m) K c 2) (pand (reached_recv (Rd m) K (px 4 c) 2) (pand (reached_send (Rd m) K c 3) (pand (reached_recv (Rd m) K (px 4 c) 3) (pand (reached_send (Rd m) K c 4) (pand (reached_recv (Rd m) K (px 3 c) 4) (pand (reached_send (Rd m) K c 5) (pand (reached_recv (Rd m) K (px 3 c) 5) (pand (reached_send (Rd m) K c 6) (pand (reached_recv (Rd m) K (px 3 c) 6) (pand (reached_send (Rd m) K c 7) (pand (reached_recv (Rd m) K (px 3 c) 7) (pand (reached_send (Rd m) K c 8) (pand (reached_recv (Rd m) K (px 1 c) 8) (pand (reached_send (Rd m) K c 9) (pand (reached_recv (Rd m) K (px 1 c) 9) (pand (reached_send (Rd m) K c 10) (pand (reached_recv (Rd m) K (px 1 c) 10) (pand (reached_send (Rd m) K c 11) (pand (reached_recv (Rd m) K (px 1 c) 11) (pand (reached_send (Rd m) K c 12) (pand (reached_recv (Rd m) K (px 3 c) 12) (pand (reached_send (Rd m) K c 13) (pand (reached_recv (Rd m) K (px 3 c) 13) (pand (reached_send (Rd m) K c 14) (pand (reached_recv (Rd m) K (px 1 c) 14) (pand (reached_send (Rd m) K c 15) (pand (reached_recv (Rd m) K (px 1 c) 15) (pand (reached_send (Rd m) K c 16) (pand (reached_recv (Rd m) K (px 4 c) 16) (pand (reached_send (Rd m) K c 17) (pand (reached_recv (Rd m) K (px 4 c) 17) (pand (reached_send (Rd m) K c 18) (pand (reached_recv (Rd m) K (px 1 c) 18) (pand (reached_send (Rd m) K c 19) (pand (reached_recv (Rd m) K (px 4 c) 19) (pand (reached_send (Rd m) K c 20) ((reached_recv (Rd m) K (px 3 c) 20)))))))))))))))))))))))))))))))))))))))))))))

omit [FloatOps F] in
theorem pos_intro (c : Dev nD) :
    (bigSep Finset.univ fun j : Fin 43 => (atPos ER (kcell (c, j)) 0 ∅ 0 : sProp 𝕄)) ⊢ iprop(atPos ER (barCell c) 0 ∅ 0 ∗ (sendPos (F := F) 0 c) ∗ (recvPos (F := F) 0 c)) := by
  unfold sendPos recvPos
  rw [atPos_cells, bigSep_fin21, bigSep_fin21]
  exact .rfl

omit [FloatOps F] in
theorem tok_intro (c : Dev nD) : (payToks c : sProp 𝕄) ⊢ iprop(toks (F := F) c) := by
  unfold toks
  rw [payToks_eq, bigSep_fin21, bigSep_fin21]
  exact .rfl

omit [FloatOps F] in
theorem crd_intro (c : Dev nD) :
    iprop(cred (tallyAt (barCell c) () 3) ∗ bigSep Finset.univ fun k : Fin 21 => cred (tallyAt (rCell c k) () 24576))
      ⊢ (iprop(cred (tallyAt (barCell c) () 3) ∗ (recvCreds (F := F) c)) : sProp 𝕄) := by
  unfold recvCreds
  rw [bigSep_fin21]
  exact .rfl

omit [FloatOps F] in
theorem slots_SB (c : Dev nD) (f : Buf (Elt F) ((Memref.whole cc0_scratch4 : Memref sig .tc .vmem S3x4x384x1024 .bf16).view.loc (c : Thread nD τ))) :
    ((Memref.whole cc0_scratch4 : Memref sig .tc .vmem S3x4x384x1024 .bf16).view.loc (c : Thread nD τ) ↦{fullShare} f : sProp 𝕄)
      ⊢ iprop((sb_0_0.view.loc (c : Thread nD τ) ↦[sb_0_0.view.set]{fullShare} f) ∗ (sb_0_1.view.loc (c : Thread nD τ) ↦[sb_0_1.view.set]{fullShare} f) ∗ (sb_0_2.view.loc (c : Thread nD τ) ↦[sb_0_2.view.set]{fullShare} f) ∗ (sb_0_3.view.loc (c : Thread nD τ) ↦[sb_0_3.view.set]{fullShare} f) ∗ (sb_1_0.view.loc (c : Thread nD τ) ↦[sb_1_0.view.set]{fullShare} f) ∗ (sb_1_1.view.loc (c : Thread nD τ) ↦[sb_1_1.view.set]{fullShare} f) ∗ (sb_1_2.view.loc (c : Thread nD τ) ↦[sb_1_2.view.set]{fullShare} f) ∗ (sb_1_3.view.loc (c : Thread nD τ) ↦[sb_1_3.view.set]{fullShare} f) ∗ (sb_2_0.view.loc (c : Thread nD τ) ↦[sb_2_0.view.set]{fullShare} f) ∗ (sb_2_1.view.loc (c : Thread nD τ) ↦[sb_2_1.view.set]{fullShare} f) ∗ (sb_2_2.view.loc (c : Thread nD τ) ↦[sb_2_2.view.set]{fullShare} f) ∗ (sb_2_3.view.loc (c : Thread nD τ) ↦[sb_2_3.view.set]{fullShare} f)) := by
  rw [slots_split (N := 4) (c := (c : Thread nD τ)) (Memref.whole cc0_scratch4 : Memref sig .tc .vmem (SN 4) .bf16) squeezes_S1x1x384x1024_S384x1024 (View.set_whole _) fullShare f,
    bigSep_univ_eq_bigSepL [(0, 0), (0, 1), (0, 2), (0, 3), (1, 0), (1, 1), (1, 2), (1, 3), (2, 0), (2, 1), (2, 2), (2, 3)] (by decide) (by decide)]
  exact .rfl

omit [FloatOps F] in
theorem slots_SR1 (c : Dev nD) (f : Buf (Elt F) ((Memref.whole cc0_scratch5 : Memref sig .tc .vmem S3x4x384x1024 .bf16).view.loc (c : Thread nD τ))) :
    ((Memref.whole cc0_scratch5 : Memref sig .tc .vmem S3x4x384x1024 .bf16).view.loc (c : Thread nD τ) ↦{fullShare} f : sProp 𝕄)
      ⊢ iprop((r1_0_0.view.loc (c : Thread nD τ) ↦[r1_0_0.view.set]{fullShare} f) ∗ (r1_0_1.view.loc (c : Thread nD τ) ↦[r1_0_1.view.set]{fullShare} f) ∗ (r1_0_2.view.loc (c : Thread nD τ) ↦[r1_0_2.view.set]{fullShare} f) ∗ (r1_0_3.view.loc (c : Thread nD τ) ↦[r1_0_3.view.set]{fullShare} f) ∗ (r1_1_0.view.loc (c : Thread nD τ) ↦[r1_1_0.view.set]{fullShare} f) ∗ (r1_1_1.view.loc (c : Thread nD τ) ↦[r1_1_1.view.set]{fullShare} f) ∗ (r1_1_2.view.loc (c : Thread nD τ) ↦[r1_1_2.view.set]{fullShare} f) ∗ (r1_1_3.view.loc (c : Thread nD τ) ↦[r1_1_3.view.set]{fullShare} f) ∗ (r1_2_0.view.loc (c : Thread nD τ) ↦[r1_2_0.view.set]{fullShare} f) ∗ (r1_2_1.view.loc (c : Thread nD τ) ↦[r1_2_1.view.set]{fullShare} f) ∗ (r1_2_2.view.loc (c : Thread nD τ) ↦[r1_2_2.view.set]{fullShare} f) ∗ (r1_2_3.view.loc (c : Thread nD τ) ↦[r1_2_3.view.set]{fullShare} f)) := by
  rw [slots_split (N := 4) (c := (c : Thread nD τ)) (Memref.whole cc0_scratch5 : Memref sig .tc .vmem (SN 4) .bf16) squeezes_S1x1x384x1024_S384x1024 (View.set_whole _) fullShare f,
    bigSep_univ_eq_bigSepL [(0, 0), (0, 1), (0, 2), (0, 3), (1, 0), (1, 1), (1, 2), (1, 3), (2, 0), (2, 1), (2, 2), (2, 3)] (by decide) (by decide)]
  exact .rfl

omit [FloatOps F] in
theorem slots_SR2 (c : Dev nD) (f : Buf (Elt F) ((Memref.whole cc0_scratch6 : Memref sig .tc .vmem S3x2x384x1024 .bf16).view.loc (c : Thread nD τ))) :
    ((Memref.whole cc0_scratch6 : Memref sig .tc .vmem S3x2x384x1024 .bf16).view.loc (c : Thread nD τ) ↦{fullShare} f : sProp 𝕄)
      ⊢ iprop((r2_0_0.view.loc (c : Thread nD τ) ↦[r2_0_0.view.set]{fullShare} f) ∗ (r2_0_1.view.loc (c : Thread nD τ) ↦[r2_0_1.view.set]{fullShare} f) ∗ (r2_1_0.view.loc (c : Thread nD τ) ↦[r2_1_0.view.set]{fullShare} f) ∗ (r2_1_1.view.loc (c : Thread nD τ) ↦[r2_1_1.view.set]{fullShare} f) ∗ (r2_2_0.view.loc (c : Thread nD τ) ↦[r2_2_0.view.set]{fullShare} f) ∗ (r2_2_1.view.loc (c : Thread nD τ) ↦[r2_2_1.view.set]{fullShare} f)) := by
  rw [slots_split (N := 2) (c := (c : Thread nD τ)) (Memref.whole cc0_scratch6 : Memref sig .tc .vmem (SN 2) .bf16) squeezes_S1x1x384x1024_S384x1024 (View.set_whole _) fullShare f,
    bigSep_univ_eq_bigSepL [(0, 0), (0, 1), (1, 0), (1, 1), (2, 0), (2, 1)] (by decide) (by decide)]
  exact .rfl

omit [FloatOps F] in
theorem slots_SR3 (c : Dev nD) (f : Buf (Elt F) ((Memref.whole cc0_scratch7 : Memref sig .tc .vmem S3x1x384x1024 .bf16).view.loc (c : Thread nD τ))) :
    ((Memref.whole cc0_scratch7 : Memref sig .tc .vmem S3x1x384x1024 .bf16).view.loc (c : Thread nD τ) ↦{fullShare} f : sProp 𝕄)
      ⊢ iprop((r3_0.view.loc (c : Thread nD τ) ↦[r3_0.view.set]{fullShare} f) ∗ (r3_1.view.loc (c : Thread nD τ) ↦[r3_1.view.set]{fullShare} f) ∗ (r3_2.view.loc (c : Thread nD τ) ↦[r3_2.view.set]{fullShare} f)) := by
  rw [slots_split (N := 1) (c := (c : Thread nD τ)) (Memref.whole cc0_scratch7 : Memref sig .tc .vmem (SN 1) .bf16) squeezes_S1x1x384x1024_S384x1024 (View.set_whole _) fullShare f,
    bigSep_univ_eq_bigSepL [(0, 0), (1, 0), (2, 0)] (by decide) (by decide)]
  exact .rfl

set_option maxHeartbeats 2000000 in
theorem bundles_intro (c : Dev nD)
    (f5 : Buf (Elt F) ((Memref.whole cc0_scratch5 : Memref sig .tc .vmem S3x4x384x1024 .bf16).view.loc (c : Thread nD τ)))
    (f6 : Buf (Elt F) ((Memref.whole cc0_scratch6 : Memref sig .tc .vmem S3x2x384x1024 .bf16).view.loc (c : Thread nD τ)))
    (f7 : Buf (Elt F) ((Memref.whole cc0_scratch7 : Memref sig .tc .vmem S3x1x384x1024 .bf16).view.loc (c : Thread nD τ))) :
    (iprop(((r1_0_0.view.loc (c : Thread nD τ) ↦[r1_0_0.view.set]{fullShare} f5) ∗ (r1_0_1.view.loc (c : Thread nD τ) ↦[r1_0_1.view.set]{fullShare} f5) ∗ (r1_0_2.view.loc (c : Thread nD τ) ↦[r1_0_2.view.set]{fullShare} f5) ∗ (r1_0_3.view.loc (c : Thread nD τ) ↦[r1_0_3.view.set]{fullShare} f5) ∗ (r1_1_0.view.loc (c : Thread nD τ) ↦[r1_1_0.view.set]{fullShare} f5) ∗ (r1_1_1.view.loc (c : Thread nD τ) ↦[r1_1_1.view.set]{fullShare} f5) ∗ (r1_1_2.view.loc (c : Thread nD τ) ↦[r1_1_2.view.set]{fullShare} f5) ∗ (r1_1_3.view.loc (c : Thread nD τ) ↦[r1_1_3.view.set]{fullShare} f5) ∗ (r1_2_0.view.loc (c : Thread nD τ) ↦[r1_2_0.view.set]{fullShare} f5) ∗ (r1_2_1.view.loc (c : Thread nD τ) ↦[r1_2_1.view.set]{fullShare} f5) ∗ (r1_2_2.view.loc (c : Thread nD τ) ↦[r1_2_2.view.set]{fullShare} f5) ∗ (r1_2_3.view.loc (c : Thread nD τ) ↦[r1_2_3.view.set]{fullShare} f5))
        ∗ ((r2_0_0.view.loc (c : Thread nD τ) ↦[r2_0_0.view.set]{fullShare} f6) ∗ (r2_0_1.view.loc (c : Thread nD τ) ↦[r2_0_1.view.set]{fullShare} f6) ∗ (r2_1_0.view.loc (c : Thread nD τ) ↦[r2_1_0.view.set]{fullShare} f6) ∗ (r2_1_1.view.loc (c : Thread nD τ) ↦[r2_1_1.view.set]{fullShare} f6) ∗ (r2_2_0.view.loc (c : Thread nD τ) ↦[r2_2_0.view.set]{fullShare} f6) ∗ (r2_2_1.view.loc (c : Thread nD τ) ↦[r2_2_1.view.set]{fullShare} f6))
        ∗ ((r3_0.view.loc (c : Thread nD τ) ↦[r3_0.view.set]{fullShare} f7) ∗ (r3_1.view.loc (c : Thread nD τ) ↦[r3_1.view.set]{fullShare} f7) ∗ (r3_2.view.loc (c : Thread nD τ) ↦[r3_2.view.set]{fullShare} f7))) : sProp 𝕄)
      ⊢ iprop(barSlots c 1 ∗ barSlots c 3 ∗ barSlots c 4) := by
  rw [barSlots_at_1, barSlots_at_3, barSlots_at_4]
  unfold someAt
  iintro ⟨⟨hr1_0_0, hr1_0_1, hr1_0_2, hr1_0_3, hr1_1_0, hr1_1_1, hr1_1_2, hr1_1_3, hr1_2_0, hr1_2_1, hr1_2_2, hr1_2_3⟩, ⟨hr2_0_0, hr2_0_1, hr2_1_0, hr2_1_1, hr2_2_0, hr2_2_1⟩, ⟨hr3_0, hr3_1, hr3_2⟩⟩
  isplitl [hr1_2_0 hr1_2_1 hr1_2_2 hr1_2_3 hr2_1_0 hr2_1_1 hr3_0]
  ·
    isplitl [hr1_2_0]; · iexists f5; iexact hr1_2_0
    isplitl [hr1_2_1]; · iexists f5; iexact hr1_2_1
    isplitl [hr1_2_2]; · iexists f5; iexact hr1_2_2
    isplitl [hr1_2_3]; · iexists f5; iexact hr1_2_3
    isplitl [hr2_1_0]; · iexists f6; iexact hr2_1_0
    isplitl [hr2_1_1]; · iexists f6; iexact hr2_1_1
    iexists f7; iexact hr3_0
  isplitl [hr1_1_0 hr1_1_1 hr1_1_2 hr1_1_3 hr2_0_0 hr2_0_1 hr3_2]
  ·
    isplitl [hr1_1_0]; · iexists f5; iexact hr1_1_0
    isplitl [hr1_1_1]; · iexists f5; iexact hr1_1_1
    isplitl [hr1_1_2]; · iexists f5; iexact hr1_1_2
    isplitl [hr1_1_3]; · iexists f5; iexact hr1_1_3
    isplitl [hr2_0_0]; · iexists f6; iexact hr2_0_0
    isplitl [hr2_0_1]; · iexists f6; iexact hr2_0_1
    iexists f7; iexact hr3_2
  isplitl [hr1_0_0]; · iexists f5; iexact hr1_0_0
  isplitl [hr1_0_1]; · iexists f5; iexact hr1_0_1
  isplitl [hr1_0_2]; · iexists f5; iexact hr1_0_2
  isplitl [hr1_0_3]; · iexists f5; iexact hr1_0_3
  isplitl [hr2_2_0]; · iexists f6; iexact hr2_2_0
  isplitl [hr2_2_1]; · iexists f6; iexact hr2_2_1
  iexists f7; iexact hr3_1

omit [FloatOps F] in
theorem sem_intro (c : Dev nD) : (localSems0 c : sProp 𝕄) ⊢ iprop(semVal ((c : Thread nD τ), .dma 1) 0 ∗ semVal ((c : Thread nD τ), .dma 2) 0 ∗ semVal ((c : Thread nD τ), .dma 3) 0) := by
  unfold localSems0
  exact .rfl

set_option maxRecDepth 200000 in
theorem body_obligation (m : (ℓ : Loc nD τ sig) → Buf (Elt F) ℓ) (ρ : Dev nD → PrngReg) (c : Dev nD)
    (hsound : ∀ (K : Dev nD × Fin 43 → ℕ) (W : Waits sig Unit)
      (fHo : Bf (F := F) c (Memref.whole cc0_stg0_0)) (fH0 : Bf (F := F) c (Memref.whole cc0_scratch0)) (fH1 : Bf (F := F) c (Memref.whole cc0_scratch1)) (fH2 : Bf (F := F) c (Memref.whole cc0_scratch2)) (fH3 : Bf (F := F) c (Memref.whole cc0_scratch3)) (fS : Buf (Elt F) (sb_0_0.view.loc (c : Thread nD τ))),
      bodyPre m c K W fHo fH0 fH1 fH2 fH3 fS
        ⊢ wp frame (wpE (defs₀ (F := F)) 𝒱₀ c none) Set.univ
        (cc0_body (Memref.whole main_arg0) (Memref.isWhole_whole _) (Memref.whole main_arg1) (Memref.isWhole_whole _)
          (Memref.whole cc0_stg0_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _)
          cc0_scratch8 cc0_scratch9 cc0_scratch10 cc0_scratch11 cc0_scratch12 cc0_scratch13 cc0_scratch14 cc0_scratch15) (fun _ => bodyPost m ρ c)) :
    BodyObligation (dats (Rd m) m ρ 0 c) (defs₀ (F := F)) 𝒱₀ () Set.univ := fun t => by
  rw [fin_N0 t]
  rw [bigSep_W0, bigSep_W0]
  simp only [owns_whole_eq']
  show iprop(Φ₀ (Rd m) m c ∗ (dats (Rd m) m ρ 0 c).owesAt () (t0_0 : Fin cfg0.N).castSucc
        ∗ ∃ d, stg c cc0_stg0_0 ((dats (Rd m) m ρ 0 c).before (0 : Fin 1) t0_0 d))
      ⊢ wp frame (wpE (defs₀ (F := F)) 𝒱₀ c none) Set.univ
        (cc0_body (Memref.whole main_arg0) (Memref.isWhole_whole _) (Memref.whole main_arg1) (Memref.isWhole_whole _)
          (Memref.whole cc0_stg0_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _)
          cc0_scratch8 cc0_scratch9 cc0_scratch10 cc0_scratch11 cc0_scratch12 cc0_scratch13 cc0_scratch14 cc0_scratch15) (fun _ => bodyPost m ρ c)
  unfold Φ₀ start ghost linear scratch scr argPts Dat.owesAt Pipeline.owesWithin
  iintro ⟨⟨⟨⟨%K, #HR, Hpos, Htok⟩, Hcb, Hcr, #Hlev, HL, Ha0, Ha1⟩, ⟨%f0, H0⟩, ⟨%f1, H1⟩, ⟨%f2, H2⟩, ⟨%f3, H3⟩, ⟨%f4, H4⟩, ⟨%f5, H5⟩, ⟨%f6, H6⟩, ⟨%f7, H7⟩⟩, ⟨%W, -, HO⟩, ⟨%d, %fo, -, Hout⟩⟩
  ihave S4 := (slots_SB c f4) $$ H4
  ihave S5 := (slots_SR1 c f5) $$ H5
  ihave S6 := (slots_SR2 c f6) $$ H6
  ihave S7 := (slots_SR3 c f7) $$ H7
  iapply (hsound K W fo f0 f1 f2 f3 f4)
  unfold bodyPre
  isplitr; · iapply (invs_intro m K c); iexact HR
  isplitr; · iapply (rch_intro m K c); iexact HR
  isplitr; · iexact Hlev
  isplitl [Hpos]; · iapply (pos_intro c); iexact Hpos
  isplitl [Htok]; · iapply (tok_intro c); iexact Htok
  isplitl [Hcb Hcr]
  · iapply (crd_intro c); isplitl [Hcb] <;> iassumption
  isplitl [HO]; · iexact HO
  isplitl [Ha0 Ha1 Hout H0 H1 H2 H3]; · iframe
  isplitl [S4 S5 S6 S7]
  · isplitl [S4]; · iexact S4
    iapply (bundles_intro c f5 f6 f7)
    isplitl [S5]; · iexact S5
    isplitl [S6] <;> iassumption
  iapply (sem_intro c); iexact HL

/-- info: 'Cert.KernelIdeal.Hand.body_obligation' depends on axioms: [propext, Classical.choice, Quot.sound] -/
#guard_msgs in #print axioms body_obligation

end Cert.KernelIdeal.Hand

end
-- ==== Proof.SendStep.lean ====
import proofs.«900896_g7700000000000897_dist_matmul_mk_i_outk_m3072_n3072_k1536_v7x_i8_bf16_1_alg».proof.Proof.Sched
import Idealize.ShloMosaic.Lib.Rounds

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem slot_credit : RefSig.tileCredit S384x1024 .bf16 = NX := by decide

theorem slot_amount (M : Memref sig .tc .vmem S384x1024 .bf16) (sm : DmaSem sig) : M.view.amount (.dma sm) = NX :=
  slot_credit

theorem wp_send_slot (𝒱 : Variants) (m : (ℓ : Loc nD τ sig) → Buf (Elt F) ℓ) {N N' : Nat}
    (Ws : Memref sig .tc .vmem (SN N) .bf16) (Wd : Memref sig .tc .vmem (SN N') .bf16)
    (hsq : S1x1x384x1024.Squeezes S384x1024)
    (q j : Nat) (inb : ∀ a, (![q, j, 0, 0] : Fin 4 → Nat) a + S1x1x384x1024.size a ≤ (SN N).size a)
    (q' j' : Nat) (inb' : ∀ a, (![q', j', 0, 0] : Fin 4 → Nat) a + S1x1x384x1024.size a ≤ (SN N').size a)
    (c : Dev nD) (x : Nat) (n : Dev nD) (hn : n = px x c) (sS sR : DmaSem sig)
    {hsc : (slotM Wd hsq q' j' inb' : Memref sig (Dev.tc n : Thread nD τ).2.kind .vmem S384x1024 .bf16).view.ref.isScScratch = false}
    {hsrc : (slotM Ws hsq q j inb).view.WordExact} {hdst : (slotM Wd hsq q' j' inb').view.WordExact}
    {hsem : DmaTarget.Typed .vmem (.dma sR) (.remote (Dev.tc n : Thread nD τ) (slotM Wd hsq q' j' inb' : Memref sig .tc .vmem S384x1024 .bf16) (.dma sS) hsc)}
    {α : Type} {Q : α → sProp 𝕄} {k : PUnit → Prog (TpuEff nD τ sig (Elt F) Λ₀ .tc) α}
    (κ₁ κ₂ : ℕ) (d₁ d₂ : DT)
    (fs : Buf (Elt F) (Ws.view.loc (c : Thread nD τ))) (fd : Buf (Elt F) (Wd.view.loc (px x c : Thread nD τ)))
    (v : Vec F S1x1x384x1024 .bf16)
    (hs : Ws.view.readAt (Elt F) (slotRect N q j inb).toLoadRect fs = v)
    (hd₁ : d₁ ∈ (Rd (F := F) m).duties ((c : Thread nD τ), .dma sS) 0)
    (hd₂ : d₂ ∈ (Rd (F := F) m).duties ((px x c : Thread nD τ), .dma sR) 0)
    (hp₁ : (Rd (F := F) m).payload ((c : Thread nD τ), .dma sS) 0 d₁ = someAt (slotM Ws hsq q j inb) c)
    (hp₂ : (Rd (F := F) m).payload ((px x c : Thread nD τ), .dma sR) 0 d₂ = holds (slotM Wd hsq q' j' inb') (px x c) v)
    (O : CellTallies nD τ sig Unit) (W : Waits sig Unit) :
    iprop(cellInv ER (Rd (F := F) m) κ₁ ((c : Thread nD τ), .dma sS) ∗ cellInv ER (Rd (F := F) m) κ₂ ((px x c : Thread nD τ), .dma sR)
        ∗ ((slotM Ws hsq q j inb).view.loc (c : Thread nD τ) ↦[(slotM Ws hsq q j inb).view.set]{fullShare} fs)
        ∗ ((slotM Wd hsq q' j' inb').view.loc (px x c : Thread nD τ) ↦[(slotM Wd hsq q' j' inb').view.set]{fullShare} fd)
        ∗ owes (c : Thread nD τ) (O + tallyAt ((px x c : Thread nD τ), .dma sR) () NX) W
        ∗ dutyTok ER ((c : Thread nD τ), .dma sS) 0 d₁ ∗ reached ER ((c : Thread nD τ), .dma sS) 0
        ∗ dutyTok ER ((px x c : Thread nD τ), .dma sR) 0 d₂ ∗ reached ER ((px x c : Thread nD τ), .dma sR) 0)
      ⊢ iprop(((cred (tallyAt ((c : Thread nD τ), .dma sS) () NX) ∗ owes (c : Thread nD τ) O W)
            -∗ wp frame (wpE (defs₀ (F := F)) 𝒱 (c : Thread nD τ) none) Set.univ (k ⟨⟩) Q)
          -∗ wp frame (wpE (defs₀ (F := F)) 𝒱 (c : Thread nD τ) none) Set.univ
              (.op (.enqueueDma (slotM Ws hsq q j inb) (.remote (Dev.tc n : Thread nD τ) (slotM Wd hsq q' j' inb') (.dma sS) hsc) (.dma sR) hsrc hdst hsem) k) Q) := by
  subst hn
  have hpay₂ : ((slotM Wd hsq q' j' inb').view.loc (px x c : Thread nD τ) ↦[(slotM Wd hsq q' j' inb').view.set]{fullShare}
        ((slotM Wd hsq q' j' inb').view.write (Elt F) fd ((slotM Ws hsq q j inb).view.read (Elt F) fs) Finset.univ) : sProp 𝕄)
      ⊢ (Rd (F := F) m).payload ((px x c : Thread nD τ), .dma sR) 0 d₂ := by
    rw [hp₂, holds_eq]
    exact Entails.of_eq (land (nD' := nD) (τ' := τ) (sg := sig) (Ix := Unit) (Val := Elt F) (Name := ℕ) (U := UU) (Lvl := ℕ)
      (c := (c : Thread nD τ)) (sp := .vmem) (e := .bf16) (N := N) Ws hsq (c' := (px x c : Thread nD τ)) (sp' := .vmem) (N' := N') Wd
      q j inb q' j' inb' fs fd v hs fullShare)
  have hpay₁ : ((slotM Ws hsq q j inb).view.loc (c : Thread nD τ) ↦[(slotM Ws hsq q j inb).view.set]{fullShare} fs : sProp 𝕄)
      ⊢ (Rd (F := F) m).payload ((c : Thread nD τ), .dma sS) 0 d₁ := by
    rw [hp₁, someAt_eq]
    iintro H
    iexists fs
    iexact H
  exact Rounds.wp_send_pointsTo (nD := nD) (τ := τ) (sig := sig) (Ix := Unit) (Val := Elt F) (Name := ℕ) (U := UU) (Lvl := ℕ)
    𝒱 ER (Rd (F := F) m) (c : Thread nD τ) none (c' := (px x c : Thread nD τ)) (sp := .vmem) (sp' := .vmem) (s := S384x1024) (e := .bf16)
    (src := slotM Ws hsq q j inb) (dst := slotM Wd hsq q' j' inb') (hsc := hsc) (sS := .dma sS) (sem := .dma sR)
    (hsrc := hsrc) (hdst := hdst) (hsem := hsem) (k := k) (q := fullShare) (κ₁ := κ₁) (κ₂ := κ₂)
    (r₁ := 0) (r₂ := 0) (d₁ := d₁) (d₂ := d₂) (fs := fs) (fd := fd)
    hd₁ hd₂ () () NX (slot_amount _ sR) rfl rfl (O₀ := O + tallyAt ((px x c : Thread nD τ), .dma sR) () NX) O rfl (W := W)
    hpay₁ hpay₂

/-- info: 'Cert.KernelIdeal.Hand.wp_send_slot' depends on axioms: [propext, Classical.choice, Quot.sound] -/
#guard_msgs in #print axioms wp_send_slot

end Cert.KernelIdeal.Hand

end
-- ==== Proof.LocalValues.lean ====
import proofs.«900896_g7700000000000897_dist_matmul_mk_i_outk_m3072_n3072_k1536_v7x_i8_bf16_1_alg».proof.Proof.Blocks
import Idealize.ShloMosaic.Lib.Pipeline.Value
import Idealize.ShloMosaic.Lib.ValueLayout

noncomputable section

namespace Cert.KernelIdeal.Hand

open Cert.KernelIdeal Cert.KernelIdeal.Gen
open Idealize.ShloMosaic Idealize.SL.Sem Idealize.ShloMosaic.ValueIdx

variable {F : FTy → Type} [FloatOps F]

theorem readAt_write_reshaped {sig : RefSig} {κ : Kind} {sp : Space} {s s' : Shape} {e : EltTy} {Val : EltTy → Type}
    (v : View sig κ sp s e) (R : Rect s) (h : s'.numel = R.shape.numel) (f : v.ty.Contents Val) (w : s'.Idx → Val e) :
    v.readAt Val R.toLoadRect (((v.slice R).reshape s' h).write Val f w Finset.univ)
      = fun x => w ((Shape.reshapeEquiv h).symm x) := by
  rw [View.write_reshape_univ]
  exact View.read_write_univ (v := v.slice R) f _

theorem readAt_write_whole {sig : RefSig} {κ : Kind} {Val : EltTy → Type} (b : Ref sig κ)
    {off : Fin b.ty.shape.rank → Nat} (hoff : off = fun _ => 0) (inb : ∀ a, off a + b.ty.shape.size a ≤ b.ty.shape.size a)
    (f : b.ty.Contents Val) (w : b.ty.shape.Idx → Val b.ty.elt) :
    (Memref.whole b).view.readAt Val (Rect.unit off b.ty.shape.size inb).toLoadRect
        ((Memref.whole b).view.write Val f w Finset.univ) = w := by
  rw [Memref.readAt_unit_zero Val b hoff inb]
  funext i
  exact View.write_emb_of_mem (v := (Memref.whole b).view) f w (Finset.mem_univ i)

theorem unsqueeze_rows (h : S384x1536.numel = S1x384x1536.numel) (i : S1x384x1536.Idx) :
    (Shape.reshapeEquiv h).symm i = ix2 (⟨(i 1).val, (i 1).isLt⟩ : Fin 384) (⟨(i 2).val, (i 2).isLt⟩ : Fin 1536) := by
  rw [Equiv.symm_apply_eq, reshapeEquiv_ix2_1ab]
  funext a
  match a with
  | ⟨0, _⟩ => exact Subsingleton.elim (α := Fin 1) _ _
  | ⟨1, _⟩ => rfl
  | ⟨2, _⟩ => rfl

theorem read_rows {off : Fin 2 → Nat} {inb : ∀ a, off a + S384x1536.size a ≤ S3072x1536.size a}
    (c p : Dev nD) (hoff : off = ![384 * p.val, 0])
    (fA : Buf (Elt F) ((Memref.whole main_arg0).view.loc (c.tc : Thread nD τ))) (x : Fin 384) (y : Fin 1536) :
    View.read (Elt F) ((Memref.whole main_arg0).view.slice (Rect.unit (s := S3072x1536) off S384x1536.size inb)) fA (ix2 x y)
      = fA (ix2 (⟨p.val * 384 + x.val, by have hp : p.val < 8 := p.isLt; omega⟩ : Fin 3072) y) := by
  subst hoff
  refine congrArg fA ?_
  funext a
  apply Fin.ext
  match a with
  | ⟨0, _⟩ => show 384 * p.val + 1 * x.val = p.val * 384 + x.val; omega
  | ⟨1, _⟩ => show 0 + 1 * y.val = y.val; omega

theorem stageA_read {o3 : Fin 3 → Nat} {inbs : ∀ a, o3 a + S1x384x1536.size a ≤ S2x384x1536.size a}
    {hss : ∀ a, (Rect.unit (s := S2x384x1536) o3 S1x384x1536.size inbs).stride a = 1}
    {hq : S1x384x1536.Squeezes S384x1536}
    {off : Fin 2 → Nat} {inb : ∀ a, off a + S384x1536.size a ≤ S3072x1536.size a}
    {hs : ∀ a, (Rect.unit (s := S3072x1536) off S384x1536.size inb).stride a = 1}
    (c p : Dev nD) (hoff : off = ![384 * p.val, 0])
    (f2 : Buf (Elt F) ((Memref.whole cc0_scratch2).view.loc (c.tc : Thread nD τ)))
    (fA : Buf (Elt F) ((Memref.whole main_arg0).view.loc (c.tc : Thread nD τ))) :
    View.readAt (Elt F) (Memref.whole cc0_scratch2).view (Rect.unit (s := S2x384x1536) o3 S1x384x1536.size inbs).toLoadRect
      (View.write (Elt F)
        (((Memref.whole cc0_scratch2).slice (Rect.unit (s := S2x384x1536) o3 S1x384x1536.size inbs) hss).squeeze S384x1536 hq).view f2
        ((ReadAs.same : ReadAs (Elt F) S384x1536 .f32 S384x1536 .f32).apply
          (View.read (Elt F) ((Memref.whole main_arg0).slice (Rect.unit (s := S3072x1536) off S384x1536.size inb) hs).view fA))
        Finset.univ)
      = rowsOf fA p := by
  refine (readAt_write_reshaped (Memref.whole cc0_scratch2).view (Rect.unit (s := S2x384x1536) o3 S1x384x1536.size inbs)
    hq.numel_eq f2 _).trans ?_
  funext i
  show View.read (Elt F) ((Memref.whole main_arg0).view.slice (Rect.unit (s := S3072x1536) off S384x1536.size inb)) fA
      ((Shape.reshapeEquiv hq.numel_eq).symm i) = _
  rw [unsqueeze_rows, read_rows c p hoff]
  rfl

theorem read_cols {off : Fin 2 → Nat} {inb : ∀ a, off a + S1536x1024.size a ≤ S1536x3072.size a}
    (c : Dev nD) (q : Fin 3) (hoff : off = ![0, 1024 * q.val])
    (fB : Buf (Elt F) ((Memref.whole main_arg1).view.loc (c.tc : Thread nD τ))) (i : S1536x1024.Idx) :
    View.read (Elt F) ((Memref.whole main_arg1).view.slice (Rect.unit (s := S1536x3072) off S1536x1024.size inb)) fB i
      = colsOf fB q i := by
  subst hoff
  refine congrArg fB ?_
  funext a
  apply Fin.ext
  match a with
  | ⟨0, _⟩ => show 0 + 1 * (i 0).val = (i 0).val; omega
  | ⟨1, _⟩ => show 1024 * q.val + 1 * (i 1).val = q.val * 1024 + (i 1).val; omega

theorem stageB_read {o2 : Fin 2 → Nat} {inbs : ∀ a, o2 a + S1536x1024.size a ≤ S1536x1024.size a}
    {off : Fin 2 → Nat} {inb : ∀ a, off a + S1536x1024.size a ≤ S1536x3072.size a}
    {hs : ∀ a, (Rect.unit (s := S1536x3072) off S1536x1024.size inb).stride a = 1}
    (c : Dev nD) (q : Fin 3) (ho2 : o2 = fun _ => 0) (hoff : off = ![0, 1024 * q.val])
    (f3 : Buf (Elt F) ((Memref.whole cc0_scratch3).view.loc (c.tc : Thread nD τ)))
    (fB : Buf (Elt F) ((Memref.whole main_arg1).view.loc (c.tc : Thread nD τ))) :
    View.readAt (Elt F) (Memref.whole cc0_scratch3).view (Rect.unit (s := S1536x1024) o2 S1536x1024.size inbs).toLoadRect
      (View.write (Elt F) (Memref.whole cc0_scratch3).view f3
        ((ReadAs.same : ReadAs (Elt F) S1536x1024 .f32 S1536x1024 .f32).apply
          (View.read (Elt F) ((Memref.whole main_arg1).slice (Rect.unit (s := S1536x3072) off S1536x1024.size inb) hs).view fB))
        Finset.univ)
      = colsOf fB q := by
  refine (readAt_write_whole cc0_scratch3 ho2 inbs f3 _).trans ?_
  funext i
  exact read_cols c q hoff fB i

theorem zero_off2 : (![0, 0] : Fin 2 → Nat) = fun _ => 0 := by
  funext a
  match a with
  | ⟨0, _⟩ => rfl
  | ⟨1, _⟩ => rfl

/-- info: 'Cert.KernelIdeal.Hand.stageA_read' depends on axioms: [propext, Classical.choice, Quot.sound] -/
#guard_msgs in #print axioms stageA_read
/-- info: 'Cert.KernelIdeal.Hand.stageB_read' depends on axioms: [propext, Classical.choice, Quot.sound] -/
#guard_msgs in #print axioms stageB_read

end Cert.KernelIdeal.Hand

end
-- ==== Proof.CastValues.lean ====
import proofs.«900896_g7700000000000897_dist_matmul_mk_i_outk_m3072_n3072_k1536_v7x_i8_bf16_1_alg».proof.Proof.Mesh
import Idealize.ShloMosaic.Lib.Pipeline.Value

noncomputable section

namespace Cert.KernelIdeal.Hand

open Cert.KernelIdeal Cert.KernelIdeal.Gen
open Idealize.ShloMosaic Idealize.SL.Sem

variable {F : FTy → Type} [FloatOps F]

theorem px_ne_of_ne (c : Dev nD) (a b : Fin 8) (h : a ≠ b) : px a.val c ≠ px b.val c := by
  revert c a b; decide

theorem rows_apart (c : Dev nD) (a b : Fin 8) (h : a ≠ b) :
    k0_off2 c (BitVec.ofNat 32 a.val) 0 + S384x1536.size 0 ≤ k0_off2 c (BitVec.ofNat 32 b.val) 0
      ∨ k0_off2 c (BitVec.ofNat 32 b.val) 0 + S384x1536.size 0 ≤ k0_off2 c (BitVec.ofNat 32 a.val) 0 := by
  rw [off2_eq c a, off2_eq c b]
  have hne : (px a.val c).val ≠ (px b.val c).val := fun e => px_ne_of_ne c a b h (Fin.ext e)
  show 384 * (px a.val c).val + 384 ≤ 384 * (px b.val c).val ∨ 384 * (px b.val c).val + 384 ≤ 384 * (px a.val c).val
  omega

abbrev CastPieces (F : FTy → Type) : Type := List (View.Piece (Elt F) cc0_scratch0.ty.shape cc0_scratch0.ty.elt)

theorem cast_read_same {sp : Space} {V : View sig .tc sp cc0_scratch0.ty.shape cc0_scratch0.ty.elt}
    (r : Rect cc0_scratch0.ty.shape) (w : r.shape.Idx → Elt F cc0_scratch0.ty.elt) (L : CastPieces F) :
    V.readCov (⟨r, w⟩ :: L) r.toLoadRect = w :=
  View.readCov_cons_toLoadRect V r w L

theorem cast_read_skip {sp : Space} {V : View sig .tc sp cc0_scratch0.ty.shape cc0_scratch0.ty.elt} (c : Dev nD) {wa wb : BitVec 32}
    {inba : ∀ x, k0_off2 c wa x + S384x1536.size x ≤ S3072x1536.size x}
    {inbb : ∀ x, k0_off2 c wb x + S384x1536.size x ≤ S3072x1536.size x}
    (h : k0_off2 c wb 0 + S384x1536.size 0 ≤ k0_off2 c wa 0 ∨ k0_off2 c wa 0 + S384x1536.size 0 ≤ k0_off2 c wb 0)
    (w : (Rect.unit (s := S3072x1536) (k0_off2 c wb) S384x1536.size inbb).shape.Idx → Elt F cc0_scratch0.ty.elt) (L : CastPieces F) :
    V.readCov (⟨Rect.unit (s := S3072x1536) (k0_off2 c wb) S384x1536.size inbb, w⟩ :: L)
        (Rect.unit (s := S3072x1536) (k0_off2 c wa) S384x1536.size inba).toLoadRect
      = V.readCov L (Rect.unit (s := S3072x1536) (k0_off2 c wa) S384x1536.size inba).toLoadRect :=
  View.readCov_cons_of_disjoint V _ L _ (Rect.unit_disjoint (s := S3072x1536) (inb := inbb) (inb' := inba) 0 h)

theorem cast_read_other {sp : Space} {V : View sig .tc sp cc0_scratch0.ty.shape cc0_scratch0.ty.elt} (c : Dev nD) (a b : Fin 8) (h : a ≠ b)
    (w : (Rect.unit (s := S3072x1536) (k0_off2 c (BitVec.ofNat 32 b.val)) S384x1536.size (k0_off2_inb c b)).shape.Idx → Elt F cc0_scratch0.ty.elt)
    (L : CastPieces F) :
    V.readCov
        (⟨Rect.unit (s := S3072x1536) (k0_off2 c (BitVec.ofNat 32 b.val)) S384x1536.size (k0_off2_inb c b), w⟩ :: L)
        (Rect.unit (s := S3072x1536) (k0_off2 c (BitVec.ofNat 32 a.val)) S384x1536.size (k0_off2_inb c a)).toLoadRect
      = V.readCov L
        (Rect.unit (s := S3072x1536) (k0_off2 c (BitVec.ofNat 32 a.val)) S384x1536.size (k0_off2_inb c a)).toLoadRect :=
  cast_read_skip (V := V) c (rows_apart c b a h.symm) w L

set_option hygiene false in
local macro "rowsR(" c:term "," m:num ")" : term =>
  `(Rect.unit (s := S3072x1536) (k0_off2 $c (BitVec.ofNat 32 $m)) ![384, 1536] (k0_off2_inb $c $m))

set_option hygiene false in
local macro "rows_other_thm " n:ident a:num b:num : command =>
  `(theorem $n {sp : Space} {V : View sig .tc sp cc0_scratch0.ty.shape cc0_scratch0.ty.elt} (c : Dev nD) (w : (rowsR(c, $b)).shape.Idx → Elt F cc0_scratch0.ty.elt) (L : CastPieces F) :
      V.readCov (⟨rowsR(c, $b), w⟩ :: L) (rowsR(c, $a)).toLoadRect
        = V.readCov L (rowsR(c, $a)).toLoadRect :=
    cast_read_other (V := V) c $a $b (by decide) w L)

rows_other_thm rows_6_7 6 7
rows_other_thm rows_6_2 6 2
rows_other_thm rows_6_5 6 5
rows_other_thm rows_6_4 6 4
rows_other_thm rows_6_3 6 3
rows_other_thm rows_6_1 6 1
rows_other_thm rows_6_0 6 0
rows_other_thm rows_7_2 7 2
rows_other_thm rows_7_5 7 5
rows_other_thm rows_7_4 7 4
rows_other_thm rows_7_3 7 3
rows_other_thm rows_7_1 7 1
rows_other_thm rows_7_0 7 0
rows_other_thm rows_2_5 2 5
rows_other_thm rows_2_4 2 4
rows_other_thm rows_2_3 2 3
rows_other_thm rows_2_1 2 1
rows_other_thm rows_2_0 2 0
rows_other_thm rows_5_4 5 4
rows_other_thm rows_5_3 5 3
rows_other_thm rows_5_1 5 1
rows_other_thm rows_5_0 5 0
rows_other_thm rows_4_3 4 3
rows_other_thm rows_4_1 4 1
rows_other_thm rows_4_0 4 0
rows_other_thm rows_3_1 3 1
rows_other_thm rows_3_0 3 0
rows_other_thm rows_1_0 1 0

/-- info: 'Cert.KernelIdeal.Hand.rows_1_0' depends on axioms: [propext, Classical.choice, Quot.sound] -/
#guard_msgs in #print axioms rows_1_0

end Cert.KernelIdeal.Hand

end
-- ==== Proof.OutValue.lean ====
import proofs.«900896_g7700000000000897_dist_matmul_mk_i_outk_m3072_n3072_k1536_v7x_i8_bf16_1_alg».proof.Proof.Blocks
import Idealize.ShloMosaic.Lib.Pipeline.Value

noncomputable section

namespace Cert.KernelIdeal.Hand

open Cert.KernelIdeal Cert.KernelIdeal.Gen
open Idealize.ShloMosaic Idealize.SL.Sem Idealize.ShloMosaic.ValueIdx

variable {F : FTy → Type} [FloatOps F]

abbrev OutPieces (F : FTy → Type) : Type := List (View.Piece (Elt F) cc0_stg0_0.ty.shape cc0_stg0_0.ty.elt)

abbrev outRect0 : Rect S384x3072 := Rect.unit (s := S384x3072) ![0, 0] S384x1024.size inb_S384x3072_S384x1024_0_0
abbrev outRect1 : Rect S384x3072 := Rect.unit (s := S384x3072) ![0, 1024] S384x1024.size inb_S384x3072_S384x1024_0_1024
abbrev outRect2 : Rect S384x3072 := Rect.unit (s := S384x3072) ![0, 2048] S384x1024.size inb_S384x3072_S384x1024_0_2048

theorem out_hit (f : cc0_stg0_0.ty.Contents (Elt F)) (R : Rect S384x3072) (w : R.shape.Idx → Elt F .bf16) (L : OutPieces F)
    (x : R.shape.Idx) :
    (Memref.whole cc0_stg0_0).view.writes (Elt F) f (⟨R, w⟩ :: L) (R.emb x) = w x :=
  View.read_writes_cons_emb (Memref.whole cc0_stg0_0).view f R w L x

theorem out_skip (f : cc0_stg0_0.ty.Contents (Elt F)) (R : Rect S384x3072) (w : R.shape.Idx → Elt F .bf16) (L : OutPieces F)
    (y : S384x3072.Idx) (hy : y ∉ R.set) :
    (Memref.whole cc0_stg0_0).view.writes (Elt F) f (⟨R, w⟩ :: L) y = (Memref.whole cc0_stg0_0).view.writes (Elt F) f L y :=
  View.read_slice_write_of_not_mem (v := (Memref.whole cc0_stg0_0).view) R _ w Finset.univ (by rwa [Rect.map_emb_univ])

theorem out_emb {off : Nat} {inb : ∀ a, (![0, off] : Fin 2 → Nat) a + S384x1024.size a ≤ S384x3072.size a}
    (r : Fin 384) (n : Fin 1024) (h : off + n.val < 3072) :
    (Rect.unit (s := S384x3072) ![0, off] S384x1024.size inb).emb (ix2 r n) = ix2 r (⟨off + n.val, h⟩ : Fin 3072) := by
  funext a
  apply Fin.ext
  match a with
  | ⟨0, _⟩ => show 0 + 1 * r.val = r.val; omega
  | ⟨1, _⟩ => show off + 1 * n.val = off + n.val; omega

theorem out_not_mem {off : Nat} {inb : ∀ a, (![0, off] : Fin 2 → Nat) a + S384x1024.size a ≤ S384x3072.size a}
    (r : Fin 384) (j : Fin 3072) (h : j.val < off ∨ off + 1024 ≤ j.val) :
    ix2 r j ∉ (Rect.unit (s := S384x3072) ![0, off] S384x1024.size inb).set := by
  intro hm
  have h1 := (Rect.mem_set_unit.mp hm) 1
  have h1' : off ≤ j.val ∧ j.val < off + 1024 := h1
  omega

theorem out_writes_apply (f : cc0_stg0_0.ty.Contents (Elt F)) (w0 w1 w2 : Vec F S384x1024 .bf16)
    (q : Fin 3) (r : Fin 384) (n : Fin 1024) :
    (Memref.whole cc0_stg0_0).view.writes (Elt F) f [⟨outRect2, w2⟩, ⟨outRect1, w1⟩, ⟨outRect0, w0⟩]
        (ix2 r (⟨q.val * 1024 + n.val, by omega⟩ : Fin 3072))
      = (![w0, w1, w2] q) (ix2 r n) := by
  match q with
  | ⟨0, _⟩ =>
    rw [out_skip f outRect2 w2 _ _ (out_not_mem r _ (.inl (by show 0 * 1024 + n.val < 2048; omega))),
      out_skip f outRect1 w1 _ _ (out_not_mem r _ (.inl (by show 0 * 1024 + n.val < 1024; omega)))]
    have e := out_emb (off := 0) (inb := inb_S384x3072_S384x1024_0_0) r n (by omega)
    have hidx : (⟨0 * 1024 + n.val, by omega⟩ : Fin 3072) = ⟨0 + n.val, by omega⟩ := Fin.ext (by show 0 * 1024 + n.val = 0 + n.val; omega)
    rw [hidx, ← e]
    exact out_hit f outRect0 w0 [] (ix2 r n)
  | ⟨1, _⟩ =>
    rw [out_skip f outRect2 w2 _ _ (out_not_mem r _ (.inl (by show 1 * 1024 + n.val < 2048; omega)))]
    have e := out_emb (off := 1024) (inb := inb_S384x3072_S384x1024_0_1024) r n (by omega)
    have hidx : (⟨1 * 1024 + n.val, by omega⟩ : Fin 3072) = ⟨1024 + n.val, by omega⟩ := Fin.ext (by show 1 * 1024 + n.val = 1024 + n.val; omega)
    rw [hidx, ← e]
    exact out_hit f outRect1 w1 _ (ix2 r n)
  | ⟨2, _⟩ =>
    have e := out_emb (off := 2048) (inb := inb_S384x3072_S384x1024_0_2048) r n (by omega)
    have hidx : (⟨2 * 1024 + n.val, by omega⟩ : Fin 3072) = ⟨2048 + n.val, by omega⟩ := Fin.ext (by show 2 * 1024 + n.val = 2048 + n.val; omega)
    rw [hidx, ← e]
    exact out_hit f outRect2 w2 _ (ix2 r n)

theorem out_writes_eq (f : cc0_stg0_0.ty.Contents (Elt F)) (w0 w1 w2 : Vec F S384x1024 .bf16) :
    (Memref.whole cc0_stg0_0).view.writes (Elt F) f [⟨outRect2, w2⟩, ⟨outRect1, w1⟩, ⟨outRect0, w0⟩]
      = fun (i : S384x3072.Idx) =>
          (![w0, w1, w2] (⟨(i 1).val / 1024, by have hi : (i 1).val < 3072 := (i 1).isLt; omega⟩ : Fin 3))
            (ix2 (⟨(i 0).val, (i 0).isLt⟩ : Fin 384) (⟨(i 1).val % 1024, Nat.mod_lt _ (by decide)⟩ : Fin 1024)) := by
  funext i
  have hi : ((i : S384x3072.Idx) 1).val < 3072 := ((i : S384x3072.Idx) 1).isLt
  have e : (i : S384x3072.Idx) = ix2 (⟨((i : S384x3072.Idx) 0).val, ((i : S384x3072.Idx) 0).isLt⟩ : Fin 384)
      (⟨(((i : S384x3072.Idx) 1).val / 1024) * 1024 + ((i : S384x3072.Idx) 1).val % 1024, by omega⟩ : Fin 3072) := by
    funext a
    match a with
    | ⟨0, _⟩ => rfl
    | ⟨1, _⟩ => exact Fin.ext (by
        show ((i : S384x3072.Idx) 1).val = (((i : S384x3072.Idx) 1).val / 1024) * 1024 + ((i : S384x3072.Idx) 1).val % 1024
        omega)
  have key := out_writes_apply f w0 w1 w2 (⟨((i : S384x3072.Idx) 1).val / 1024, by omega⟩ : Fin 3)
    (⟨((i : S384x3072.Idx) 0).val, ((i : S384x3072.Idx) 0).isLt⟩ : Fin 384)
    (⟨((i : S384x3072.Idx) 1).val % 1024, Nat.mod_lt _ (by decide)⟩ : Fin 1024)
  rw [← e] at key
  exact key

theorem out_writes_outBuf (m : (ℓ : Loc nD τ sig) → Buf (Elt F) ℓ) (c : Dev nD) (f : cc0_stg0_0.ty.Contents (Elt F)) :
    (Memref.whole cc0_stg0_0).view.writes (Elt F) f
        [⟨outRect2, outq (rowsA m) (colsB m) c 2⟩, ⟨outRect1, outq (rowsA m) (colsB m) c 1⟩, ⟨outRect0, outq (rowsA m) (colsB m) c 0⟩]
      = outBuf m c := by
  rw [out_writes_eq]
  funext i
  have hq : ∀ q : Fin 3, (![outq (rowsA m) (colsB m) c 0, outq (rowsA m) (colsB m) c 1, outq (rowsA m) (colsB m) c 2] q)
      = outq (rowsA m) (colsB m) c q := by
    intro q
    match q with
    | ⟨0, _⟩ => rfl
    | ⟨1, _⟩ => rfl
    | ⟨2, _⟩ => rfl
  show (![outq (rowsA m) (colsB m) c 0, outq (rowsA m) (colsB m) c 1, outq (rowsA m) (colsB m) c 2] _) _ = outBuf m c i
  rw [hq]
  rfl

/-- info: 'Cert.KernelIdeal.Hand.out_writes_outBuf' depends on axioms: [propext, Classical.choice, Quot.sound] -/
#guard_msgs in #print axioms out_writes_outBuf

end Cert.KernelIdeal.Hand

end
-- ==== Proof.ValueTac.lean ====
import proofs.«900896_g7700000000000897_dist_matmul_mk_i_outk_m3072_n3072_k1536_v7x_i8_bf16_1_alg».proof.Proof.Blocks
import proofs.«900896_g7700000000000897_dist_matmul_mk_i_outk_m3072_n3072_k1536_v7x_i8_bf16_1_alg».proof.Proof.Slots
import proofs.«900896_g7700000000000897_dist_matmul_mk_i_outk_m3072_n3072_k1536_v7x_i8_bf16_1_alg».proof.Proof.LocalValues
import proofs.«900896_g7700000000000897_dist_matmul_mk_i_outk_m3072_n3072_k1536_v7x_i8_bf16_1_alg».proof.Proof.CastValues
import proofs.«900896_g7700000000000897_dist_matmul_mk_i_outk_m3072_n3072_k1536_v7x_i8_bf16_1_alg».proof.Proof.OutValue
import Idealize.ShloMosaic.Lib.Tactic

noncomputable section

namespace Cert.KernelIdeal.Hand

open Cert.KernelIdeal Cert.KernelIdeal.Gen
open Idealize.ShloMosaic Idealize.SL.Sem

variable {F : FTy → Type} [FloatOps F]

abbrev ColPieces (F : FTy → Type) : Type := List (View.Piece (Elt F) cc0_scratch1.ty.shape cc0_scratch1.ty.elt)

theorem cols_read_skip {sp : Space} {V : View sig .tc sp cc0_scratch1.ty.shape cc0_scratch1.ty.elt} {oa ob : Nat}
    {inba : ∀ x, (![0, oa] : Fin 2 → Nat) x + (![1536, 1024] : Fin 2 → Nat) x ≤ S1536x3072.size x}
    {inbb : ∀ x, (![0, ob] : Fin 2 → Nat) x + (![1536, 1024] : Fin 2 → Nat) x ≤ S1536x3072.size x}
    (h : ob + 1024 ≤ oa ∨ oa + 1024 ≤ ob)
    (w : (Rect.unit (s := S1536x3072) ![0, ob] ![1536, 1024] inbb).shape.Idx → Elt F cc0_scratch1.ty.elt) (L : ColPieces F) :
    V.readCov (⟨Rect.unit (s := S1536x3072) ![0, ob] ![1536, 1024] inbb, w⟩ :: L)
        (Rect.unit (s := S1536x3072) ![0, oa] ![1536, 1024] inba).toLoadRect
      = V.readCov L (Rect.unit (s := S1536x3072) ![0, oa] ![1536, 1024] inba).toLoadRect :=
  View.readCov_cons_of_disjoint V _ L _ (Rect.unit_disjoint (s := S1536x3072) (inb := inbb) (inb' := inba) 1 h)

/-- A load of the 1024 columns at offset `oa` reads past a store of the 1024 columns at another offset `ob`. -/
abbrev ColsSkip (F : FTy → Type) [FloatOps F] (oa ob : ℕ) : Prop :=
  ∀ {sp : Space} {V : View sig .tc sp cc0_scratch1.ty.shape cc0_scratch1.ty.elt}
    {inba : ∀ x, (![0, oa] : Fin 2 → Nat) x + (![1536, 1024] : Fin 2 → Nat) x ≤ S1536x3072.size x}
    {inbb : ∀ x, (![0, ob] : Fin 2 → Nat) x + (![1536, 1024] : Fin 2 → Nat) x ≤ S1536x3072.size x}
    (w : (Rect.unit (s := S1536x3072) ![0, ob] ![1536, 1024] inbb).shape.Idx → Elt F cc0_scratch1.ty.elt) (L : ColPieces F),
    V.readCov (⟨Rect.unit (s := S1536x3072) ![0, ob] ![1536, 1024] inbb, w⟩ :: L)
        (Rect.unit (s := S1536x3072) ![0, oa] ![1536, 1024] inba).toLoadRect
      = V.readCov L (Rect.unit (s := S1536x3072) ![0, oa] ![1536, 1024] inba).toLoadRect

theorem cols_0_1 : ColsSkip F 0 1024 := cols_read_skip (by decide)
theorem cols_0_2 : ColsSkip F 0 2048 := cols_read_skip (by decide)
theorem cols_1_2 : ColsSkip F 1024 2048 := cols_read_skip (by decide)
theorem cols_1_0 : ColsSkip F 1024 0 := cols_read_skip (by decide)
theorem cols_2_0 : ColsSkip F 2048 0 := cols_read_skip (by decide)
theorem cols_2_1 : ColsSkip F 2048 1024 := cols_read_skip (by decide)

theorem readAt_canon_dev {N : Nat} (W : Memref sig .tc .vmem (SN N) .bf16) (hsq : S1x1x384x1024.Squeezes S384x1024) (q j : Nat)
    (inb : ∀ a, (![q, j, 0, 0] : Fin 4 → Nat) a + S1x1x384x1024.size a ≤ (SN N).size a) (c : Dev nD)
    (v : Vec F S1x1x384x1024 .bf16) :
    W.view.readAt (Elt F) (slotRect N q j inb).toLoadRect
        (canon (c := (c.tc : Thread nD τ)) (Val := Elt F) (slotM W hsq q j inb) v) = v :=
  readAt_canon (c := (c.tc : Thread nD τ)) W hsq q j inb v

theorem v_store {sg : RefSig} {κ : Kind} {sp : Space} {s : Shape} {e : EltTy} {Val : EltTy → Type}
    {v : View sg κ sp s e} (R : Rect s) (f : v.ty.Contents Val) (w : R.shape.Idx → Val e) :
    v.readAt Val R.toLoadRect ((v.slice R).write Val f w Finset.univ) = w :=
  View.read_write_univ (v := v.slice R) f w

/-- The 384 rows of the left array copied under mask `x` and loaded back are the rows of the partner under `x`. -/
abbrev RowsStaged (F : FTy → Type) [FloatOps F] (c : Dev nD) (x : ℕ) : Prop :=
  ∀ {o3 : Fin 3 → Nat} {inbs : ∀ a, o3 a + (![1, 384, 1536] : Fin 3 → Nat) a ≤ S2x384x1536.size a}
    {h : S384x1536.numel = (Rect.unit (s := S2x384x1536) o3 ![1, 384, 1536] inbs).shape.numel}
    {inb : ∀ a, k0_off1 c (BitVec.ofNat 32 x) a + (![384, 1536] : Fin 2 → Nat) a ≤ S3072x1536.size a}
    (f2 : (View.whole cc0_scratch2).ty.Contents (Elt F)) (fA : (View.whole main_arg0).ty.Contents (Elt F)),
    View.readAt (Elt F) (View.whole cc0_scratch2) (Rect.unit (s := S2x384x1536) o3 ![1, 384, 1536] inbs).toLoadRect
      (View.write (Elt F) (((View.whole cc0_scratch2).slice (Rect.unit (s := S2x384x1536) o3 ![1, 384, 1536] inbs)).reshape S384x1536 h) f2
        ((ReadAs.same : ReadAs (Elt F) S384x1536 .f32 S384x1536 .f32).apply
          (View.read (Elt F) ((View.whole main_arg0).slice (Rect.unit (s := S3072x1536) (k0_off1 c (BitVec.ofNat 32 x)) ![384, 1536] inb)) fA))
        Finset.univ)
      = rowsOf fA (px x c)

theorem rows_staged (c : Dev nD) (x : Fin 8) : RowsStaged F c x.val := fun {o3} {inbs} {_} {_} f2 fA =>
  stageA_read (o3 := o3) (inbs := inbs) (hss := fun _ => rfl) (hq := squeezes_S1x384x1536_S384x1536) (hs := fun _ => rfl)
    c (px x.val c) (off1_eq c x) f2 fA

theorem vA_6 (c : Dev nD) : RowsStaged F c 6 := rows_staged c 6
theorem vA_7 (c : Dev nD) : RowsStaged F c 7 := rows_staged c 7
theorem vA_2 (c : Dev nD) : RowsStaged F c 2 := rows_staged c 2
theorem vA_5 (c : Dev nD) : RowsStaged F c 5 := rows_staged c 5
theorem vA_4 (c : Dev nD) : RowsStaged F c 4 := rows_staged c 4
theorem vA_3 (c : Dev nD) : RowsStaged F c 3 := rows_staged c 3
theorem vA_1 (c : Dev nD) : RowsStaged F c 1 := rows_staged c 1
theorem vA_0 (c : Dev nD) : RowsStaged F c 0 := rows_staged c 0

/-- The 1024 columns of the right array copied from column offset `o` and loaded back are column third `q`. -/
abbrev ColsStaged (F : FTy → Type) [FloatOps F] (o : ℕ) (q : Fin 3) : Prop :=
  ∀ {inbs : ∀ a, (![0, 0] : Fin 2 → Nat) a + (![1536, 1024] : Fin 2 → Nat) a ≤ S1536x1024.size a}
    {inb : ∀ a, (![0, o] : Fin 2 → Nat) a + (![1536, 1024] : Fin 2 → Nat) a ≤ S1536x3072.size a}
    (f3 : (View.whole cc0_scratch3).ty.Contents (Elt F)) (fB : (View.whole main_arg1).ty.Contents (Elt F)),
    View.readAt (Elt F) (View.whole cc0_scratch3) (Rect.unit (s := S1536x1024) ![0, 0] ![1536, 1024] inbs).toLoadRect
      (View.write (Elt F) (View.whole cc0_scratch3) f3
        ((ReadAs.same : ReadAs (Elt F) S1536x1024 .f32 S1536x1024 .f32).apply
          (View.read (Elt F) ((View.whole main_arg1).slice (Rect.unit (s := S1536x3072) ![0, o] ![1536, 1024] inb)) fB))
        Finset.univ)
      = colsOf fB q

theorem cols_staged (q : Fin 3) : ColsStaged F (1024 * q.val) q := fun {inbs} {inb} f3 fB =>
  stageB_read (inbs := inbs) (inb := inb) (hs := fun _ => rfl) (0 : Dev nD) q zero_off2 rfl f3 fB

theorem vB_0 : ColsStaged F 0 0 := cols_staged 0
theorem vB_1 : ColsStaged F 1024 1 := cols_staged 1
theorem vB_2 : ColsStaged F 2048 2 := cols_staged 2

theorem vCanon_4 (q j : Nat) {inb : ∀ a, (![q, j, 0, 0] : Fin 4 → Nat) a + (![1, 1, 384, 1024] : Fin 4 → Nat) a ≤ S3x4x384x1024.size a}
    {inb' : ∀ a, (![q, j, 0, 0] : Fin 4 → Nat) a + S1x1x384x1024.size a ≤ (SN 4).size a}
    {hsq : S1x1x384x1024.Squeezes S384x1024} (c : Dev nD) (v : Vec F S1x1x384x1024 .bf16) :
    View.readAt (Elt F) (View.whole cc0_scratch5) (Rect.unit (s := S3x4x384x1024) ![q, j, 0, 0] ![1, 1, 384, 1024] inb).toLoadRect
        (canon (c := (c.tc : Thread nD τ)) (Val := Elt F) (slotM (N := 4) (Memref.whole cc0_scratch5) hsq q j inb') v) = v :=
  readAt_canon_dev (N := 4) (Memref.whole cc0_scratch5) hsq q j inb' c v

theorem vCanon_2 (q j : Nat) {inb : ∀ a, (![q, j, 0, 0] : Fin 4 → Nat) a + (![1, 1, 384, 1024] : Fin 4 → Nat) a ≤ S3x2x384x1024.size a}
    {inb' : ∀ a, (![q, j, 0, 0] : Fin 4 → Nat) a + S1x1x384x1024.size a ≤ (SN 2).size a}
    {hsq : S1x1x384x1024.Squeezes S384x1024} (c : Dev nD) (v : Vec F S1x1x384x1024 .bf16) :
    View.readAt (Elt F) (View.whole cc0_scratch6) (Rect.unit (s := S3x2x384x1024) ![q, j, 0, 0] ![1, 1, 384, 1024] inb).toLoadRect
        (canon (c := (c.tc : Thread nD τ)) (Val := Elt F) (slotM (N := 2) (Memref.whole cc0_scratch6) hsq q j inb') v) = v :=
  readAt_canon_dev (N := 2) (Memref.whole cc0_scratch6) hsq q j inb' c v

theorem vCanon_1 (q j : Nat) {inb : ∀ a, (![q, j, 0, 0] : Fin 4 → Nat) a + (![1, 1, 384, 1024] : Fin 4 → Nat) a ≤ S3x1x384x1024.size a}
    {inb' : ∀ a, (![q, j, 0, 0] : Fin 4 → Nat) a + S1x1x384x1024.size a ≤ (SN 1).size a}
    {hsq : S1x1x384x1024.Squeezes S384x1024} (c : Dev nD) (v : Vec F S1x1x384x1024 .bf16) :
    View.readAt (Elt F) (View.whole cc0_scratch7) (Rect.unit (s := S3x1x384x1024) ![q, j, 0, 0] ![1, 1, 384, 1024] inb).toLoadRect
        (canon (c := (c.tc : Thread nD τ)) (Val := Elt F) (slotM (N := 1) (Memref.whole cc0_scratch7) hsq q j inb') v) = v :=
  readAt_canon_dev (N := 1) (Memref.whole cc0_scratch7) hsq q j inb' c v

macro "value_norm" : tactic => `(tactic| (
  sl_unfold_run_names
  simp only [v_store, vCanon_4, vCanon_2, vCanon_1,
    cast_read_same, View.readCov_cons_toLoadRect,
    rows_6_7, rows_6_2, rows_6_5, rows_6_4, rows_6_3, rows_6_1, rows_6_0, rows_7_2, rows_7_5, rows_7_4, rows_7_3, rows_7_1, rows_7_0, rows_2_5, rows_2_4, rows_2_3, rows_2_1, rows_2_0, rows_5_4, rows_5_3, rows_5_1, rows_5_0, rows_4_3, rows_4_1, rows_4_0, rows_3_1, rows_3_0, rows_1_0,
    cols_0_1, cols_0_2, cols_1_2, cols_1_0, cols_2_0, cols_2_1]
  repeat (first
    | rw [vA_6 _] | rw [vA_7 _] | rw [vA_2 _] | rw [vA_5 _] | rw [vA_4 _] | rw [vA_3 _] | rw [vA_1 _] | rw [vA_0 _]
    | rw [vB_0] | rw [vB_1] | rw [vB_2])))

macro "block_value" : tactic => `(tactic| (value_norm; rfl))

macro "out_value" : tactic => `(tactic| (value_norm; exact out_writes_outBuf _ _ _))

/-- info: 'Cert.KernelIdeal.Hand.vA_0' depends on axioms: [propext, Classical.choice, Quot.sound] -/
#guard_msgs in #print axioms vA_0
/-- info: 'Cert.KernelIdeal.Hand.vCanon_4' depends on axioms: [propext, Classical.choice, Quot.sound] -/
#guard_msgs in #print axioms vCanon_4
/-- info: 'Cert.KernelIdeal.Hand.cols_2_1' depends on axioms: [propext, Classical.choice, Quot.sound] -/
#guard_msgs in #print axioms cols_2_1

end Cert.KernelIdeal.Hand

end
-- ==== Proof.Body.lean ====
import proofs.«900896_g7700000000000897_dist_matmul_mk_i_outk_m3072_n3072_k1536_v7x_i8_bf16_1_alg».proof.Proof.BodyFinish
import proofs.«900896_g7700000000000897_dist_matmul_mk_i_outk_m3072_n3072_k1536_v7x_i8_bf16_1_alg».proof.Proof.BodyGlue
import proofs.«900896_g7700000000000897_dist_matmul_mk_i_outk_m3072_n3072_k1536_v7x_i8_bf16_1_alg».proof.Proof.SendStep
import proofs.«900896_g7700000000000897_dist_matmul_mk_i_outk_m3072_n3072_k1536_v7x_i8_bf16_1_alg».proof.Proof.ValueTac
import proofs.«900896_g7700000000000897_dist_matmul_mk_i_outk_m3072_n3072_k1536_v7x_i8_bf16_1_alg».proof.Proof.OutValue
import proofs.«900896_g7700000000000897_dist_matmul_mk_i_outk_m3072_n3072_k1536_v7x_i8_bf16_1_alg».proof.Proof.Gen.KernelIdeal.Skeleton
import Idealize.ShloMosaic.Lib.Tactic

noncomputable section

namespace Cert.KernelIdeal.Hand

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

attribute [local sl_rounds] someAt_eq holds_eq duties_bar amount_bar expect_bar payload_bar_1 payload_bar_3 payload_bar_4 payload_bar_peer_1 payload_bar_peer_3 payload_bar_peer_4 amount_dma duties_4 expect_4 payload_4 duties_16 expect_16 payload_16 duties_5 expect_5 payload_5 duties_17 expect_17 payload_17 duties_6 expect_6 payload_6 duties_18 expect_18 payload_18 duties_7 expect_7 payload_7 duties_19 expect_19 payload_19 duties_8 expect_8 payload_8 duties_20 expect_20 payload_20 duties_9 expect_9 payload_9 duties_21 expect_21 payload_21 duties_10 expect_10 payload_10 duties_22 expect_22 payload_22 duties_11 expect_11 payload_11 duties_23 expect_23 payload_23 duties_12 expect_12 payload_12 duties_24 expect_24 payload_24 duties_13 expect_13 payload_13 duties_25 expect_25 payload_25 duties_14 expect_14 payload_14 duties_26 expect_26 payload_26 duties_15 expect_15 payload_15 duties_27 expect_27 payload_27 duties_28 expect_28 payload_28 duties_34 expect_34 payload_34 duties_29 expect_29 payload_29 duties_35 expect_35 payload_35 duties_30 expect_30 payload_30 duties_36 expect_36 payload_36 duties_31 expect_31 payload_31 duties_37 expect_37 payload_37 duties_32 expect_32 payload_32 duties_38 expect_38 payload_38 duties_33 expect_33 payload_33 duties_39 expect_39 payload_39 duties_40 expect_40 payload_40 duties_43 expect_43 payload_43 duties_41 expect_41 payload_41 duties_44 expect_44 payload_44 duties_42 expect_42 payload_42 duties_45 expect_45 payload_45
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq

macro "body_disch" : tactic => `(tactic| first
  | ((repeat' (first | exact above_zero _ | apply above_add | exact above_tally _ _ _ _ (by decide))); done)
  | (simp only [dev1_eq, dev2_eq, dev3_eq, dev4_eq, dev5_eq, dev6_eq, dev7_eq, dev8_eq, dev9_eq, dev10_eq, dev11_eq, dev12_eq, dev13_eq, dev14_eq, dev15_eq, dev16_eq, dev17_eq, dev18_eq, dev19_eq, dev20_eq, dev21_eq, dev22_eq, dev23_eq, dev24_eq]; done)
  | decide)

theorem wp_send_slot' (𝒱 : Variants) {N N' : Nat} (Ws : Memref sig .tc .vmem (SN N) .bf16) (Wd : Memref sig .tc .vmem (SN N') .bf16)
    (hsq : S1x1x384x1024.Squeezes S384x1024) (q j : Nat) (inb) (q' j' : Nat) (inb') (c : Dev nD) (x : Nat) (n : Dev nD) (hn : n = px x c)
    (sS sR : DmaSem sig) (sS' sR' : DmaSem sig) (hS : sS' = sS) (hR : sR' = sR) {hsc hsrc hdst hsem} {α : Type} {Q : α → sProp 𝕄} {k : PUnit → Prog (TpuEff nD τ sig (Elt F) Λ₀ .tc) α}
    (κ₁ κ₂ : ℕ) {fs : Buf (Elt F) (Ws.view.loc (c : Thread nD τ))} (fd : Buf (Elt F) (Wd.view.loc (px x c : Thread nD τ)))
    (v : Vec F S1x1x384x1024 .bf16)
    (hd₁ : 4 ≤ sS.val) (hd₂ : 4 ≤ sR.val)
    (hp₁ : (Rd m).payload ((c : Thread nD τ), .dma sS) 0 0 = someAt (slotM Ws hsq q j inb) c)
    (hp₂ : (Rd m).payload ((px x c : Thread nD τ), .dma sR) 0 0 = holds (slotM Wd hsq q' j' inb') (px x c) v)
    (O : CellTallies nD τ sig Unit) (W : Waits sig Unit) :
    iprop(⌜Ws.view.readAt (Elt F) (slotRect N q j inb).toLoadRect fs = v⌝
        ∗ cellInv ER (Rd m) κ₁ ((c : Thread nD τ), .dma sS) ∗ cellInv ER (Rd m) κ₂ ((px x c : Thread nD τ), .dma sR)
        ∗ ((slotM Ws hsq q j inb).view.loc (c : Thread nD τ) ↦[(slotM Ws hsq q j inb).view.set]{fullShare} fs)
        ∗ ((slotM Wd hsq q' j' inb').view.loc (px x c : Thread nD τ) ↦[(slotM Wd hsq q' j' inb').view.set]{fullShare} fd)
        ∗ owes (c : Thread nD τ) (O + tallyAt ((px x c : Thread nD τ), .dma sR) () NX) W
        ∗ dutyTok ER ((c : Thread nD τ), .dma sS) 0 0 ∗ reached ER ((c : Thread nD τ), .dma sS) 0
        ∗ dutyTok ER ((px x c : Thread nD τ), .dma sR) 0 0 ∗ reached ER ((px x c : Thread nD τ), .dma sR) 0)
      ⊢ iprop(((cred (tallyAt ((c : Thread nD τ), .dma sS) () NX) ∗ owes (c : Thread nD τ) O W) -∗ wp frame (wpE (defs₀ (F := F)) 𝒱 c none) Set.univ (k ⟨⟩) Q)
          -∗ wp frame (wpE (defs₀ (F := F)) 𝒱 c none) Set.univ
              (.op (.enqueueDma (slotM Ws hsq q j inb) (.remote (Dev.tc n) (slotM Wd hsq q' j' inb') (.dma sS') hsc) (.dma sR') hsrc hdst hsem) k) Q) := by
  subst hS hR
  iintro ⟨%hs, H⟩
  iapply (wp_send_slot 𝒱 m Ws Wd hsq q j inb q' j' inb' c x n hn _ _ κ₁ κ₂ 0 0 fs fd v hs
    (by rw [duties_dma m c _ hd₁]; exact Finset.mem_singleton_self _) (by rw [duties_dma m (px x c) _ hd₂]; exact Finset.mem_singleton_self _) hp₁ hp₂ O W) $$ H

attribute [local irreducible] px

set_option maxHeartbeats 16000000 in
set_option maxRecDepth 100000 in
theorem sound_body (ρ : Dev nD → PrngReg) (c : Dev nD) (K : Dev nD × Fin 43 → ℕ) (W : Waits sig Unit)
    (fHo : Bf (F := F) c (Memref.whole cc0_stg0_0)) (fH0 : Bf (F := F) c (Memref.whole cc0_scratch0)) (fH1 : Bf (F := F) c (Memref.whole cc0_scratch1)) (fH2 : Bf (F := F) c (Memref.whole cc0_scratch2)) (fH3 : Bf (F := F) c (Memref.whole cc0_scratch3))
    (fS : Buf (Elt F) (sb_0_0.view.loc (c : Thread nD τ))) :
    bodyPre m c K W fHo fH0 fH1 fH2 fH3 fS
    ⊢ wp frame (wpE (defs₀ (F := F)) 𝒱₀ c none) Set.univ
        (cc0_body (Memref.whole main_arg0) (Memref.isWhole_whole _) (Memref.whole main_arg1) (Memref.isWhole_whole _)
          (Memref.whole cc0_stg0_0) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          (Memref.whole cc0_scratch5) (Memref.isWhole_whole _) (Memref.whole cc0_scratch6) (Memref.isWhole_whole _)
          (Memref.whole cc0_scratch7) (Memref.isWhole_whole _)
          cc0_scratch8 cc0_scratch9 cc0_scratch10 cc0_scratch11 cc0_scratch12 cc0_scratch13 cc0_scratch14 cc0_scratch15)
        (fun _ => bodyPost m ρ c) := by
  unfold bodyPre invs rchs sendPos recvPos toks recvCreds
  iintro ⟨⟨#Ib, #Ib1, #Ib3, #Ib4, #Is4, #Is16, #Ir16, #Is5, #Is17, #Ir17, #Is6, #Is18, #Ir18, #Is7, #Is19, #Ir19, #Is8, #Is20, #Ir20, #Is9, #Is21, #Ir21, #Is10, #Is22, #Ir22, #Is11, #Is23, #Ir23, #Is12, #Is24, #Ir24, #Is13, #Is25, #Ir25, #Is14, #Is26, #Ir26, #Is15, #Is27, #Ir27, #Is28, #Is34, #Ir34, #Is29, #Is35, #Ir35, #Is30, #Is36, #Ir36, #Is31, #Is37, #Ir37, #Is32, #Is38, #Ir38, #Is33, #Is39, #Ir39, #Is40, #Is43, #Ir43, #Is41, #Is44, #Ir44, #Is42, #Is45, #Ir45⟩, ⟨#Rb1, #Rb3, #Rb4, #Rs4, #Rr16, #Rs5, #Rr17, #Rs6, #Rr18, #Rs7, #Rr19, #Rs8, #Rr20, #Rs9, #Rr21, #Rs10, #Rr22, #Rs11, #Rr23, #Rs12, #Rr24, #Rs13, #Rr25, #Rs14, #Rr26, #Rs15, #Rr27, #Rs28, #Rr34, #Rs29, #Rr35, #Rs30, #Rr36, #Rs31, #Rr37, #Rs32, #Rr38, #Rs33, #Rr39, #Rs40, #Rr43, #Rs41, #Rr44, #Rs42, #Rr45⟩, #Hlev, ⟨Ab, ⟨A4, A5, A6, A7, A8, A9, A10, A11, A12, A13, A14, A15, A28, A29, A30, A31, A32, A33, A40, A41, A42⟩, ⟨A16, A17, A18, A19, A20, A21, A22, A23, A24, A25, A26, A27, A34, A35, A36, A37, A38, A39, A43, A44, A45⟩⟩, ⟨⟨Tb1, Tb3, Tb4⟩, ⟨Ts4, Ts5, Ts6, Ts7, Ts8, Ts9, Ts10, Ts11, Ts12, Ts13, Ts14, Ts15, Ts28, Ts29, Ts30, Ts31, Ts32, Ts33, Ts40, Ts41, Ts42⟩, ⟨Tr16, Tr17, Tr18, Tr19, Tr20, Tr21, Tr22, Tr23, Tr24, Tr25, Tr26, Tr27, Tr34, Tr35, Tr36, Tr37, Tr38, Tr39, Tr43, Tr44, Tr45⟩⟩, ⟨Cb, ⟨Cr16, Cr17, Cr18, Cr19, Cr20, Cr21, Cr22, Cr23, Cr24, Cr25, Cr26, Cr27, Cr34, Cr35, Cr36, Cr37, Cr38, Cr39, Cr43, Cr44, Cr45⟩⟩, HO, ⟨HA, HB, Ho, H0, H1, H2, H3⟩, ⟨⟨Ssb_0_0, Ssb_0_1, Ssb_0_2, Ssb_0_3, Ssb_1_0, Ssb_1_1, Ssb_1_2, Ssb_1_3, Ssb_2_0, Ssb_2_1, Ssb_2_2, Ssb_2_3⟩, ⟨Hbs1, Hbs3, Hbs4⟩⟩, ⟨Hs1, Hs2, Hs3⟩⟩

  have hmwL1 : ∀ (sm : SemLoc sig), lvS sm ≤ 1 → ∀ (O : CellTallies nD τ sig Unit), Above 1 O → ((levAts L lv : sProp 𝕄) ⊢ MayWait (c : Thread nD τ) sm () O) := fun sm h O hO => mayWait_of_above c sm 1 h O hO
  have hmwL2 : ∀ (sm : SemLoc sig), lvS sm ≤ 2 → ∀ (O : CellTallies nD τ sig Unit), Above 2 O → ((levAts L lv : sProp 𝕄) ⊢ MayWait (c : Thread nD τ) sm () O) := fun sm h O hO => mayWait_of_above c sm 2 h O hO
  have hmwL3 : ∀ (sm : SemLoc sig), lvS sm ≤ 3 → ∀ (O : CellTallies nD τ sig Unit), Above 3 O → ((levAts L lv : sProp 𝕄) ⊢ MayWait (c : Thread nD τ) sm () O) := fun sm h O hO => mayWait_of_above c sm 3 h O hO

  have a1_0 : Above 1 (0 : CellTallies nD τ sig Unit) := above_zero 1
  have a1_1 := above_add a1_0 (above_tally 1 (px 3 c) (.dma 45) NX (by decide))
  have a1_2 := above_add a1_1 (above_tally 1 (px 4 c) (.dma 44) NX (by decide))
  have a1_3 := above_add a1_2 (above_tally 1 (px 1 c) (.dma 43) NX (by decide))
  have a1_4 := above_add a1_3 (above_tally 1 (px 4 c) (.dma 39) NX (by decide))
  have a1_5 := above_add a1_4 (above_tally 1 (px 1 c) (.dma 37) NX (by decide))
  have a1_6 := above_add a1_5 (above_tally 1 (px 3 c) (.dma 35) NX (by decide))
  have a1_7 := above_add a1_6 (above_tally 1 (px 4 c) (.dma 38) NX (by decide))
  have a1_8 := above_add a1_7 (above_tally 1 (px 1 c) (.dma 36) NX (by decide))
  have a1_9 := above_add a1_8 (above_tally 1 (px 3 c) (.dma 34) NX (by decide))
  have a1_10 := above_add a1_9 (above_tally 1 (px 1 c) (.dma 27) NX (by decide))
  have a1_11 := above_add a1_10 (above_tally 1 (px 3 c) (.dma 23) NX (by decide))
  have a1_12 := above_add a1_11 (above_tally 1 (px 4 c) (.dma 19) NX (by decide))
  have a1_13 := above_add a1_12 (above_tally 1 (px 1 c) (.dma 26) NX (by decide))
  have a1_14 := above_add a1_13 (above_tally 1 (px 3 c) (.dma 22) NX (by decide))
  have a1_15 := above_add a1_14 (above_tally 1 (px 4 c) (.dma 18) NX (by decide))
  have a1_16 := above_add a1_15 (above_tally 1 (px 1 c) (.dma 25) NX (by decide))
  have a1_17 := above_add a1_16 (above_tally 1 (px 3 c) (.dma 21) NX (by decide))
  have a1_18 := above_add a1_17 (above_tally 1 (px 4 c) (.dma 17) NX (by decide))
  have a1_19 := above_add a1_18 (above_tally 1 (px 1 c) (.dma 24) NX (by decide))
  have a1_20 := above_add a1_19 (above_tally 1 (px 3 c) (.dma 20) NX (by decide))
  have a1_21 := above_add a1_20 (above_tally 1 (px 4 c) (.dma 16) NX (by decide))
  have a2_0 : Above 2 (0 : CellTallies nD τ sig Unit) := above_zero 2
  have a2_1 := above_add a2_0 (above_tally 2 (px 3 c) (.dma 45) NX (by decide))
  have a2_2 := above_add a2_1 (above_tally 2 (px 4 c) (.dma 44) NX (by decide))
  have a2_3 := above_add a2_2 (above_tally 2 (px 1 c) (.dma 43) NX (by decide))
  have a2_4 := above_add a2_3 (above_tally 2 (px 4 c) (.dma 39) NX (by decide))
  have a2_5 := above_add a2_4 (above_tally 2 (px 1 c) (.dma 37) NX (by decide))
  have a2_6 := above_add a2_5 (above_tally 2 (px 3 c) (.dma 35) NX (by decide))
  have a2_7 := above_add a2_6 (above_tally 2 (px 4 c) (.dma 38) NX (by decide))
  have a2_8 := above_add a2_7 (above_tally 2 (px 1 c) (.dma 36) NX (by decide))
  have a2_9 := above_add a2_8 (above_tally 2 (px 3 c) (.dma 34) NX (by decide))
  have a3_0 : Above 3 (0 : CellTallies nD τ sig Unit) := above_zero 3
  have a3_1 := above_add a3_0 (above_tally 3 (px 3 c) (.dma 45) NX (by decide))
  have a3_2 := above_add a3_1 (above_tally 3 (px 4 c) (.dma 44) NX (by decide))
  have a3_3 := above_add a3_2 (above_tally 3 (px 1 c) (.dma 43) NX (by decide))
  sl_exec_parts (disch := body_disch)
  iapply (Rounds.wp_signal 𝒱₀ ER (Rd m) (c : Thread nD τ) none (dst := (px 1 c : Thread nD τ)) (κ := K (px 1 c, 0))
      (d := 1) (by rw [duties_bar]; decide) (amount_bar m (px 1 c) 0 1) () _ rfl) $$ [HO Tb1 Hbs1]
  · isplitr; · iexact Ib1
    isplitl [HO]; · iexact HO
    isplitl [Tb1]; · iexact Tb1
    isplitl [Hbs1]; · rw [payload_bar_peer_1]; iexact Hbs1
    iexact Rb1
  iintro HO
  sl_exec_parts (disch := body_disch)
  iapply (Rounds.wp_signal 𝒱₀ ER (Rd m) (c : Thread nD τ) none (dst := (px 3 c : Thread nD τ)) (κ := K (px 3 c, 0))
      (d := 3) (by rw [duties_bar]; decide) (amount_bar m (px 3 c) 0 3) () _ rfl) $$ [HO Tb3 Hbs3]
  · isplitr; · iexact Ib3
    isplitl [HO]; · iexact HO
    isplitl [Tb3]; · iexact Tb3
    isplitl [Hbs3]; · rw [payload_bar_peer_3]; iexact Hbs3
    iexact Rb3
  iintro HO
  sl_exec_parts (disch := body_disch)
  iapply (Rounds.wp_signal 𝒱₀ ER (Rd m) (c : Thread nD τ) none (dst := (px 4 c : Thread nD τ)) (κ := K (px 4 c, 0))
      (d := 4) (by rw [duties_bar]; decide) (amount_bar m (px 4 c) 0 4) () _ rfl) $$ [HO Tb4 Hbs4]
  · isplitr; · iexact Ib4
    isplitl [HO]; · iexact HO
    isplitl [Tb4]; · iexact Tb4
    isplitl [Hbs4]; · rw [payload_bar_peer_4]; iexact Hbs4
    iexact Rb4
  iintro HO
  sl_exec_parts (disch := body_disch)
  ihave Hp := (Entails.of_eq (show (BI.sep (barSlots (px 1 c) 1) (BI.sep (barSlots (px 3 c) 3) (barSlots (px 4 c) 4)) : sProp 𝕄) = iprop(barSlots (px 1 c) 1 ∗ barSlots (px 3 c) 3 ∗ barSlots (px 4 c) 4) from rfl)) $$ Ab_pay1
  icases Hp with ⟨B1, B3, B4⟩
  ihave B1' := (Entails.of_eq (barSlots_at_1 (F := F) (px 1 c))) $$ B1
  ihave B3' := (Entails.of_eq (barSlots_at_3 (F := F) (px 3 c))) $$ B3
  ihave B4' := (Entails.of_eq (barSlots_at_4 (F := F) (px 4 c))) $$ B4
  icases B4' with ⟨E16, B4'⟩
  ihave E16' := (Entails.of_eq (someAt_eq (F := F) r1_0_0 (px 4 c))) $$ E16
  icases E16' with ⟨%fd16, D16⟩
  iapply (wp_send_slot' m 𝒱₀ (Memref.whole cc0_scratch4) (Memref.whole cc0_scratch5) squeezes_S1x1x384x1024_S384x1024 0 0 inb_S3x4x384x1024_S1x1x384x1024_0_0_0_0 0 0 inb_S3x4x384x1024_S1x1x384x1024_0_0_0_0
      c 4 (px 4 c) rfl 4 16 _ _ rfl rfl (K (c, 1)) (K (px 4 c, 13)) fd16 (sent1 (rowsA m) (colsB m) c 0 0) (by decide) (by decide)
      (payload_4 m c 0 0) (by rw [payload_16]; exact congrArg (holds _ _) (by unfold recv1; rw [show px (X1 0) (px 4 c) = c from px_px 4 c])) _ _) $$ [Ssb_0_0 D16 HO Ts4 Tr16]
  · isplitl []
    swap
    · iframe Is4 Ir16 Ssb_0_0 D16 HO Ts4 Rs4 Tr16 Rr16
    · ipureintro
      block_value
  iintro ⟨Cs4, HO⟩
  sl_exec_parts (disch := body_disch)
  icases B3' with ⟨E20, B3'⟩
  ihave E20' := (Entails.of_eq (someAt_eq (F := F) r1_1_0 (px 3 c))) $$ E20
  icases E20' with ⟨%fd20, D20⟩
  iapply (wp_send_slot' m 𝒱₀ (Memref.whole cc0_scratch4) (Memref.whole cc0_scratch5) squeezes_S1x1x384x1024_S384x1024 1 0 inb_S3x4x384x1024_S1x1x384x1024_1_0_0_0 1 0 inb_S3x4x384x1024_S1x1x384x1024_1_0_0_0
      c 3 (px 3 c) rfl 8 20 _ _ rfl rfl (K (c, 5)) (K (px 3 c, 17)) fd20 (sent1 (rowsA m) (colsB m) c 1 0) (by decide) (by decide)
      (payload_8 m c 0 0) (by rw [payload_20]; exact congrArg (holds _ _) (by unfold recv1; rw [show px (X1 1) (px 3 c) = c from px_px 3 c])) _ _) $$ [Ssb_1_0 D20 HO Ts8 Tr20]
  · isplitl []
    swap
    · iframe Is8 Ir20 Ssb_1_0 D20 HO Ts8 Rs8 Tr20 Rr20
    · ipureintro
      block_value
  iintro ⟨Cs8, HO⟩
  sl_exec_parts (disch := body_disch)
  icases B1' with ⟨E24, B1'⟩
  ihave E24' := (Entails.of_eq (someAt_eq (F := F) r1_2_0 (px 1 c))) $$ E24
  icases E24' with ⟨%fd24, D24⟩
  iapply (wp_send_slot' m 𝒱₀ (Memref.whole cc0_scratch4) (Memref.whole cc0_scratch5) squeezes_S1x1x384x1024_S384x1024 2 0 inb_S3x4x384x1024_S1x1x384x1024_2_0_0_0 2 0 inb_S3x4x384x1024_S1x1x384x1024_2_0_0_0
      c 1 (px 1 c) rfl 12 24 _ _ rfl rfl (K (c, 9)) (K (px 1 c, 21)) fd24 (sent1 (rowsA m) (colsB m) c 2 0) (by decide) (by decide)
      (payload_12 m c 0 0) (by rw [payload_24]; exact congrArg (holds _ _) (by unfold recv1; rw [show px (X1 2) (px 1 c) = c from px_px 1 c])) _ _) $$ [Ssb_2_0 D24 HO Ts12 Tr24]
  · isplitl []
    swap
    · iframe Is12 Ir24 Ssb_2_0 D24 HO Ts12 Rs12 Tr24 Rr24
    · ipureintro
      block_value
  iintro ⟨Cs12, HO⟩
  sl_exec_parts (disch := body_disch)
  icases B4' with ⟨E17, B4'⟩
  ihave E17' := (Entails.of_eq (someAt_eq (F := F) r1_0_1 (px 4 c))) $$ E17
  icases E17' with ⟨%fd17, D17⟩
  iapply (wp_send_slot' m 𝒱₀ (Memref.whole cc0_scratch4) (Memref.whole cc0_scratch5) squeezes_S1x1x384x1024_S384x1024 0 1 inb_S3x4x384x1024_S1x1x384x1024_0_1_0_0 0 1 inb_S3x4x384x1024_S1x1x384x1024_0_1_0_0
      c 4 (px 4 c) rfl 5 17 _ _ rfl rfl (K (c, 2)) (K (px 4 c, 14)) fd17 (sent1 (rowsA m) (colsB m) c 0 1) (by decide) (by decide)
      (payload_5 m c 0 0) (by rw [payload_17]; exact congrArg (holds _ _) (by unfold recv1; rw [show px (X1 0) (px 4 c) = c from px_px 4 c])) _ _) $$ [Ssb_0_1 D17 HO Ts5 Tr17]
  · isplitl []
    swap
    · iframe Is5 Ir17 Ssb_0_1 D17 HO Ts5 Rs5 Tr17 Rr17
    · ipureintro
      block_value
  iintro ⟨Cs5, HO⟩
  sl_exec_parts (disch := body_disch)
  icases B3' with ⟨E21, B3'⟩
  ihave E21' := (Entails.of_eq (someAt_eq (F := F) r1_1_1 (px 3 c))) $$ E21
  icases E21' with ⟨%fd21, D21⟩
  iapply (wp_send_slot' m 𝒱₀ (Memref.whole cc0_scratch4) (Memref.whole cc0_scratch5) squeezes_S1x1x384x1024_S384x1024 1 1 inb_S3x4x384x1024_S1x1x384x1024_1_1_0_0 1 1 inb_S3x4x384x1024_S1x1x384x1024_1_1_0_0
      c 3 (px 3 c) rfl 9 21 _ _ rfl rfl (K (c, 6)) (K (px 3 c, 18)) fd21 (sent1 (rowsA m) (colsB m) c 1 1) (by decide) (by decide)
      (payload_9 m c 0 0) (by rw [payload_21]; exact congrArg (holds _ _) (by unfold recv1; rw [show px (X1 1) (px 3 c) = c from px_px 3 c])) _ _) $$ [Ssb_1_1 D21 HO Ts9 Tr21]
  · isplitl []
    swap
    · iframe Is9 Ir21 Ssb_1_1 D21 HO Ts9 Rs9 Tr21 Rr21
    · ipureintro
      block_value
  iintro ⟨Cs9, HO⟩
  sl_exec_parts (disch := body_disch)
  icases B1' with ⟨E25, B1'⟩
  ihave E25' := (Entails.of_eq (someAt_eq (F := F) r1_2_1 (px 1 c))) $$ E25
  icases E25' with ⟨%fd25, D25⟩
  iapply (wp_send_slot' m 𝒱₀ (Memref.whole cc0_scratch4) (Memref.whole cc0_scratch5) squeezes_S1x1x384x1024_S384x1024 2 1 inb_S3x4x384x1024_S1x1x384x1024_2_1_0_0 2 1 inb_S3x4x384x1024_S1x1x384x1024_2_1_0_0
      c 1 (px 1 c) rfl 13 25 _ _ rfl rfl (K (c, 10)) (K (px 1 c, 22)) fd25 (sent1 (rowsA m) (colsB m) c 2 1) (by decide) (by decide)
      (payload_13 m c 0 0) (by rw [payload_25]; exact congrArg (holds _ _) (by unfold recv1; rw [show px (X1 2) (px 1 c) = c from px_px 1 c])) _ _) $$ [Ssb_2_1 D25 HO Ts13 Tr25]
  · isplitl []
    swap
    · iframe Is13 Ir25 Ssb_2_1 D25 HO Ts13 Rs13 Tr25 Rr25
    · ipureintro
      block_value
  iintro ⟨Cs13, HO⟩
  sl_exec_parts (disch := body_disch)
  icases B4' with ⟨E18, B4'⟩
  ihave E18' := (Entails.of_eq (someAt_eq (F := F) r1_0_2 (px 4 c))) $$ E18
  icases E18' with ⟨%fd18, D18⟩
  iapply (wp_send_slot' m 𝒱₀ (Memref.whole cc0_scratch4) (Memref.whole cc0_scratch5) squeezes_S1x1x384x1024_S384x1024 0 2 inb_S3x4x384x1024_S1x1x384x1024_0_2_0_0 0 2 inb_S3x4x384x1024_S1x1x384x1024_0_2_0_0
      c 4 (px 4 c) rfl 6 18 _ _ rfl rfl (K (c, 3)) (K (px 4 c, 15)) fd18 (sent1 (rowsA m) (colsB m) c 0 2) (by decide) (by decide)
      (payload_6 m c 0 0) (by rw [payload_18]; exact congrArg (holds _ _) (by unfold recv1; rw [show px (X1 0) (px 4 c) = c from px_px 4 c])) _ _) $$ [Ssb_0_2 D18 HO Ts6 Tr18]
  · isplitl []
    swap
    · iframe Is6 Ir18 Ssb_0_2 D18 HO Ts6 Rs6 Tr18 Rr18
    · ipureintro
      block_value
  iintro ⟨Cs6, HO⟩
  sl_exec_parts (disch := body_disch)
  icases B3' with ⟨E22, B3'⟩
  ihave E22' := (Entails.of_eq (someAt_eq (F := F) r1_1_2 (px 3 c))) $$ E22
  icases E22' with ⟨%fd22, D22⟩
  iapply (wp_send_slot' m 𝒱₀ (Memref.whole cc0_scratch4) (Memref.whole cc0_scratch5) squeezes_S1x1x384x1024_S384x1024 1 2 inb_S3x4x384x1024_S1x1x384x1024_1_2_0_0 1 2 inb_S3x4x384x1024_S1x1x384x1024_1_2_0_0
      c 3 (px 3 c) rfl 10 22 _ _ rfl rfl (K (c, 7)) (K (px 3 c, 19)) fd22 (sent1 (rowsA m) (colsB m) c 1 2) (by decide) (by decide)
      (payload_10 m c 0 0) (by rw [payload_22]; exact congrArg (holds _ _) (by unfold recv1; rw [show px (X1 1) (px 3 c) = c from px_px 3 c])) _ _) $$ [Ssb_1_2 D22 HO Ts10 Tr22]
  · isplitl []
    swap
    · iframe Is10 Ir22 Ssb_1_2 D22 HO Ts10 Rs10 Tr22 Rr22
    · ipureintro
      block_value
  iintro ⟨Cs10, HO⟩
  sl_exec_parts (disch := body_disch)
  icases B1' with ⟨E26, B1'⟩
  ihave E26' := (Entails.of_eq (someAt_eq (F := F) r1_2_2 (px 1 c))) $$ E26
  icases E26' with ⟨%fd26, D26⟩
  iapply (wp_send_slot' m 𝒱₀ (Memref.whole cc0_scratch4) (Memref.whole cc0_scratch5) squeezes_S1x1x384x1024_S384x1024 2 2 inb_S3x4x384x1024_S1x1x384x1024_2_2_0_0 2 2 inb_S3x4x384x1024_S1x1x384x1024_2_2_0_0
      c 1 (px 1 c) rfl 14 26 _ _ rfl rfl (K (c, 11)) (K (px 1 c, 23)) fd26 (sent1 (rowsA m) (colsB m) c 2 2) (by decide) (by decide)
      (payload_14 m c 0 0) (by rw [payload_26]; exact congrArg (holds _ _) (by unfold recv1; rw [show px (X1 2) (px 1 c) = c from px_px 1 c])) _ _) $$ [Ssb_2_2 D26 HO Ts14 Tr26]
  · isplitl []
    swap
    · iframe Is14 Ir26 Ssb_2_2 D26 HO Ts14 Rs14 Tr26 Rr26
    · ipureintro
      block_value
  iintro ⟨Cs14, HO⟩
  sl_exec_parts (disch := body_disch)
  icases B4' with ⟨E19, B4'⟩
  ihave E19' := (Entails.of_eq (someAt_eq (F := F) r1_0_3 (px 4 c))) $$ E19
  icases E19' with ⟨%fd19, D19⟩
  iapply (wp_send_slot' m 𝒱₀ (Memref.whole cc0_scratch4) (Memref.whole cc0_scratch5) squeezes_S1x1x384x1024_S384x1024 0 3 inb_S3x4x384x1024_S1x1x384x1024_0_3_0_0 0 3 inb_S3x4x384x1024_S1x1x384x1024_0_3_0_0
      c 4 (px 4 c) rfl 7 19 _ _ rfl rfl (K (c, 4)) (K (px 4 c, 16)) fd19 (sent1 (rowsA m) (colsB m) c 0 3) (by decide) (by decide)
      (payload_7 m c 0 0) (by rw [payload_19]; exact congrArg (holds _ _) (by unfold recv1; rw [show px (X1 0) (px 4 c) = c from px_px 4 c])) _ _) $$ [Ssb_0_3 D19 HO Ts7 Tr19]
  · isplitl []
    swap
    · iframe Is7 Ir19 Ssb_0_3 D19 HO Ts7 Rs7 Tr19 Rr19
    · ipureintro
      block_value
  iintro ⟨Cs7, HO⟩
  sl_exec_parts (disch := body_disch)
  icases B3' with ⟨E23, B3'⟩
  ihave E23' := (Entails.of_eq (someAt_eq (F := F) r1_1_3 (px 3 c))) $$ E23
  icases E23' with ⟨%fd23, D23⟩
  iapply (wp_send_slot' m 𝒱₀ (Memref.whole cc0_scratch4) (Memref.whole cc0_scratch5) squeezes_S1x1x384x1024_S384x1024 1 3 inb_S3x4x384x1024_S1x1x384x1024_1_3_0_0 1 3 inb_S3x4x384x1024_S1x1x384x1024_1_3_0_0
      c 3 (px 3 c) rfl 11 23 _ _ rfl rfl (K (c, 8)) (K (px 3 c, 20)) fd23 (sent1 (rowsA m) (colsB m) c 1 3) (by decide) (by decide)
      (payload_11 m c 0 0) (by rw [payload_23]; exact congrArg (holds _ _) (by unfold recv1; rw [show px (X1 1) (px 3 c) = c from px_px 3 c])) _ _) $$ [Ssb_1_3 D23 HO Ts11 Tr23]
  · isplitl []
    swap
    · iframe Is11 Ir23 Ssb_1_3 D23 HO Ts11 Rs11 Tr23 Rr23
    · ipureintro
      block_value
  iintro ⟨Cs11, HO⟩
  sl_exec_parts (disch := body_disch)
  icases B1' with ⟨E27, B1'⟩
  ihave E27' := (Entails.of_eq (someAt_eq (F := F) r1_2_3 (px 1 c))) $$ E27
  icases E27' with ⟨%fd27, D27⟩
  iapply (wp_send_slot' m 𝒱₀ (Memref.whole cc0_scratch4) (Memref.whole cc0_scratch5) squeezes_S1x1x384x1024_S384x1024 2 3 inb_S3x4x384x1024_S1x1x384x1024_2_3_0_0 2 3 inb_S3x4x384x1024_S1x1x384x1024_2_3_0_0
      c 1 (px 1 c) rfl 15 27 _ _ rfl rfl (K (c, 12)) (K (px 1 c, 24)) fd27 (sent1 (rowsA m) (colsB m) c 2 3) (by decide) (by decide)
      (payload_15 m c 0 0) (by rw [payload_27]; exact congrArg (holds _ _) (by unfold recv1; rw [show px (X1 2) (px 1 c) = c from px_px 1 c])) _ _) $$ [Ssb_2_3 D27 HO Ts15 Tr27]
  · isplitl []
    swap
    · iframe Is15 Ir27 Ssb_2_3 D27 HO Ts15 Rs15 Tr27 Rr27
    · ipureintro
      block_value
  iintro ⟨Cs15, HO⟩
  sl_exec_parts (disch := body_disch)
  icases B3' with ⟨E34, B3'⟩
  ihave E34' := (Entails.of_eq (someAt_eq (F := F) r2_0_0 (px 3 c))) $$ E34
  icases E34' with ⟨%fd34, D34⟩
  iapply (wp_send_slot' m 𝒱₀ (Memref.whole cc0_scratch4) (Memref.whole cc0_scratch6) squeezes_S1x1x384x1024_S384x1024 0 0 inb_S3x4x384x1024_S1x1x384x1024_0_0_0_0 0 0 inb_S3x2x384x1024_S1x1x384x1024_0_0_0_0
      c 3 (px 3 c) rfl 28 34 _ _ rfl rfl (K (c, 25)) (K (px 3 c, 31)) fd34 (sent2 (rowsA m) (colsB m) c 0 0) (by decide) (by decide)
      (payload_28 m c 0 0) (by rw [payload_34]; exact congrArg (holds _ _) (by unfold recv2; rw [show px (X2 0) (px 3 c) = c from px_px 3 c])) _ _) $$ [A4_pay1 D34 HO Ts28 Tr34]
  · isplitl []
    swap
    · iframe Is28 Ir34 A4_pay1 D34 HO Ts28 Rs28 Tr34 Rr34
    · ipureintro
      block_value
  iintro ⟨Cs28, HO⟩
  sl_exec_parts (disch := body_disch)
  icases B1' with ⟨E36, B1'⟩
  ihave E36' := (Entails.of_eq (someAt_eq (F := F) r2_1_0 (px 1 c))) $$ E36
  icases E36' with ⟨%fd36, D36⟩
  iapply (wp_send_slot' m 𝒱₀ (Memref.whole cc0_scratch4) (Memref.whole cc0_scratch6) squeezes_S1x1x384x1024_S384x1024 1 0 inb_S3x4x384x1024_S1x1x384x1024_1_0_0_0 1 0 inb_S3x2x384x1024_S1x1x384x1024_1_0_0_0
      c 1 (px 1 c) rfl 30 36 _ _ rfl rfl (K (c, 27)) (K (px 1 c, 33)) fd36 (sent2 (rowsA m) (colsB m) c 1 0) (by decide) (by decide)
      (payload_30 m c 0 0) (by rw [payload_36]; exact congrArg (holds _ _) (by unfold recv2; rw [show px (X2 1) (px 1 c) = c from px_px 1 c])) _ _) $$ [A8_pay1 D36 HO Ts30 Tr36]
  · isplitl []
    swap
    · iframe Is30 Ir36 A8_pay1 D36 HO Ts30 Rs30 Tr36 Rr36
    · ipureintro
      block_value
  iintro ⟨Cs30, HO⟩
  sl_exec_parts (disch := body_disch)
  icases B4' with ⟨E38, B4'⟩
  ihave E38' := (Entails.of_eq (someAt_eq (F := F) r2_2_0 (px 4 c))) $$ E38
  icases E38' with ⟨%fd38, D38⟩
  iapply (wp_send_slot' m 𝒱₀ (Memref.whole cc0_scratch4) (Memref.whole cc0_scratch6) squeezes_S1x1x384x1024_S384x1024 2 0 inb_S3x4x384x1024_S1x1x384x1024_2_0_0_0 2 0 inb_S3x2x384x1024_S1x1x384x1024_2_0_0_0
      c 4 (px 4 c) rfl 32 38 _ _ rfl rfl (K (c, 29)) (K (px 4 c, 35)) fd38 (sent2 (rowsA m) (colsB m) c 2 0) (by decide) (by decide)
      (payload_32 m c 0 0) (by rw [payload_38]; exact congrArg (holds _ _) (by unfold recv2; rw [show px (X2 2) (px 4 c) = c from px_px 4 c])) _ _) $$ [A12_pay1 D38 HO Ts32 Tr38]
  · isplitl []
    swap
    · iframe Is32 Ir38 A12_pay1 D38 HO Ts32 Rs32 Tr38 Rr38
    · ipureintro
      block_value
  iintro ⟨Cs32, HO⟩
  sl_exec_parts (disch := body_disch)
  icases B3' with ⟨E35, B3'⟩
  ihave E35' := (Entails.of_eq (someAt_eq (F := F) r2_0_1 (px 3 c))) $$ E35
  icases E35' with ⟨%fd35, D35⟩
  iapply (wp_send_slot' m 𝒱₀ (Memref.whole cc0_scratch4) (Memref.whole cc0_scratch6) squeezes_S1x1x384x1024_S384x1024 0 1 inb_S3x4x384x1024_S1x1x384x1024_0_1_0_0 0 1 inb_S3x2x384x1024_S1x1x384x1024_0_1_0_0
      c 3 (px 3 c) rfl 29 35 _ _ rfl rfl (K (c, 26)) (K (px 3 c, 32)) fd35 (sent2 (rowsA m) (colsB m) c 0 1) (by decide) (by decide)
      (payload_29 m c 0 0) (by rw [payload_35]; exact congrArg (holds _ _) (by unfold recv2; rw [show px (X2 0) (px 3 c) = c from px_px 3 c])) _ _) $$ [A5_pay1 D35 HO Ts29 Tr35]
  · isplitl []
    swap
    · iframe Is29 Ir35 A5_pay1 D35 HO Ts29 Rs29 Tr35 Rr35
    · ipureintro
      block_value
  iintro ⟨Cs29, HO⟩
  sl_exec_parts (disch := body_disch)
  icases B1' with ⟨E37, B1'⟩
  ihave E37' := (Entails.of_eq (someAt_eq (F := F) r2_1_1 (px 1 c))) $$ E37
  icases E37' with ⟨%fd37, D37⟩
  iapply (wp_send_slot' m 𝒱₀ (Memref.whole cc0_scratch4) (Memref.whole cc0_scratch6) squeezes_S1x1x384x1024_S384x1024 1 1 inb_S3x4x384x1024_S1x1x384x1024_1_1_0_0 1 1 inb_S3x2x384x1024_S1x1x384x1024_1_1_0_0
      c 1 (px 1 c) rfl 31 37 _ _ rfl rfl (K (c, 28)) (K (px 1 c, 34)) fd37 (sent2 (rowsA m) (colsB m) c 1 1) (by decide) (by decide)
      (payload_31 m c 0 0) (by rw [payload_37]; exact congrArg (holds _ _) (by unfold recv2; rw [show px (X2 1) (px 1 c) = c from px_px 1 c])) _ _) $$ [A9_pay1 D37 HO Ts31 Tr37]
  · isplitl []
    swap
    · iframe Is31 Ir37 A9_pay1 D37 HO Ts31 Rs31 Tr37 Rr37
    · ipureintro
      block_value
  iintro ⟨Cs31, HO⟩
  sl_exec_parts (disch := body_disch)
  icases B4' with ⟨E39, B4'⟩
  ihave E39' := (Entails.of_eq (someAt_eq (F := F) r2_2_1 (px 4 c))) $$ E39
  icases E39' with ⟨%fd39, D39⟩
  iapply (wp_send_slot' m 𝒱₀ (Memref.whole cc0_scratch4) (Memref.whole cc0_scratch6) squeezes_S1x1x384x1024_S384x1024 2 1 inb_S3x4x384x1024_S1x1x384x1024_2_1_0_0 2 1 inb_S3x2x384x1024_S1x1x384x1024_2_1_0_0
      c 4 (px 4 c) rfl 33 39 _ _ rfl rfl (K (c, 30)) (K (px 4 c, 36)) fd39 (sent2 (rowsA m) (colsB m) c 2 1) (by decide) (by decide)
      (payload_33 m c 0 0) (by rw [payload_39]; exact congrArg (holds _ _) (by unfold recv2; rw [show px (X2 2) (px 4 c) = c from px_px 4 c])) _ _) $$ [A13_pay1 D39 HO Ts33 Tr39]
  · isplitl []
    swap
    · iframe Is33 Ir39 A13_pay1 D39 HO Ts33 Rs33 Tr39 Rr39
    · ipureintro
      block_value
  iintro ⟨Cs33, HO⟩
  sl_exec_parts (disch := body_disch)
  ihave E43' := (Entails.of_eq (someAt_eq (F := F) r3_0 (px 1 c))) $$ B1'
  icases E43' with ⟨%fd43, D43⟩
  iapply (wp_send_slot' m 𝒱₀ (Memref.whole cc0_scratch4) (Memref.whole cc0_scratch7) squeezes_S1x1x384x1024_S384x1024 0 2 inb_S3x4x384x1024_S1x1x384x1024_0_2_0_0 0 0 inb_S3x1x384x1024_S1x1x384x1024_0_0_0_0
      c 1 (px 1 c) rfl 40 43 _ _ rfl rfl (K (c, 37)) (K (px 1 c, 40)) fd43 (sent3 (rowsA m) (colsB m) c 0) (by decide) (by decide)
      (payload_40 m c 0 0) (by rw [payload_43]; exact congrArg (holds _ _) (by unfold recv3; rw [show px (X3 0) (px 1 c) = c from px_px 1 c])) _ _) $$ [A6_pay1 D43 HO Ts40 Tr43]
  · isplitl []
    swap
    · iframe Is40 Ir43 A6_pay1 D43 HO Ts40 Rs40 Tr43 Rr43
    · ipureintro
      block_value
  iintro ⟨Cs40, HO⟩
  sl_exec_parts (disch := body_disch)
  ihave E44' := (Entails.of_eq (someAt_eq (F := F) r3_1 (px 4 c))) $$ B4'
  icases E44' with ⟨%fd44, D44⟩
  iapply (wp_send_slot' m 𝒱₀ (Memref.whole cc0_scratch4) (Memref.whole cc0_scratch7) squeezes_S1x1x384x1024_S384x1024 1 2 inb_S3x4x384x1024_S1x1x384x1024_1_2_0_0 1 0 inb_S3x1x384x1024_S1x1x384x1024_1_0_0_0
      c 4 (px 4 c) rfl 41 44 _ _ rfl rfl (K (c, 38)) (K (px 4 c, 41)) fd44 (sent3 (rowsA m) (colsB m) c 1) (by decide) (by decide)
      (payload_41 m c 0 0) (by rw [payload_44]; exact congrArg (holds _ _) (by unfold recv3; rw [show px (X3 1) (px 4 c) = c from px_px 4 c])) _ _) $$ [A10_pay1 D44 HO Ts41 Tr44]
  · isplitl []
    swap
    · iframe Is41 Ir44 A10_pay1 D44 HO Ts41 Rs41 Tr44 Rr44
    · ipureintro
      block_value
  iintro ⟨Cs41, HO⟩
  sl_exec_parts (disch := body_disch)
  ihave E45' := (Entails.of_eq (someAt_eq (F := F) r3_2 (px 3 c))) $$ B3'
  icases E45' with ⟨%fd45, D45⟩
  iapply (wp_send_slot' m 𝒱₀ (Memref.whole cc0_scratch4) (Memref.whole cc0_scratch7) squeezes_S1x1x384x1024_S384x1024 2 2 inb_S3x4x384x1024_S1x1x384x1024_2_2_0_0 2 0 inb_S3x1x384x1024_S1x1x384x1024_2_0_0_0
      c 3 (px 3 c) rfl 42 45 _ _ rfl rfl (K (c, 39)) (K (px 3 c, 42)) fd45 (sent3 (rowsA m) (colsB m) c 2) (by decide) (by decide)
      (payload_42 m c 0 0) (by rw [payload_45]; exact congrArg (holds _ _) (by unfold recv3; rw [show px (X3 2) (px 3 c) = c from px_px 3 c])) _ _) $$ [A14_pay1 D45 HO Ts42 Tr45]
  · isplitl []
    swap
    · iframe Is42 Ir45 A14_pay1 D45 HO Ts42 Rs42 Tr45 Rr45
    · ipureintro
      block_value
  iintro ⟨Cs42, HO⟩
  sl_exec_parts (disch := body_disch)
  iapply (finish_wp m ρ c K) $$ [A4 A5 A6 A7 A8 A9 A10 A11 A12 A13 A14 A15 A28 A29 A30 A31 A32 A33 A40 A41 A42 A16 A17 A18 A19 A20 A21 A22 A23 A24 A25 A26 A27 A34 A35 A36 A37 A38 A39 A43 A44 A45 HA HB Ho H0 H1 H2 H3 A28_pay1 A29_pay1 A40_pay1 A7_pay1 A30_pay1 A31_pay1 A41_pay1 A11_pay1 A32_pay1 A33_pay1 A42_pay1 A15_pay1 A16_pay1 A17_pay1 A18_pay1 A19_pay1 A20_pay1 A21_pay1 A22_pay1 A23_pay1 A24_pay1 A25_pay1 A26_pay1 A27_pay1 A34_pay1 A35_pay1 A36_pay1 A37_pay1 A38_pay1 A39_pay1 A43_pay1 A44_pay1 A45_pay1 HO Hs1 Hs2 Hs3]
  isplitl []
  swap
  · unfold invs sendPos recvPos
    iframe Ib Ib1 Ib3 Ib4 Is4 Is16 Ir16 Is5 Is17 Ir17 Is6 Is18 Ir18 Is7 Is19 Ir19 Is8 Is20 Ir20 Is9 Is21 Ir21 Is10 Is22 Ir22 Is11 Is23 Ir23 Is12 Is24 Ir24 Is13 Is25 Ir25 Is14 Is26 Ir26 Is15 Is27 Ir27 Is28 Is34 Ir34 Is29 Is35 Ir35 Is30 Is36 Ir36 Is31 Is37 Ir37 Is32 Is38 Ir38 Is33 Is39 Ir39 Is40 Is43 Ir43 Is41 Is44 Ir44 Is42 Is45 Ir45 A4 A5 A6 A7 A8 A9 A10 A11 A12 A13 A14 A15 A28 A29 A30 A31 A32 A33 A40 A41 A42 A16 A17 A18 A19 A20 A21 A22 A23 A24 A25 A26 A27 A34 A35 A36 A37 A38 A39 A43 A44 A45 HA HB Ho H0 H1 H2 H3 A28_pay1 A29_pay1 A40_pay1 A7_pay1 A30_pay1 A31_pay1 A41_pay1 A11_pay1 A32_pay1 A33_pay1 A42_pay1 A15_pay1 A16_pay1 A17_pay1 A18_pay1 A19_pay1 A20_pay1 A21_pay1 A22_pay1 A23_pay1 A24_pay1 A25_pay1 A26_pay1 A27_pay1 A34_pay1 A35_pay1 A36_pay1 A37_pay1 A38_pay1 A39_pay1 A43_pay1 A44_pay1 A45_pay1 HO
    isplitl [Hs1]; · iexact Hs1
    isplitl [Hs2]; · iexact Hs2
    iexact Hs3
  · ipureintro
    out_value

/-- info: 'Cert.KernelIdeal.Hand.sound_body' depends on axioms: [propext, Classical.choice, Quot.sound] -/
#guard_msgs in #print axioms sound_body

end Cert.KernelIdeal.Hand

end
-- ==== Proof.RefRun.lean ====
import proofs.«900896_g7700000000000897_dist_matmul_mk_i_outk_m3072_n3072_k1536_v7x_i8_bf16_1_alg».proof.Defs
import proofs.«900896_g7700000000000897_dist_matmul_mk_i_outk_m3072_n3072_k1536_v7x_i8_bf16_1_alg».proof.Proof.Gen.ReferenceIdeal
import proofs.«900896_g7700000000000897_dist_matmul_mk_i_outk_m3072_n3072_k1536_v7x_i8_bf16_1_alg».proof.Proof.Gen.Pre_finite_inputs_ReferenceIdeal
import proofs.«900896_g7700000000000897_dist_matmul_mk_i_outk_m3072_n3072_k1536_v7x_i8_bf16_1_alg».proof.Proof.Gen.ReferenceIdeal.Run
import proofs.«900896_g7700000000000897_dist_matmul_mk_i_outk_m3072_n3072_k1536_v7x_i8_bf16_1_alg».proof.Proof.Gen.ReferenceIdeal.Read
import Idealize.ShloMosaic.Lib.ValueIdx
import Idealize.ShloMosaic.PureOps.Ideal.Laws

noncomputable section

open scoped BigOperators

namespace Cert.RefHand

open Idealize.ShloMosaic Idealize.SL.Sem Idealize.ShloMosaic.ValueIdx

def refOut (A : (⟨Cert.ReferenceIdeal.S3072x12288, .f32⟩ : BufTy).Contents (Elt Ideal))
    (B : (⟨Cert.ReferenceIdeal.S12288x3072, .f32⟩ : BufTy).Contents (Elt Ideal)) :
    (⟨Cert.ReferenceIdeal.S3072x3072, .bf16⟩ : BufTy).Contents (Elt Ideal) :=
  Cert.ReferenceIdeal.Read.val_main_v1 (F := Ideal) A B

theorem ref_run
    (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1)
            = refOut (m' (((0 : Dev Cert.ReferenceIdeal.nD).tc : Thread Cert.ReferenceIdeal.nD Cert.ReferenceIdeal.τ).loc Cert.ReferenceIdeal.main_arg0))
                (m' (((0 : Dev Cert.ReferenceIdeal.nD).tc : Thread Cert.ReferenceIdeal.nD Cert.ReferenceIdeal.τ).loc Cert.ReferenceIdeal.main_arg1))
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)) :=
  (θ_run (Cert.ReferenceIdeal.defs (F := Ideal)) _ _).mono (fun _ h => h 0)
    (Cert.ReferenceIdeal.Value.run (F := Ideal) m' g')

theorem ref_frame : Cert.frame_ReferenceIdeal :=
  fun m g _ => (θ_run (Cert.ReferenceIdeal.defs (F := Ideal)) _ _).mono (fun _ h c => (h c).2)
    (Cert.ReferenceIdeal.Value.run (F := Ideal) m g)

theorem refOut_apply (A : (⟨Cert.ReferenceIdeal.S3072x12288, .f32⟩ : BufTy).Contents (Elt Ideal))
    (B : (⟨Cert.ReferenceIdeal.S12288x3072, .f32⟩ : BufTy).Contents (Elt Ideal)) (i j : Fin 3072) :
    (refOut A B (ix2 i j) : EReal) = ∑ k : Fin 12288, (A (ix2 i k) : EReal) * (B (ix2 k j) : EReal) := by
  have el : ∀ k : Fin 12288, Cert.ReferenceIdeal.Read.lidx_main_v0 (ix2 i j) k = ix2 i k := fun k =>
    funext fun a => Fin.ext (by match a with | ⟨0, _⟩ => rfl | ⟨1, _⟩ => rfl)
  have er : ∀ k : Fin 12288, Cert.ReferenceIdeal.Read.ridx_main_v0 (ix2 i j) k = ix2 k j := fun k =>
    funext fun a => Fin.ext (by match a with | ⟨0, _⟩ => rfl | ⟨1, _⟩ => rfl)
  show Cert.ReferenceIdeal.Read.val_main_v0 (F := Ideal) A B (ix2 i j) = _
  rw [Cert.ReferenceIdeal.Read.val_main_v0_apply]
  exact Finset.sum_congr rfl fun k _ => by rw [el k, er k]

/-- info: 'Cert.RefHand.ref_run' depends on axioms: [propext, Classical.choice, Quot.sound] -/
#guard_msgs in #print axioms ref_run
/-- info: 'Cert.RefHand.refOut_apply' depends on axioms: [propext, Classical.choice, Quot.sound] -/
#guard_msgs in #print axioms refOut_apply

end Cert.RefHand

end
-- ==== Proof.BlockSum.lean ====
import Idealize.ShloMosaic.PureOps.Ideal
import Idealize.ShloMosaic.PureOps.Ideal.Laws
import Idealize.ShloMosaic.Lib.ValueIdx
import Idealize.ShloMosaic.Lib.Layout

noncomputable section

open scoped BigOperators

namespace Cert.BlockSum

open Idealize.ShloMosaic Idealize.ShloMosaic.ValueIdx

theorem sum_blocks {M : Type*} [AddCommMonoid M] (f : Fin 12288 → M) :
    ∑ k : Fin 12288, f k = ∑ s : Fin 8, ∑ k : Fin 1536, f ⟨s.val * 1536 + k.val, by omega⟩ := by
  have e : ∑ k : Fin 12288, f k = ∑ p : Fin 8 × Fin 1536, f (finProdFinEquiv p) :=
    (Equiv.sum_comp (finProdFinEquiv (m := 8) (n := 1536)) f).symm
  rw [e, Fintype.sum_prod_type]
  refine Finset.sum_congr rfl fun s _ => Finset.sum_congr rfl fun k _ => congrArg f (Fin.ext ?_)
  show k.val + 1536 * s.val = s.val * 1536 + k.val
  omega

section Blocks
variable {α : Type}

theorem block_cols_apply (c : Fin 8) (X : (⟨2, ![3072, 12288]⟩ : Shape).Idx → α) (i : Fin 3072) (k : Fin 1536) :
    (Layout.block ⟨2, ![3072, 1536]⟩ ⟨2, ![3072, 12288]⟩ 1 8 c X) (ix2 i k)
      = X (ix2 i ⟨c.val * 1536 + k.val, by omega⟩) := by
  show X _ = X _
  refine congrArg X (funext fun b => Fin.ext ?_)
  match b with
  | ⟨0, _⟩ => rfl
  | ⟨1, _⟩ => rfl

theorem block_rows_apply (c : Fin 8) (X : (⟨2, ![12288, 3072]⟩ : Shape).Idx → α) (k : Fin 1536) (j : Fin 3072) :
    (Layout.block ⟨2, ![1536, 3072]⟩ ⟨2, ![12288, 3072]⟩ 0 8 c X) (ix2 k j)
      = X (ix2 ⟨c.val * 1536 + k.val, by omega⟩ j) := by
  show X _ = X _
  refine congrArg X (funext fun b => Fin.ext ?_)
  match b with
  | ⟨0, _⟩ => rfl
  | ⟨1, _⟩ => rfl

theorem block_out_apply (c : Fin 8) (V : (⟨2, ![3072, 3072]⟩ : Shape).Idx → α) (r : Fin 384) (j : Fin 3072) :
    (Layout.block ⟨2, ![384, 3072]⟩ ⟨2, ![3072, 3072]⟩ 0 8 c V) (ix2 r j)
      = V (ix2 ⟨c.val * 384 + r.val, by omega⟩ j) := by
  show V _ = V _
  refine congrArg V (funext fun b => Fin.ext ?_)
  match b with
  | ⟨0, _⟩ => rfl
  | ⟨1, _⟩ => rfl

end Blocks

theorem prod_blocks (A : (⟨2, ![3072, 12288]⟩ : Shape).Idx → EReal) (B : (⟨2, ![12288, 3072]⟩ : Shape).Idx → EReal)
    (i j : Fin 3072) :
    ∑ k : Fin 12288, A (ix2 i k) * B (ix2 k j)
      = ∑ s : Fin 8, ∑ k : Fin 1536,
          (Layout.block ⟨2, ![3072, 1536]⟩ ⟨2, ![3072, 12288]⟩ 1 8 s A) (ix2 i k)
            * (Layout.block ⟨2, ![1536, 3072]⟩ ⟨2, ![12288, 3072]⟩ 0 8 s B) (ix2 k j) := by
  rw [sum_blocks (fun k : Fin 12288 => A (ix2 i k) * B (ix2 k j))]
  refine Finset.sum_congr rfl fun s _ => Finset.sum_congr rfl fun k _ => ?_
  rw [block_cols_apply, block_rows_apply]

theorem sum_perm8 {M : Type*} [AddCommMonoid M] (g : Fin 8 → M) (p : Fin 8 → Fin 8) (hp : Function.Bijective p) :
    ((g (p 0) + g (p 1)) + (g (p 2) + g (p 3))) + ((g (p 4) + g (p 5)) + (g (p 6) + g (p 7))) = ∑ s : Fin 8, g s := by
  rw [← hp.sum_comp g, Fin.sum_univ_eight]
  simp only [add_assoc]

def butterfly (d X1 X2 X3 : Fin 8) : Fin 8 → Fin 8 :=
  ![d, d ^^^ X1, d ^^^ X2, d ^^^ X2 ^^^ X1, d ^^^ X3, d ^^^ X3 ^^^ X1, d ^^^ X3 ^^^ X2, d ^^^ X3 ^^^ X2 ^^^ X1]

theorem xor_sum {M : Type*} [AddCommMonoid M] (g : Fin 8 → M) (d X1 X2 X3 : Fin 8)
    (h : Function.Bijective (butterfly d X1 X2 X3)) :
    ((g d + g (d ^^^ X1)) + (g (d ^^^ X2) + g (d ^^^ X2 ^^^ X1)))
      + ((g (d ^^^ X3) + g (d ^^^ X3 ^^^ X1)) + (g (d ^^^ X3 ^^^ X2) + g (d ^^^ X3 ^^^ X2 ^^^ X1)))
      = ∑ s : Fin 8, g s :=
  sum_perm8 g (butterfly d X1 X2 X3) h

/-- info: 'Cert.BlockSum.xor_sum' depends on axioms: [propext, Classical.choice, Quot.sound] -/
#guard_msgs in #print axioms xor_sum

end Cert.BlockSum

end
-- ==== Proof.Join.lean ====
import proofs.«900896_g7700000000000897_dist_matmul_mk_i_outk_m3072_n3072_k1536_v7x_i8_bf16_1_alg».proof.Proof.RefRun
import proofs.«900896_g7700000000000897_dist_matmul_mk_i_outk_m3072_n3072_k1536_v7x_i8_bf16_1_alg».proof.Proof.BlockSum

noncomputable section

open scoped BigOperators

namespace Cert.Join

open Idealize.ShloMosaic Idealize.ShloMosaic.ValueIdx

def part (A : (⟨2, ![3072, 12288]⟩ : Shape).Idx → EReal) (B : (⟨2, ![12288, 3072]⟩ : Shape).Idx → EReal)
    (c : Fin 8) (r : Fin 384) (j : Fin 3072) (s : Fin 8) : EReal :=
  ∑ k : Fin 1536,
    (Layout.block ⟨2, ![3072, 1536]⟩ ⟨2, ![3072, 12288]⟩ 1 8 s A) (ix2 (⟨c.val * 384 + r.val, by omega⟩ : Fin 3072) k)
      * (Layout.block ⟨2, ![1536, 3072]⟩ ⟨2, ![12288, 3072]⟩ 0 8 s B) (ix2 k j)

theorem ref_block_apply (A : (⟨Cert.ReferenceIdeal.S3072x12288, .f32⟩ : BufTy).Contents (Elt Ideal))
    (B : (⟨Cert.ReferenceIdeal.S12288x3072, .f32⟩ : BufTy).Contents (Elt Ideal)) (c : Fin 8) (r : Fin 384) (j : Fin 3072) :
    ((Layout.block ⟨2, ![384, 3072]⟩ ⟨2, ![3072, 3072]⟩ 0 8 c (Cert.RefHand.refOut A B)) (ix2 r j) : EReal)
      = ∑ s : Fin 8, part A B c r j s := by
  rw [Cert.BlockSum.block_out_apply, Cert.RefHand.refOut_apply]
  exact Cert.BlockSum.prod_blocks A B _ j

theorem butterfly_eq_ref (A : (⟨Cert.ReferenceIdeal.S3072x12288, .f32⟩ : BufTy).Contents (Elt Ideal))
    (B : (⟨Cert.ReferenceIdeal.S12288x3072, .f32⟩ : BufTy).Contents (Elt Ideal)) (c : Fin 8) (r : Fin 384) (j : Fin 3072)
    (X1 X2 X3 : Fin 8) (h : Function.Bijective (Cert.BlockSum.butterfly c X1 X2 X3)) :
    ((part A B c r j c + part A B c r j (c ^^^ X1)) + (part A B c r j (c ^^^ X2) + part A B c r j (c ^^^ X2 ^^^ X1)))
      + ((part A B c r j (c ^^^ X3) + part A B c r j (c ^^^ X3 ^^^ X1))
        + (part A B c r j (c ^^^ X3 ^^^ X2) + part A B c r j (c ^^^ X3 ^^^ X2 ^^^ X1)))
      = ((Layout.block ⟨2, ![384, 3072]⟩ ⟨2, ![3072, 3072]⟩ 0 8 c (Cert.RefHand.refOut A B)) (ix2 r j) : EReal) := by
  rw [ref_block_apply]
  exact Cert.BlockSum.xor_sum (part A B c r j) c X1 X2 X3 h

/-- info: 'Cert.Join.butterfly_eq_ref' depends on axioms: [propext, Classical.choice, Quot.sound] -/
#guard_msgs in #print axioms butterfly_eq_ref

end Cert.Join

end
-- ==== Proof.KMatmul.lean ====
import proofs.«900896_g7700000000000897_dist_matmul_mk_i_outk_m3072_n3072_k1536_v7x_i8_bf16_1_alg».proof.KernelIdeal
import proofs.«900896_g7700000000000897_dist_matmul_mk_i_outk_m3072_n3072_k1536_v7x_i8_bf16_1_alg».proof.Proof.Gen.KernelIdeal
import Idealize.ShloMosaic.Lib.ValueIdx
import Idealize.ShloMosaic.PureOps.Ideal.Laws

noncomputable section

open scoped BigOperators

namespace Cert.KMatmul

open Idealize.ShloMosaic Idealize.ShloMosaic.ValueIdx Cert.KernelIdeal

theorem lhs_0 (i : S384x1024.Idx) (q : Cert.KernelIdeal.dot_S384x1536_S1536x1024_S384x1024_1_0_0_1_n_n.contr.Idx) :
    (Cert.KernelIdeal.dot_S384x1536_S1536x1024_S384x1024_1_0_0_1_n_n.lhsIdx i q 0).val = (i 0).val := by
  unfold DotDims.lhsIdx
  rw [dif_neg (show ¬(0 : Fin S384x1536.rank) ∈ Cert.KernelIdeal.dot_S384x1536_S1536x1024_S384x1024_1_0_0_1_n_n.lhsBatch by decide),
    dif_pos (show (0 : Fin S384x1536.rank) ∈ Cert.KernelIdeal.dot_S384x1536_S1536x1024_S384x1024_1_0_0_1_n_n.lhsNonContracting by decide)]
  rfl
theorem lhs_1 (i : S384x1024.Idx) (q : Cert.KernelIdeal.dot_S384x1536_S1536x1024_S384x1024_1_0_0_1_n_n.contr.Idx) :
    (Cert.KernelIdeal.dot_S384x1536_S1536x1024_S384x1024_1_0_0_1_n_n.lhsIdx i q 1).val = (q ⟨0, by decide⟩).val :=
  Cert.KernelIdeal.dot_S384x1536_S1536x1024_S384x1024_1_0_0_1_n_n.lhsIdx_val_of_single rfl i q
theorem rhs_0 (i : S384x1024.Idx) (q : Cert.KernelIdeal.dot_S384x1536_S1536x1024_S384x1024_1_0_0_1_n_n.contr.Idx) :
    (Cert.KernelIdeal.dot_S384x1536_S1536x1024_S384x1024_1_0_0_1_n_n.rhsIdx i q 0).val = (q ⟨0, by decide⟩).val :=
  Cert.KernelIdeal.dot_S384x1536_S1536x1024_S384x1024_1_0_0_1_n_n.rhsIdx_val_of_single rfl i q
theorem rhs_1 (i : S384x1024.Idx) (q : Cert.KernelIdeal.dot_S384x1536_S1536x1024_S384x1024_1_0_0_1_n_n.contr.Idx) :
    (Cert.KernelIdeal.dot_S384x1536_S1536x1024_S384x1024_1_0_0_1_n_n.rhsIdx i q 1).val = (i 1).val := by
  unfold DotDims.rhsIdx
  rw [dif_neg (show ¬(1 : Fin S1536x1024.rank) ∈ Cert.KernelIdeal.dot_S384x1536_S1536x1024_S384x1024_1_0_0_1_n_n.rhsBatch by decide),
    dif_pos (show (1 : Fin S1536x1024.rank) ∈ Cert.KernelIdeal.dot_S384x1536_S1536x1024_S384x1024_1_0_0_1_n_n.rhsNonContracting by decide)]
  rfl

theorem matmul_zero_apply (l : FVec Ideal S384x1536 .bf16) (w : FVec Ideal S1536x1024 .bf16) (r : Fin 384) (j : Fin 1024) :
    (matmul Cert.KernelIdeal.dot_S384x1536_S1536x1024_S384x1024_1_0_0_1_n_n none l w (constant (F := Ideal) S384x1024 .f32 0x00000000#32) (ix2 r j) : EReal)
      = ∑ k : Fin 1536, (l (ix2 r k) : EReal) * (w (ix2 k j) : EReal) := by
  simp only [matmul]
  rw [Ideal.matmul_constant_zero_apply, ← Equiv.sum_comp (contrEquiv1 Cert.KernelIdeal.dot_S384x1536_S1536x1024_S384x1024_1_0_0_1_n_n 1536 rfl rfl).symm]
  refine Finset.sum_congr rfl fun k _ => ?_
  have hk := contrEquiv1_symm_val Cert.KernelIdeal.dot_S384x1536_S1536x1024_S384x1024_1_0_0_1_n_n 1536 rfl rfl k
  have el : Cert.KernelIdeal.dot_S384x1536_S1536x1024_S384x1024_1_0_0_1_n_n.lhsIdx (ix2 r j) ((contrEquiv1 Cert.KernelIdeal.dot_S384x1536_S1536x1024_S384x1024_1_0_0_1_n_n 1536 rfl rfl).symm k) = ix2 r k := funext fun a => Fin.ext (by
    match a with
    | ⟨0, _⟩ => exact lhs_0 _ _
    | ⟨1, _⟩ => exact (lhs_1 _ _).trans hk)
  have er : Cert.KernelIdeal.dot_S384x1536_S1536x1024_S384x1024_1_0_0_1_n_n.rhsIdx (ix2 r j) ((contrEquiv1 Cert.KernelIdeal.dot_S384x1536_S1536x1024_S384x1024_1_0_0_1_n_n 1536 rfl rfl).symm k) = ix2 k j := funext fun a => Fin.ext (by
    match a with
    | ⟨0, _⟩ => exact (rhs_0 _ _).trans hk
    | ⟨1, _⟩ => exact rhs_1 _ _)
  rw [el, er]

/-- info: 'Cert.KMatmul.matmul_zero_apply' depends on axioms: [propext, Classical.choice, Quot.sound] -/
#guard_msgs in #print axioms matmul_zero_apply

end Cert.KMatmul

end
-- ==== Proof.Value.lean ====
import proofs.«900896_g7700000000000897_dist_matmul_mk_i_outk_m3072_n3072_k1536_v7x_i8_bf16_1_alg».proof.Proof.Spec
import proofs.«900896_g7700000000000897_dist_matmul_mk_i_outk_m3072_n3072_k1536_v7x_i8_bf16_1_alg».proof.Proof.Join
import proofs.«900896_g7700000000000897_dist_matmul_mk_i_outk_m3072_n3072_k1536_v7x_i8_bf16_1_alg».proof.Proof.KMatmul
import Idealize.ShloMosaic.Lib.Pipeline.Value
import Idealize.ShloMosaic.Lib.ValueLayout
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.ValueIdx

section
variable (rowsA : Dev nD → Nat → Vec Ideal S1x384x1536 .f32) (colsB : Dev nD → Fin 3 → Vec Ideal S1536x1024 .f32)

def pm (s : Dev nD) (mask : Nat) (q : Fin 3) : FVec Ideal S384x1024 .f32 :=
  matmul dot_S384x1536_S1536x1024_S384x1024_1_0_0_1_n_n none (aN rowsA s mask) (bN colsB s q)
    (constant (F := Ideal) S384x1024 .f32 0x00000000#32)

theorem aN_apply (s : Dev nD) (mask : Nat) (r : Fin 384) (k : Fin 1536) :
    aN rowsA s mask (ix2 r k) = rowsA s mask (ix3 (0 : Fin 1) r k) := by
  unfold aN k0_pay2
  rw [shapeCast_self]
  exact shapeCast_1ab_ab_apply (rowsA s mask) _ r k

theorem bN_apply (s : Dev nD) (q : Fin 3) (k : Fin 1536) (n : Fin 1024) :
    bN colsB s q (ix2 k n) = colsB s q (ix2 k n) := by
  unfold bN k0_pay1
  rw [shapeCast_self]
  rfl

theorem outq_flat (d : Dev nD) (q : Fin 3) (i : S384x1024.Idx) :
    (outq rowsA colsB d q i : EReal)
      = ((pm rowsA colsB d 0 q i + pm rowsA colsB (px (X1 q) d) (m1 q 3) q i)
          + (pm rowsA colsB (px (X2 q) d) (m2 q 1) q i + pm rowsA colsB (px (X1 q) (px (X2 q) d)) (m1 q 1) q i))
        + ((pm rowsA colsB (px (X3 q) d) (X3 q) q i + pm rowsA colsB (px (X1 q) (px (X3 q) d)) (m1 q 2) q i)
          + (pm rowsA colsB (px (X2 q) (px (X3 q) d)) (m2 q 0) q i
            + pm rowsA colsB (px (X1 q) (px (X2 q) (px (X3 q) d))) (m1 q 0) q i)) := by
  unfold outq own4 recv3 sent3 recv2 sent2 recv1 sent1 k0_pay50 k0_pay45 k0_pay44 k0_pay38 k0_pay37 k0_pay36 k0_pay25 k0_pay24 k0_pay3
  simp only [shapeCast_shapeCast]
  rfl

end

section
variable (A' : (⟨Cert.ReferenceIdeal.S3072x12288, .f32⟩ : BufTy).Contents (Elt Ideal))
  (B' : (⟨Cert.ReferenceIdeal.S12288x3072, .f32⟩ : BufTy).Contents (Elt Ideal))
  (rowsA : Dev nD → Nat → Vec Ideal S1x384x1536 .f32) (colsB : Dev nD → Fin 3 → Vec Ideal S1536x1024 .f32)

theorem pm_apply
    (hA : ∀ (s : Dev nD) (mask : Fin 8) (i : Fin 384) (k : Fin 1536), rowsA s mask.val (ix3 (0 : Fin 1) i k)
      = (Layout.block ⟨2, ![3072, 1536]⟩ ⟨2, ![3072, 12288]⟩ 1 8 s A') (ix2 (⟨(px mask.val s).val * 384 + i.val, by have h : (px mask.val s).val < 8 := (px mask.val s).isLt; omega⟩ : Fin 3072) k))
    (hB : ∀ (s : Dev nD) (q : Fin 3) (k : Fin 1536) (n : Fin 1024), colsB s q (ix2 k n)
      = (Layout.block ⟨2, ![1536, 3072]⟩ ⟨2, ![12288, 3072]⟩ 0 8 s B') (ix2 k (⟨q.val * 1024 + n.val, by omega⟩ : Fin 3072)))
    (s c : Dev nD) (mask : Nat) (hm : mask < 8) (hc : px mask s = c) (q : Fin 3) (r : Fin 384) (n : Fin 1024) :
    (pm rowsA colsB s mask q (ix2 r n) : EReal)
      = Cert.Join.part A' B' c r (⟨q.val * 1024 + n.val, by omega⟩ : Fin 3072) s := by
  subst hc
  unfold pm Cert.Join.part
  rw [Cert.KMatmul.matmul_zero_apply]
  refine Finset.sum_congr rfl fun k _ => ?_
  rw [aN_apply, bN_apply, hA s ⟨mask, hm⟩ r k, hB s q k n]

def meet (q : Fin 3) (d : Dev nD) : Fin 8 → Fin 8 :=
  ![d, px (X1 q) d, px (X2 q) d, px (X1 q) (px (X2 q) d), px (X3 q) d, px (X1 q) (px (X3 q) d), px (X2 q) (px (X3 q) d),
    px (X1 q) (px (X2 q) (px (X3 q) d))]

theorem meet_bij : ∀ (q : Fin 3) (d : Dev nD), Function.Bijective (meet q d) := by decide

theorem meet_rows : ∀ (q : Fin 3) (d : Dev nD),
    px 0 d = d ∧ px (m1 q 3) (px (X1 q) d) = d
    ∧ px (m2 q 1) (px (X2 q) d) = d ∧ px (m1 q 1) (px (X1 q) (px (X2 q) d)) = d
    ∧ px (X3 q) (px (X3 q) d) = d ∧ px (m1 q 2) (px (X1 q) (px (X3 q) d)) = d
    ∧ px (m2 q 0) (px (X2 q) (px (X3 q) d)) = d ∧ px (m1 q 0) (px (X1 q) (px (X2 q) (px (X3 q) d))) = d := by decide

theorem masks_lt : ∀ q : Fin 3, (∀ j, m1 q j < 8) ∧ (∀ j, m2 q j < 8) ∧ X3 q < 8 := by decide

theorem outq_eq_ref
    (hA : ∀ (s : Dev nD) (mask : Fin 8) (i : Fin 384) (k : Fin 1536), rowsA s mask.val (ix3 (0 : Fin 1) i k)
      = (Layout.block ⟨2, ![3072, 1536]⟩ ⟨2, ![3072, 12288]⟩ 1 8 s A') (ix2 (⟨(px mask.val s).val * 384 + i.val, by have h : (px mask.val s).val < 8 := (px mask.val s).isLt; omega⟩ : Fin 3072) k))
    (hB : ∀ (s : Dev nD) (q : Fin 3) (k : Fin 1536) (n : Fin 1024), colsB s q (ix2 k n)
      = (Layout.block ⟨2, ![1536, 3072]⟩ ⟨2, ![12288, 3072]⟩ 0 8 s B') (ix2 k (⟨q.val * 1024 + n.val, by omega⟩ : Fin 3072)))
    (d : Dev nD) (q : Fin 3) (r : Fin 384) (n : Fin 1024) :
    (outq (F := Ideal) rowsA colsB d q (ix2 r n) : EReal)
      = (Layout.block ⟨2, ![384, 3072]⟩ ⟨2, ![3072, 3072]⟩ 0 8 d (Cert.RefHand.refOut A' B'))
          (ix2 r (⟨q.val * 1024 + n.val, by omega⟩ : Fin 3072)) := by
  obtain ⟨h0, h1, h2, h3, h4, h5, h6, h7⟩ := meet_rows q d
  obtain ⟨l1, l2, l3⟩ := masks_lt q
  rw [Cert.Join.ref_block_apply, outq_flat,
    pm_apply A' B' rowsA colsB hA hB d d 0 (by decide) h0,
    pm_apply A' B' rowsA colsB hA hB _ d _ (l1 3) h1,
    pm_apply A' B' rowsA colsB hA hB _ d _ (l2 1) h2,
    pm_apply A' B' rowsA colsB hA hB _ d _ (l1 1) h3,
    pm_apply A' B' rowsA colsB hA hB _ d _ l3 h4,
    pm_apply A' B' rowsA colsB hA hB _ d _ (l1 2) h5,
    pm_apply A' B' rowsA colsB hA hB _ d _ (l2 0) h6,
    pm_apply A' B' rowsA colsB hA hB _ d _ (l1 0) h7]
  exact Cert.BlockSum.sum_perm8 (Cert.Join.part A' B' d r (⟨q.val * 1024 + n.val, by omega⟩ : Fin 3072)) (meet q d) (meet_bij q d)

end

/-- info: 'Cert.KernelIdeal.Hand.outq_eq_ref' depends on axioms: [propext, Classical.choice, Quot.sound] -/
#guard_msgs in #print axioms outq_eq_ref

end Cert.KernelIdeal.Hand

end
-- ==== Proof.Assemble.lean ====
import proofs.«900896_g7700000000000897_dist_matmul_mk_i_outk_m3072_n3072_k1536_v7x_i8_bf16_1_alg».proof.Proof.Blocks
import proofs.«900896_g7700000000000897_dist_matmul_mk_i_outk_m3072_n3072_k1536_v7x_i8_bf16_1_alg».proof.Proof.Value
import proofs.«900896_g7700000000000897_dist_matmul_mk_i_outk_m3072_n3072_k1536_v7x_i8_bf16_1_alg».proof.Proof.RefRun
import proofs.«900896_g7700000000000897_dist_matmul_mk_i_outk_m3072_n3072_k1536_v7x_i8_bf16_1_alg».proof.Proof.Gen.Pre_finite_inputs_Kernel

noncomputable section

namespace Cert.KernelIdeal.Hand

open Cert.KernelIdeal Cert.KernelIdeal.Gen
open Idealize.ShloMosaic Idealize.SL.Sem Idealize.ShloMosaic.ValueIdx

theorem frame_of_run
    (hrun : ∀ (m : (ℓ : Loc nD τ sig) → Buf (Elt Ideal) ℓ) (ρ : Dev nD → PrngReg),
      θ_run (defs (F := Ideal)) (onTc (τ := τ) (main (F := Ideal))) ⟨m, fun _ => 0, ρ⟩ (fun r => ∀ c : Dev nD,
        r.2.mem ((c.tc : Thread nD τ).loc main_v1) = outBuf m c
        ∧ r.2.mem ((c.tc : Thread nD τ).loc main_arg0) = m ((c.tc : Thread nD τ).loc main_arg0)
        ∧ r.2.mem ((c.tc : Thread nD τ).loc main_arg1) = m ((c.tc : Thread nD τ).loc main_arg1))) :
    Cert.frame_KernelIdeal :=
  fun m g _ => args_kept_of_run hrun m g

theorem algebraic_of_run
    (hrun : ∀ (m : (ℓ : Loc nD τ sig) → Buf (Elt Ideal) ℓ) (ρ : Dev nD → PrngReg),
      θ_run (defs (F := Ideal)) (onTc (τ := τ) (main (F := Ideal))) ⟨m, fun _ => 0, ρ⟩ (fun r => ∀ c : Dev nD,
        r.2.mem ((c.tc : Thread nD τ).loc main_v1) = outBuf m c
        ∧ r.2.mem ((c.tc : Thread nD τ).loc main_arg0) = m ((c.tc : Thread nD τ).loc main_arg0)
        ∧ r.2.mem ((c.tc : Thread nD τ).loc main_arg1) = m ((c.tc : Thread nD τ).loc main_arg1))) :
    Cert.algebraic_KernelIdeal_ReferenceIdeal := by
  intro m g m' g' _ hblk
  refine ⟨Cert.RefHand.refOut
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    ?_, Cert.RefHand.ref_run m' g'⟩
  refine (θ_run (defs (F := Ideal)) _ _).mono (fun r h c => ⟨(h c).1.trans ?_, (h c).2⟩) (hrun m g)
  funext i
  obtain ⟨r, j, rfl⟩ : ∃ (r : Fin 384) (j : Fin 3072), i = ix2 r j := ⟨i 0, i 1, eq_ix2 i⟩
  obtain ⟨q, n, rfl⟩ : ∃ (q : Fin 3) (n : Fin 1024), j = (⟨q.val * 1024 + n.val, by omega⟩ : Fin 3072) :=
    ⟨⟨j.val / 1024, by omega⟩, ⟨j.val % 1024, Nat.mod_lt _ (by decide)⟩, Fin.ext (by show j.val = j.val / 1024 * 1024 + j.val % 1024; omega)⟩
  rw [outBuf_apply]
  refine outq_eq_ref _ _ (rowsA m) (colsB m) (fun s mask i k => ?_) (fun s q k n => ?_) c q r n
  · show m ((s.tc : Thread nD τ).loc main_arg0) _ = _
    rw [(hblk s).1]
  · show m ((s.tc : Thread nD τ).loc main_arg1) _ = _
    rw [(hblk s).2]

/-- info: 'Cert.KernelIdeal.Hand.algebraic_of_run' depends on axioms: [propext, Classical.choice, Quot.sound] -/
#guard_msgs in #print axioms algebraic_of_run

end Cert.KernelIdeal.Hand

end
-- ==== Proof.lean ====
/-
  Eight devices each hold a column block of the left array and the matching row block of the right one; the product is
  the sum over the devices of the block products, and device `c` ends with row block `c` of it. The partial products
  for a row block meet on that block's device along three exchanges (masks 4, 3, 1, in an order that depends on the
  column third); what a device sends in a later exchange already holds what the earlier ones brought it. Over the
  extended reals a change of float format is the identity and a sum may be regrouped, so the value a device ends with is
  its block of the one-device product.
-/
import proofs.«900896_g7700000000000897_dist_matmul_mk_i_outk_m3072_n3072_k1536_v7x_i8_bf16_1_alg».proof.Defs
import proofs.«900896_g7700000000000897_dist_matmul_mk_i_outk_m3072_n3072_k1536_v7x_i8_bf16_1_alg».proof.Proof.Gen.Kernel
import proofs.«900896_g7700000000000897_dist_matmul_mk_i_outk_m3072_n3072_k1536_v7x_i8_bf16_1_alg».proof.Proof.Gen.Kernel.Skeleton
import proofs.«900896_g7700000000000897_dist_matmul_mk_i_outk_m3072_n3072_k1536_v7x_i8_bf16_1_alg».proof.Proof.Gen.Kernel.Launch
import proofs.«900896_g7700000000000897_dist_matmul_mk_i_outk_m3072_n3072_k1536_v7x_i8_bf16_1_alg».proof.Proof.Gen.Kernel.Points
import proofs.«900896_g7700000000000897_dist_matmul_mk_i_outk_m3072_n3072_k1536_v7x_i8_bf16_1_alg».proof.Proof.Gen.Kernel.Frame
import proofs.«900896_g7700000000000897_dist_matmul_mk_i_outk_m3072_n3072_k1536_v7x_i8_bf16_1_alg».proof.Proof.Gen.KernelIdeal
import proofs.«900896_g7700000000000897_dist_matmul_mk_i_outk_m3072_n3072_k1536_v7x_i8_bf16_1_alg».proof.Proof.Gen.KernelIdeal.Skeleton
import proofs.«900896_g7700000000000897_dist_matmul_mk_i_outk_m3072_n3072_k1536_v7x_i8_bf16_1_alg».proof.Proof.Gen.KernelIdeal.Launch
import proofs.«900896_g7700000000000897_dist_matmul_mk_i_outk_m3072_n3072_k1536_v7x_i8_bf16_1_alg».proof.Proof.Gen.KernelIdeal.Points
import proofs.«900896_g7700000000000897_dist_matmul_mk_i_outk_m3072_n3072_k1536_v7x_i8_bf16_1_alg».proof.Proof.Gen.KernelIdeal.Frame
import proofs.«900896_g7700000000000897_dist_matmul_mk_i_outk_m3072_n3072_k1536_v7x_i8_bf16_1_alg».proof.Proof.Gen.ReferenceIdeal
import proofs.«900896_g7700000000000897_dist_matmul_mk_i_outk_m3072_n3072_k1536_v7x_i8_bf16_1_alg».proof.Proof.Gen.Pre_finite_inputs_Kernel
import proofs.«900896_g7700000000000897_dist_matmul_mk_i_outk_m3072_n3072_k1536_v7x_i8_bf16_1_alg».proof.Proof.Gen.Pre_finite_inputs_ReferenceIdeal
import proofs.«900896_g7700000000000897_dist_matmul_mk_i_outk_m3072_n3072_k1536_v7x_i8_bf16_1_alg».proof.Proof.Body
import proofs.«900896_g7700000000000897_dist_matmul_mk_i_outk_m3072_n3072_k1536_v7x_i8_bf16_1_alg».proof.Proof.Bits.Body
import proofs.«900896_g7700000000000897_dist_matmul_mk_i_outk_m3072_n3072_k1536_v7x_i8_bf16_1_alg».proof.Proof.Assemble
import proofs.«900896_g7700000000000897_dist_matmul_mk_i_outk_m3072_n3072_k1536_v7x_i8_bf16_1_alg».proof.Proof.RefRun
import Idealize.ShloMosaic.Adequacy
import Idealize.ShloMosaic.Init

noncomputable section

namespace Cert.Proof

open Idealize.ShloMosaic Idealize.SL.Sem

theorem run_KernelIdeal (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v1) = Cert.KernelIdeal.Hand.outBuf m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  Cert.KernelIdeal.Hand.hrun_of_body (F := Ideal)
    (fun m ρ c => Cert.KernelIdeal.Hand.body_obligation m ρ c (Cert.KernelIdeal.Hand.sound_body m ρ c)) m ρ

theorem run_Kernel (m : (ℓ : Loc Cert.Kernel.nD Cert.Kernel.τ Cert.Kernel.sig) → Buf (Elt Bits) ℓ)
    (ρ : Dev Cert.Kernel.nD → PrngReg) :
    θ_run (Cert.Kernel.defs (F := Bits)) (onTc (τ := Cert.Kernel.τ) (Cert.Kernel.main (F := Bits))) ⟨m, fun _ => 0, ρ⟩
      (fun r => ∀ c : Dev Cert.Kernel.nD,
        r.2.mem ((c.tc : Thread Cert.Kernel.nD Cert.Kernel.τ).loc Cert.Kernel.main_v1) = Cert.Kernel.Hand.outBuf m c
        ∧ r.2.mem ((c.tc : Thread Cert.Kernel.nD Cert.Kernel.τ).loc Cert.Kernel.main_arg0) = m ((c.tc : Thread Cert.Kernel.nD Cert.Kernel.τ).loc Cert.Kernel.main_arg0)
        ∧ r.2.mem ((c.tc : Thread Cert.Kernel.nD Cert.Kernel.τ).loc Cert.Kernel.main_arg1) = m ((c.tc : Thread Cert.Kernel.nD Cert.Kernel.τ).loc Cert.Kernel.main_arg1)) :=
  Cert.Kernel.Hand.hrun_of_body (F := Bits)
    (fun m ρ c => Cert.Kernel.Hand.body_obligation m ρ c (Cert.Kernel.Hand.sound_body m ρ c)) m ρ

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m g _ => Cert.Kernel.Hand.args_kept_of_run (F := Bits) run_Kernel m g,
  Cert.KernelIdeal.Hand.frame_of_run run_KernelIdeal,
  Cert.RefHand.ref_frame,
  trivial,
  Cert.KernelIdeal.Hand.algebraic_of_run run_KernelIdeal⟩

end Cert.Proof

end
